-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4000 : Shape := ⟨2, ![512, 4000]⟩
abbrev S1024000x7 : Shape := ⟨2, ![1024000, 7]⟩
abbrev S2x3072000 : Shape := ⟨2, ![2, 3072000]⟩
abbrev S3072000x4 : Shape := ⟨2, ![3072000, 4]⟩
abbrev S2000x7 : Shape := ⟨2, ![2000, 7]⟩
abbrev S2000x2 : Shape := ⟨2, ![2000, 2]⟩
abbrev S4 : Shape := ⟨1, ![4]⟩
abbrev S2000 : Shape := ⟨1, ![2000]⟩
abbrev S_ : Shape := ⟨0, ![]⟩

class Facts : Prop where
  bcast_S_S512x4000 : S_.BroadcastsInDim S512x4000 (![] : Fin 0 → Fin S512x4000.rank)
  reducesTo_S512x4000_S_d0_1 : S512x4000.ReducesTo [0, 1] S_
  h_S_ : 0 < S_.numel
  bcast_S_S1024000x7 : S_.BroadcastsInDim S1024000x7 (![] : Fin 0 → Fin S1024000x7.rank)
  reducesTo_S1024000x7_S_d0_1 : S1024000x7.ReducesTo [0, 1] S_
  bcast_S_S3072000x4 : S_.BroadcastsInDim S3072000x4 (![] : Fin 0 → Fin S3072000x4.rank)
  reducesTo_S3072000x4_S_d0_1 : S3072000x4.ReducesTo [0, 1] S_
  bcast_S_S2000x7 : S_.BroadcastsInDim S2000x7 (![] : Fin 0 → Fin S2000x7.rank)
  reducesTo_S2000x7_S_d0_1 : S2000x7.ReducesTo [0, 1] S_
  bcast_S_S2000x2 : S_.BroadcastsInDim S2000x2 (![] : Fin 0 → Fin S2000x2.rank)
  reducesTo_S2000x2_S_d0_1 : S2000x2.ReducesTo [0, 1] S_
  bcast_S_S4 : S_.BroadcastsInDim S4 (![] : Fin 0 → Fin S4.rank)
  reducesTo_S4_S_d0 : S4.ReducesTo [0] S_
  bcast_S_S2x3072000 : S_.BroadcastsInDim S2x3072000 (![] : Fin 0 → Fin S2x3072000.rank)
  reducesTo_S2x3072000_S_d0_1 : S2x3072000.ReducesTo [0, 1] S_

variable [Facts]

def fn_part3 {F : FTy → Type} [FloatOps F] (main_arg3 : IVec S2x3072000 32) (main_v48 : IVec S_ 1) (main_v49 : FVec F S2000x2 .f32) (main_v50 : FVec F S2000x2 .f32) : IVec S_ 1 :=
  let main_v51 : IVec S2000x2 1 := cmpf .olt main_v49 main_v50
  let main_c_19 : IVec S_ 1 := constantI S_ 1 1#1
  let main_v52 : IVec S_ 1 := (fun x v => Host.reduce IntOp.andi x v reducesTo_S2000x2_S_d0_1 h_S_) main_v51 main_c_19
  let main_v53 : IVec S_ 1 := andi main_v48 main_v52
  let main_c_20 : IVec S_ 32 := constantI S_ 32 0#32
  let main_v54 : IVec S2x3072000 32 := broadcastInDim S2x3072000 ![] bcast_S_S2x3072000 main_c_20
  let main_v55 : IVec S2x3072000 1 := cmpi .sge main_arg3 main_v54
  let main_c_21 : IVec S_ 32 := constantI S_ 32 1024000#32
  let main_v56 : IVec S2x3072000 32 := broadcastInDim S2x3072000 ![] bcast_S_S2x3072000 main_c_21
  let main_v57 : IVec S2x3072000 1 := cmpi .slt main_arg3 main_v56
  let main_v58 : IVec S2x3072000 1 := andi main_v55 main_v57
  let main_c_22 : IVec S_ 1 := constantI S_ 1 1#1
  let main_v59 : IVec S_ 1 := (fun x v => Host.reduce IntOp.andi x v reducesTo_S2x3072000_S_d0_1 h_S_) main_v58 main_c_22
  let main_v60 : IVec S_ 1 := andi main_v53 main_v59
  main_v60

def fn_part2 {F : FTy → Type} [FloatOps F] (main_arg3 : IVec S2x3072000 32) (main_arg8 : FVec F S2000x2 .f32) (main_arg9 : FVec F S4 .f32) (main_arg10 : FVec F S4 .f32) (main_arg12 : FVec F S2000x2 .f32) (main_v33 : IVec S_ 1) : IVec S_ 1 :=
  let main_v34 : FVec F S2000x2 .f32 := Host.absf main_arg8
  let main_cst_12 : FVec F S_ .f32 := constant S_ .f32 0x7F800000#32
  let main_v35 : FVec F S2000x2 .f32 := broadcastInDim S2000x2 ![] bcast_S_S2000x2 main_cst_12
  let main_v36 : IVec S2000x2 1 := cmpf .olt main_v34 main_v35
  let main_c_13 : IVec S_ 1 := constantI S_ 1 1#1
  let main_v37 : IVec S_ 1 := (fun x v => Host.reduce IntOp.andi x v reducesTo_S2000x2_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S4 .f32 := Host.absf main_arg10
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S2000x2 .f32 := Host.absf main_arg12
  let main_cst_18 : FVec F S_ .f32 := constant S_ .f32 0x7F800000#32
  let main_v50 : FVec F S2000x2 .f32 := broadcastInDim S2000x2 ![] bcast_S_S2000x2 main_cst_18
  fn_part3 (F := F) main_arg3 main_v48 main_v49 main_v50

def fn_part1 {F : FTy → Type} [FloatOps F] (main_arg3 : IVec S2x3072000 32) (main_arg5 : FVec F S2000x7 .f32) (main_arg6 : FVec F S2000x7 .f32) (main_arg7 : FVec F S2000x2 .f32) (main_arg8 : FVec F S2000x2 .f32) (main_arg9 : FVec F S4 .f32) (main_arg10 : FVec F S4 .f32) (main_arg12 : FVec F S2000x2 .f32) (main_v13 : IVec S_ 1) (main_v16 : IVec S3072000x4 1) : IVec S_ 1 :=
  let main_c_5 : IVec S_ 1 := constantI S_ 1 1#1
  let main_v17 : IVec S_ 1 := (fun x v => Host.reduce IntOp.andi x v reducesTo_S3072000x4_S_d0_1 h_S_) main_v16 main_c_5
  let main_v18 : IVec S_ 1 := andi main_v13 main_v17
  let main_v19 : FVec F S2000x7 .f32 := Host.absf main_arg5
  let main_cst_6 : FVec F S_ .f32 := constant S_ .f32 0x7F800000#32
  let main_v20 : FVec F S2000x7 .f32 := broadcastInDim S2000x7 ![] bcast_S_S2000x7 main_cst_6
  let main_v21 : IVec S2000x7 1 := cmpf .olt main_v19 main_v20
  let main_c_7 : IVec S_ 1 := constantI S_ 1 1#1
  let main_v22 : IVec S_ 1 := (fun x v => Host.reduce IntOp.andi x v reducesTo_S2000x7_S_d0_1 h_S_) main_v21 main_c_7
  let main_v23 : IVec S_ 1 := andi main_v18 main_v22
  let main_v24 : FVec F S2000x7 .f32 := Host.absf main_arg6
  let main_cst_8 : FVec F S_ .f32 := constant S_ .f32 0x7F800000#32
  let main_v25 : FVec F S2000x7 .f32 := broadcastInDim S2000x7 ![] bcast_S_S2000x7 main_cst_8
  let main_v26 : IVec S2000x7 1 := cmpf .olt main_v24 main_v25
  let main_c_9 : IVec S_ 1 := constantI S_ 1 1#1
  let main_v27 : IVec S_ 1 := (fun x v => Host.reduce IntOp.andi x v reducesTo_S2000x7_S_d0_1 h_S_) main_v26 main_c_9
  let main_v28 : IVec S_ 1 := andi main_v23 main_v27
  let main_v29 : FVec F S2000x2 .f32 := Host.absf main_arg7
  let main_cst_10 : FVec F S_ .f32 := constant S_ .f32 0x7F800000#32
  let main_v30 : FVec F S2000x2 .f32 := broadcastInDim S2000x2 ![] bcast_S_S2000x2 main_cst_10
  let main_v31 : IVec S2000x2 1 := cmpf .olt main_v29 main_v30
  let main_c_11 : IVec S_ 1 := constantI S_ 1 1#1
  let main_v32 : IVec S_ 1 := (fun x v => Host.reduce IntOp.andi x v reducesTo_S2000x2_S_d0_1 h_S_) main_v31 main_c_11
  let main_v33 : IVec S_ 1 := andi main_v28 main_v32
  fn_part2 (F := F) main_arg3 main_arg8 main_arg9 main_arg10 main_arg12 main_v33

def fn {F : FTy → Type} [FloatOps F] (main_arg0 : FVec F S512x4000 .f32) (main_arg1 : FVec F S512x4000 .f32) (main_arg2 : FVec F S1024000x7 .f32) (main_arg3 : IVec S2x3072000 32) (main_arg4 : FVec F S3072000x4 .f32) (main_arg5 : FVec F S2000x7 .f32) (main_arg6 : FVec F S2000x7 .f32) (main_arg7 : FVec F S2000x2 .f32) (main_arg8 : FVec F S2000x2 .f32) (main_arg9 : FVec F S4 .f32) (main_arg10 : FVec F S4 .f32) (main_arg11 : IVec S2000 1) (main_arg12 : FVec F S2000x2 .f32) : IVec S_ 1 :=
  let main_v0 : FVec F S512x4000 .f32 := Host.absf main_arg0
  let main_cst : FVec F S_ .f32 := constant S_ .f32 0x7F800000#32
  let main_v1 : FVec F S512x4000 .f32 := broadcastInDim S512x4000 ![] bcast_S_S512x4000 main_cst
  let main_v2 : IVec S512x4000 1 := cmpf .olt main_v0 main_v1
  let main_c : IVec S_ 1 := constantI S_ 1 1#1
  let main_v3 : IVec S_ 1 := (fun x v => Host.reduce IntOp.andi x v reducesTo_S512x4000_S_d0_1 h_S_) main_v2 main_c
  let main_v4 : FVec F S512x4000 .f32 := Host.absf main_arg1
  let main_cst_0 : FVec F S_ .f32 := constant S_ .f32 0x7F800000#32
  let main_v5 : FVec F S512x4000 .f32 := broadcastInDim S512x4000 ![] bcast_S_S512x4000 main_cst_0
  let main_v6 : IVec S512x4000 1 := cmpf .olt main_v4 main_v5
  let main_c_1 : IVec S_ 1 := constantI S_ 1 1#1
  let main_v7 : IVec S_ 1 := (fun x v => Host.reduce IntOp.andi x v reducesTo_S512x4000_S_d0_1 h_S_) main_v6 main_c_1
  let main_v8 : IVec S_ 1 := andi main_v3 main_v7
  let main_v9 : FVec F S1024000x7 .f32 := Host.absf main_arg2
  let main_cst_2 : FVec F S_ .f32 := constant S_ .f32 0x7F800000#32
  let main_v10 : FVec F S1024000x7 .f32 := broadcastInDim S1024000x7 ![] bcast_S_S1024000x7 main_cst_2
  let main_v11 : IVec S1024000x7 1 := cmpf .olt main_v9 main_v10
  let main_c_3 : IVec S_ 1 := constantI S_ 1 1#1
  let main_v12 : IVec S_ 1 := (fun x v => Host.reduce IntOp.andi x v reducesTo_S1024000x7_S_d0_1 h_S_) main_v11 main_c_3
  let main_v13 : IVec S_ 1 := andi main_v8 main_v12
  let main_v14 : FVec F S3072000x4 .f32 := Host.absf main_arg4
  let main_cst_4 : FVec F S_ .f32 := constant S_ .f32 0x7F800000#32
  let main_v15 : FVec F S3072000x4 .f32 := broadcastInDim S3072000x4 ![] bcast_S_S3072000x4 main_cst_4
  let main_v16 : IVec S3072000x4 1 := cmpf .olt main_v14 main_v15
  fn_part1 (F := F) main_arg3 main_arg5 main_arg6 main_arg7 main_arg8 main_arg9 main_arg10 main_arg12 main_v13 main_v16
-- ==== Kernel.lean ====
abbrev S512x4000 : Shape := ⟨2, ![512, 4000]⟩
abbrev S1024000x7 : Shape := ⟨2, ![1024000, 7]⟩
abbrev S2x3072000 : Shape := ⟨2, ![2, 3072000]⟩
abbrev S3072000x4 : Shape := ⟨2, ![3072000, 4]⟩
abbrev S2000x7 : Shape := ⟨2, ![2000, 7]⟩
abbrev S2000x2 : Shape := ⟨2, ![2000, 2]⟩
abbrev S4 : Shape := ⟨1, ![4]⟩
abbrev S2000 : Shape := ⟨1, ![2000]⟩
abbrev S512x2000x2 : Shape := ⟨3, ![512, 2000, 2]⟩
abbrev S2x512x2000 : Shape := ⟨3, ![2, 512, 2000]⟩
abbrev S2x1024000 : Shape := ⟨2, ![2, 1024000]⟩
abbrev S2x2000 : Shape := ⟨2, ![2, 2000]⟩
abbrev S1x2x1x2000 : Shape := ⟨4, ![1, 2, 1, 2000]⟩
abbrev S1x2x512x2000 : Shape := ⟨4, ![1, 2, 512, 2000]⟩
abbrev S8x1024000 : Shape := ⟨2, ![8, 1024000]⟩
abbrev S8x8000x128 : Shape := ⟨3, ![8, 8000, 128]⟩
abbrev S512x2000x7 : Shape := ⟨3, ![512, 2000, 7]⟩
abbrev S6x1024000 : Shape := ⟨2, ![6, 1024000]⟩
abbrev S6x8000x128 : Shape := ⟨3, ![6, 8000, 128]⟩
abbrev S4x8000x128 : Shape := ⟨3, ![4, 8000, 128]⟩
abbrev S2x8000x128 : Shape := ⟨3, ![2, 8000, 128]⟩
abbrev S1x1 : Shape := ⟨2, ![1, 1]⟩
abbrev S8x800x128 : Shape := ⟨3, ![8, 800, 128]⟩
abbrev S6x800x128 : Shape := ⟨3, ![6, 800, 128]⟩
abbrev S4x800x128 : Shape := ⟨3, ![4, 800, 128]⟩
abbrev S2x800x128 : Shape := ⟨3, ![2, 800, 128]⟩
abbrev S800x128 : Shape := ⟨2, ![800, 128]⟩
abbrev S1x800x128 : Shape := ⟨3, ![1, 800, 128]⟩
abbrev S1x128 : Shape := ⟨2, ![1, 128]⟩
abbrev S1x1x128 : Shape := ⟨3, ![1, 1, 128]⟩
abbrev S_ : Shape := ⟨0, ![]⟩
abbrev S1x3072000 : Shape := ⟨2, ![1, 3072000]⟩
abbrev S3072000 : Shape := ⟨1, ![3072000]⟩
abbrev S3072000x1 : Shape := ⟨2, ![3072000, 1]⟩
abbrev S1 : Shape := ⟨1, ![1]⟩
abbrev S4x3072000 : Shape := ⟨2, ![4, 3072000]⟩
abbrev S4x24000x128 : Shape := ⟨3, ![4, 24000, 128]⟩
abbrev S4x1x1 : Shape := ⟨3, ![4, 1, 1]⟩
abbrev S2x24000x128 : Shape := ⟨3, ![2, 24000, 128]⟩
abbrev S4x600x128 : Shape := ⟨3, ![4, 600, 128]⟩
abbrev S2x600x128 : Shape := ⟨3, ![2, 600, 128]⟩
abbrev S1x600x128 : Shape := ⟨3, ![1, 600, 128]⟩
abbrev S3072000x2 : Shape := ⟨2, ![3072000, 2]⟩
abbrev S1024000x2 : Shape := ⟨2, ![1024000, 2]⟩
abbrev S1024000x1 : Shape := ⟨2, ![1024000, 1]⟩
abbrev S1024000 : Shape := ⟨1, ![1024000]⟩
abbrev S2000x1 : Shape := ⟨2, ![2000, 1]⟩
abbrev S1x2000 : Shape := ⟨2, ![1, 2000]⟩
abbrev S512x2000 : Shape := ⟨2, ![512, 2000]⟩
abbrev S1x1024000 : Shape := ⟨2, ![1, 1024000]⟩
abbrev S5x1024000 : Shape := ⟨2, ![5, 1024000]⟩
abbrev S5x8000x128 : Shape := ⟨3, ![5, 8000, 128]⟩
abbrev S5x800x128 : Shape := ⟨3, ![5, 800, 128]⟩

abbrev nBuf : Space → Nat
  | .hbm => 153
  | .vmem => 24
  | .smem => 0
  | _ => 0

abbrev hbmTy0_0 (i : Nat) : BufTy := match i % 128 with
  | 0 => ⟨S512x4000, .f32⟩
  | 1 => ⟨S512x4000, .f32⟩
  | 2 => ⟨S1024000x7, .f32⟩
  | 3 => ⟨S2x3072000, .i32⟩
  | 4 => ⟨S3072000x4, .f32⟩
  | 5 => ⟨S2000x7, .f32⟩
  | 6 => ⟨S2000x7, .f32⟩
  | 7 => ⟨S2000x2, .f32⟩
  | 8 => ⟨S2000x2, .f32⟩
  | 9 => ⟨S4, .f32⟩
  | 10 => ⟨S4, .f32⟩
  | 11 => ⟨S2000, .i1⟩
  | 12 => ⟨S2000x2, .f32⟩
  | 13 => ⟨S512x2000x2, .f32⟩
  | 14 => ⟨S2x512x2000, .f32⟩
  | 15 => ⟨S2x1024000, .f32⟩
  | 16 => ⟨S512x2000x2, .f32⟩
  | 17 => ⟨S2x512x2000, .f32⟩
  | 18 => ⟨S2x1024000, .f32⟩
  | 19 => ⟨S2x2000, .f32⟩
  | 20 => ⟨S1x2x1x2000, .f32⟩
  | 21 => ⟨S1x2x512x2000, .f32⟩
  | 22 => ⟨S2x1024000, .f32⟩
  | 23 => ⟨S2x2000, .f32⟩
  | 24 => ⟨S1x2x1x2000, .f32⟩
  | 25 => ⟨S1x2x512x2000, .f32⟩
  | 26 => ⟨S2x1024000, .f32⟩
  | 27 => ⟨S8x1024000, .f32⟩
  | 28 => ⟨S8x8000x128, .f32⟩
  | 29 => ⟨S512x2000x7, .f32⟩
  | 30 => ⟨S512x2000x2, .f32⟩
  | 31 => ⟨S2x512x2000, .f32⟩
  | 32 => ⟨S2x1024000, .f32⟩
  | 33 => ⟨S2000x2, .f32⟩
  | 34 => ⟨S2x2000, .f32⟩
  | 35 => ⟨S1x2x1x2000, .f32⟩
  | 36 => ⟨S1x2x512x2000, .f32⟩
  | 37 => ⟨S2x1024000, .f32⟩
  | 38 => ⟨S2000x2, .f32⟩
  | 39 => ⟨S2x2000, .f32⟩
  | 40 => ⟨S1x2x1x2000, .f32⟩
  | 41 => ⟨S1x2x512x2000, .f32⟩
  | 42 => ⟨S2x1024000, .f32⟩
  | 43 => ⟨S6x1024000, .f32⟩
  | 44 => ⟨S6x8000x128, .f32⟩
  | 45 => ⟨S4x8000x128, .f32⟩
  | 46 => ⟨S2x8000x128, .f32⟩
  | 47 => ⟨S1x1, .f32⟩
  | 48 => ⟨S_, .f32⟩
  | 49 => ⟨S_, .f32⟩
  | 50 => ⟨S_, .f32⟩
  | 51 => ⟨S2x1024000, .f32⟩
  | 52 => ⟨S1x3072000, .i32⟩
  | 53 => ⟨S3072000, .i32⟩
  | 54 => ⟨S1x3072000, .i32⟩
  | 55 => ⟨S3072000, .i32⟩
  | 56 => ⟨S_, .i32⟩
  | 57 => ⟨S3072000, .i32⟩
  | 58 => ⟨S3072000, .i1⟩
  | 59 => ⟨S_, .i32⟩
  | 60 => ⟨S3072000, .i32⟩
  | 61 => ⟨S3072000, .i32⟩
  | 62 => ⟨S3072000, .i32⟩
  | 63 => ⟨S3072000x1, .i32⟩
  | 64 => ⟨S1, .i32⟩
  | 65 => ⟨S_, .i32⟩
  | 66 => ⟨S3072000x1, .i32⟩
  | 67 => ⟨S3072000x1, .i1⟩
  | 68 => ⟨S1x1, .i32⟩
  | 69 => ⟨S3072000x1, .i32⟩
  | 70 => ⟨S3072000x1, .i1⟩
  | 71 => ⟨S3072000x1, .i1⟩
  | 72 => ⟨S_, .i1⟩
  | 73 => ⟨S3072000, .i1⟩
  | 74 => ⟨S2x3072000, .f32⟩
  | 75 => ⟨S2x3072000, .i1⟩
  | 76 => ⟨S_, .f32⟩
  | 77 => ⟨S2x3072000, .f32⟩
  | 78 => ⟨S2x3072000, .f32⟩
  | 79 => ⟨S_, .i32⟩
  | 80 => ⟨S3072000, .i32⟩
  | 81 => ⟨S3072000, .i1⟩
  | 82 => ⟨S_, .i32⟩
  | 83 => ⟨S3072000, .i32⟩
  | 84 => ⟨S3072000, .i32⟩
  | 85 => ⟨S3072000, .i32⟩
  | 86 => ⟨S3072000x1, .i32⟩
  | 87 => ⟨S1, .i32⟩
  | 88 => ⟨S_, .i32⟩
  | 89 => ⟨S3072000x1, .i32⟩
  | 90 => ⟨S3072000x1, .i1⟩
  | 91 => ⟨S1x1, .i32⟩
  | 92 => ⟨S3072000x1, .i32⟩
  | 93 => ⟨S3072000x1, .i1⟩
  | 94 => ⟨S3072000x1, .i1⟩
  | 95 => ⟨S_, .i1⟩
  | 96 => ⟨S3072000, .i1⟩
  | 97 => ⟨S2x3072000, .f32⟩
  | 98 => ⟨S2x3072000, .i1⟩
  | 99 => ⟨S_, .f32⟩
  | 100 => ⟨S2x3072000, .f32⟩
  | 101 => ⟨S2x3072000, .f32⟩
  | 102 => ⟨S4x3072000, .f32⟩
  | 103 => ⟨S4x24000x128, .f32⟩
  | 104 => ⟨S4x3072000, .f32⟩
  | 105 => ⟨S4x24000x128, .f32⟩
  | 106 => ⟨S4x1x1, .f32⟩
  | 107 => ⟨S4x1x1, .f32⟩
  | 108 => ⟨S2x24000x128, .f32⟩
  | 109 => ⟨S2x3072000, .f32⟩
  | 110 => ⟨S3072000x2, .f32⟩
  | 111 => ⟨S_, .f32⟩
  | 112 => ⟨S1024000x2, .f32⟩
  | 113 => ⟨S3072000x1, .i32⟩
  | 114 => ⟨S1024000x2, .f32⟩
  | 115 => ⟨S1024000x1, .f32⟩
  | 116 => ⟨S1024000, .f32⟩
  | 117 => ⟨S1024000x1, .f32⟩
  | 118 => ⟨S1024000, .f32⟩
  | 119 => ⟨S2000x1, .f32⟩
  | 120 => ⟨S2000, .f32⟩
  | 121 => ⟨S1x2000, .f32⟩
  | 122 => ⟨S512x2000, .f32⟩
  | 123 => ⟨S1024000, .f32⟩
  | 124 => ⟨S2000x1, .f32⟩
  | 125 => ⟨S2000, .f32⟩
  | 126 => ⟨S1x2000, .f32⟩
  | 127 => ⟨S512x2000, .f32⟩
  | _ => ⟨S512x4000, .f32⟩

abbrev hbmTy0_1 (i : Nat) : BufTy := match i % 128 with
  | 0 => ⟨S1024000, .f32⟩
  | 1 => ⟨S2000, .f32⟩
  | 2 => ⟨S1x2000, .f32⟩
  | 3 => ⟨S512x2000, .f32⟩
  | 4 => ⟨S1024000, .f32⟩
  | 5 => ⟨S1x1024000, .f32⟩
  | 6 => ⟨S1x1024000, .f32⟩
  | 7 => ⟨S1x1024000, .f32⟩
  | 8 => ⟨S1x1024000, .f32⟩
  | 9 => ⟨S1x1024000, .f32⟩
  | 10 => ⟨S5x1024000, .f32⟩
  | 11 => ⟨S5x8000x128, .f32⟩
  | 12 => ⟨S1x1, .f32⟩
  | 13 => ⟨S2000, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | _ => ⟨S512x4000, .f32⟩

abbrev hbmTy (i : Nat) : BufTy := match i / 128 with
  | 0 => hbmTy0_0 i
  | 1 => hbmTy0_1 i
  | _ => ⟨S512x4000, .f32⟩

abbrev bufTy : (tb : Table) → Fin (tcTables nBuf tb) → BufTy
  | .hbm, ⟨i, _⟩ => hbmTy i
  | .local _ .vmem, ⟨0, _⟩ => ⟨S8x800x128, .f32⟩
  | .local _ .vmem, ⟨1, _⟩ => ⟨S8x800x128, .f32⟩
  | .local _ .vmem, ⟨2, _⟩ => ⟨S6x800x128, .f32⟩
  | .local _ .vmem, ⟨3, _⟩ => ⟨S6x800x128, .f32⟩
  | .local _ .vmem, ⟨4, _⟩ => ⟨S4x800x128, .f32⟩
  | .local _ .vmem, ⟨5, _⟩ => ⟨S4x800x128, .f32⟩
  | .local _ .vmem, ⟨6, _⟩ => ⟨S2x800x128, .f32⟩
  | .local _ .vmem, ⟨7, _⟩ => ⟨S2x800x128, .f32⟩
  | .local _ .vmem, ⟨8, _⟩ => ⟨S1x1, .f32⟩
  | .local _ .vmem, ⟨9, _⟩ => ⟨S1x1, .f32⟩
  | .local _ .vmem, ⟨10, _⟩ => ⟨S4x600x128, .f32⟩
  | .local _ .vmem, ⟨11, _⟩ => ⟨S4x600x128, .f32⟩
  | .local _ .vmem, ⟨12, _⟩ => ⟨S4x600x128, .f32⟩
  | .local _ .vmem, ⟨13, _⟩ => ⟨S4x600x128, .f32⟩
  | .local _ .vmem, ⟨14, _⟩ => ⟨S4x1x1, .f32⟩
  | .local _ .vmem, ⟨15, _⟩ => ⟨S4x1x1, .f32⟩
  | .local _ .vmem, ⟨16, _⟩ => ⟨S2x600x128, .f32⟩
  | .local _ .vmem, ⟨17, _⟩ => ⟨S2x600x128, .f32⟩
  | .local _ .vmem, ⟨18, _⟩ => ⟨S4x800x128, .f32⟩
  | .local _ .vmem, ⟨19, _⟩ => ⟨S4x800x128, .f32⟩
  | .local _ .vmem, ⟨20, _⟩ => ⟨S5x800x128, .f32⟩
  | .local _ .vmem, ⟨21, _⟩ => ⟨S5x800x128, .f32⟩
  | .local _ .vmem, ⟨22, _⟩ => ⟨S1x1, .f32⟩
  | .local _ .vmem, ⟨23, _⟩ => ⟨S1x1, .f32⟩
  | _, _ => ⟨S512x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev main_v33 : Ref sig .tc := ⟨.hbm, 48, rfl⟩
abbrev main_cst : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_v14 : Ref sig .tc := ⟨.hbm, 75, rfl⟩
abbrev main_call0_cst : Ref sig .tc := ⟨.hbm, 76, rfl⟩
abbrev main_call0_v15 : Ref sig .tc := ⟨.hbm, 77, rfl⟩
abbrev main_v40 : Ref sig .tc := ⟨.hbm, 78, rfl⟩
abbrev main_call1_c : Ref sig .tc := ⟨.hbm, 79, rfl⟩
abbrev main_call1_v0 : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_c_1 : Ref sig .tc := ⟨.hbm, 87, rfl⟩
abbrev main_call1_c_2 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_3 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_call1_cst : Ref sig .tc := ⟨.hbm, 99, rfl⟩
abbrev main_call1_v15 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_cst_0 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_1 : Ref sig .tc := ⟨.hbm, 142, rfl⟩
abbrev main_v81 : Ref sig .tc := ⟨.hbm, 143, rfl⟩
abbrev main_cst_2 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_3 : Ref sig .tc := ⟨.hbm, 148, rfl⟩
abbrev main_v85 : Ref sig .tc := ⟨.hbm, 149, rfl⟩
abbrev main_cst_4 : Ref sig .tc := ⟨.hbm, 150, rfl⟩
abbrev main_v86 : Ref sig .tc := ⟨.hbm, 151, rfl⟩
abbrev main_v87 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v48 : BitVec 1 := Scalar.cmpi .eq arg0 c9_i32
  let v49 : BitVec 32 := Scalar.extui v48
  let c0_i32_21 : BitVec 32 := 0#32
  let v50 : BitVec 1 := Scalar.cmpi .ne v49 c0_i32_21
  v50

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x800x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![40], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x600x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x600x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2x600x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v38 : BitVec 1 := Scalar.cmpi .eq arg0 c9_i32
  let v39 : BitVec 32 := Scalar.extui v38
  let c0_i32_13 : BitVec 32 := 0#32
  let v40 : BitVec 1 := Scalar.cmpi .ne v39 c0_i32_13
  v40

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4x800x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5x800x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  shapeCasts_S512x4000_S512x2000x2 : S512x4000.ShapeCasts S512x2000x2
  transposes_S512x2000x2_S2x512x2000_2_0_1 : S512x2000x2.Transposes [2, 0, 1] S2x512x2000
  shapeCasts_S2x512x2000_S2x1024000 : S2x512x2000.ShapeCasts S2x1024000
  transposes_S2000x2_S2x2000_1_0 : S2000x2.Transposes [1, 0] S2x2000
  shapeCasts_S2x2000_S1x2x1x2000 : S2x2000.ShapeCasts S1x2x1x2000
  bcast_S1x2x1x2000_S1x2x512x2000_0_1_2_3 : S1x2x1x2000.BroadcastsInDim S1x2x512x2000 (![0, 1, 2, 3] : Fin 4 → Fin S1x2x512x2000.rank)
  shapeCasts_S1x2x512x2000_S2x1024000 : S1x2x512x2000.ShapeCasts S2x1024000
  concatenates_S2x1024000_S2x1024000_S2x1024000_S2x1024000_S8x1024000_d0 : Shape.Concatenates [S2x1024000, S2x1024000, S2x1024000, S2x1024000] S8x1024000 0
  shapeCasts_S8x1024000_S8x8000x128 : S8x1024000.ShapeCasts S8x8000x128
  shapeCasts_S1024000x7_S512x2000x7 : S1024000x7.ShapeCasts S512x2000x7
  slices_S512x2000x7_S512x2000x2_0_0_0 : S512x2000x7.Slices ![0, 0, 0] S512x2000x2
  slices_S2000x7_S2000x2_0_0 : S2000x7.Slices ![0, 0] S2000x2
  concatenates_S2x1024000_S2x1024000_S2x1024000_S6x1024000_d0 : Shape.Concatenates [S2x1024000, S2x1024000, S2x1024000] S6x1024000 0
  shapeCasts_S6x1024000_S6x8000x128 : S6x1024000.ShapeCasts S6x8000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x800x128_S8x800x128_0_0_0 : ∀ a, (![0, 0, 0] : Fin 3 → Nat) a + S8x800x128.size a ≤ S8x800x128.size a
  h_S8x800x128 : 0 < S8x800x128.numel
  shapeCasts_S8x800x128_S8x800x128 : S8x800x128.ShapeCasts S8x800x128
  slices_S8x800x128_o0_0_0_S2x800x128 : S8x800x128.Slices ![0, 0, 0] S2x800x128
  slices_S8x800x128_o2_0_0_S2x800x128 : S8x800x128.Slices ![2, 0, 0] S2x800x128
  slices_S8x800x128_o4_0_0_S2x800x128 : S8x800x128.Slices ![4, 0, 0] S2x800x128
  slices_S8x800x128_o6_0_0_S2x800x128 : S8x800x128.Slices ![6, 0, 0] S2x800x128
  reduces_S2x800x128_S800x128 : S2x800x128.Reduces [0] S800x128
  shapeCasts_S800x128_S1x800x128 : S800x128.ShapeCasts S1x800x128
  reduces_S1x800x128_S1x128 : S1x800x128.Reduces [1] S1x128
  shapeCasts_S1x128_S1x1x128 : S1x128.ShapeCasts S1x1x128
  reduces_S1x1x128_S1x1 : S1x1x128.Reduces [2] S1x1
  inb_S6x800x128_S6x800x128_0_0_0 : ∀ a, (![0, 0, 0] : Fin 3 → Nat) a + S6x800x128.size a ≤ S6x800x128.size a
  h_S6x800x128 : 0 < S6x800x128.numel
  shapeCasts_S6x800x128_S6x800x128 : S6x800x128.ShapeCasts S6x800x128
  slices_S6x800x128_o0_0_0_S2x800x128 : S6x800x128.Slices ![0, 0, 0] S2x800x128
  slices_S6x800x128_o2_0_0_S2x800x128 : S6x800x128.Slices ![2, 0, 0] S2x800x128
  slices_S6x800x128_o4_0_0_S2x800x128 : S6x800x128.Slices ![4, 0, 0] S2x800x128
  slices_S2x800x128_o0_0_0_S1x800x128 : S2x800x128.Slices ![0, 0, 0] S1x800x128
  slices_S2x800x128_o1_0_0_S1x800x128 : S2x800x128.Slices ![1, 0, 0] S1x800x128
  concatenates_S2x800x128_S2x800x128_S4x800x128_d0 : Shape.Concatenates [S2x800x128, S2x800x128] S4x800x128 0
  inb_S4x800x128_S4x800x128_0_0_0 : ∀ a, (![0, 0, 0] : Fin 3 → Nat) a + S4x800x128.size a ≤ S4x800x128.size a
  h_S4x800x128 : 0 < S4x800x128.numel
  concatenates_S1x800x128_S1x800x128_S2x800x128_d0 : Shape.Concatenates [S1x800x128, S1x800x128] S2x800x128 0
  inb_S2x800x128_S2x800x128_0_0_0 : ∀ a, (![0, 0, 0] : Fin 3 → Nat) a + S2x800x128.size a ≤ S2x800x128.size a
  h_S2x800x128 : 0 < S2x800x128.numel
  shapeCasts_S1x1_S_ : S1x1.ShapeCasts S_
  shapeCasts_S2x8000x128_S2x1024000 : S2x8000x128.ShapeCasts S2x1024000
  slices_S2x3072000_S1x3072000_0_0 : S2x3072000.Slices ![0, 0] S1x3072000
  shapeCasts_S1x3072000_S3072000 : S1x3072000.ShapeCasts S3072000
  slices_S2x3072000_S1x3072000_1_0 : S2x3072000.Slices ![1, 0] S1x3072000
  bcast_S_S3072000 : S_.BroadcastsInDim S3072000 (![] : Fin 0 → Fin S3072000.rank)
  bcast_S3072000_S3072000x1_0 : S3072000.BroadcastsInDim S3072000x1 (![0] : Fin 1 → Fin S3072000x1.rank)
  bcast_S_S3072000x1 : S_.BroadcastsInDim S3072000x1 (![] : Fin 0 → Fin S3072000x1.rank)
  bcast_S1_S1x1_1 : S1.BroadcastsInDim S1x1 (![1] : Fin 1 → Fin S1x1.rank)
  bcast_S1x1_S3072000x1_0_1 : S1x1.BroadcastsInDim S3072000x1 (![0, 1] : Fin 2 → Fin S3072000x1.rank)
  reducesTo_S3072000x1_S3072000_d1 : S3072000x1.ReducesTo [1] S3072000
  h_S_ : 0 < S_.numel
  bcast_S3072000_S2x3072000_1 : S3072000.BroadcastsInDim S2x3072000 (![1] : Fin 1 → Fin S2x3072000.rank)
  bcast_S_S2x3072000 : S_.BroadcastsInDim S2x3072000 (![] : Fin 0 → Fin S2x3072000.rank)
  concatenates_S2x3072000_S2x3072000_S4x3072000_d0 : Shape.Concatenates [S2x3072000, S2x3072000] S4x3072000 0
  shapeCasts_S4x3072000_S4x24000x128 : S4x3072000.ShapeCasts S4x24000x128
  transposes_S3072000x4_S4x3072000_1_0 : S3072000x4.Transposes [1, 0] S4x3072000
  shapeCasts_S4_S4x1x1 : S4.ShapeCasts S4x1x1
  inb_S4x600x128_S4x600x128_0_0_0 : ∀ a, (![0, 0, 0] : Fin 3 → Nat) a + S4x600x128.size a ≤ S4x600x128.size a
  h_S4x600x128 : 0 < S4x600x128.numel
  shapeCasts_S4x600x128_S4x600x128 : S4x600x128.ShapeCasts S4x600x128
  slices_S4x600x128_o0_0_0_S1x600x128 : S4x600x128.Slices ![0, 0, 0] S1x600x128
  slices_S4x600x128_o1_0_0_S1x600x128 : S4x600x128.Slices ![1, 0, 0] S1x600x128
  slices_S4x600x128_o2_0_0_S1x600x128 : S4x600x128.Slices ![2, 0, 0] S1x600x128
  slices_S4x600x128_o3_0_0_S1x600x128 : S4x600x128.Slices ![3, 0, 0] S1x600x128
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  broadcasts_S4x1x1_S4x600x128 : S4x1x1.Broadcasts S4x600x128
  concatenates_S1x600x128_S1x600x128_S2x600x128_d0 : Shape.Concatenates [S1x600x128, S1x600x128] S2x600x128 0
  inb_S2x600x128_S2x600x128_0_0_0 : ∀ a, (![0, 0, 0] : Fin 3 → Nat) a + S2x600x128.size a ≤ S2x600x128.size a
  h_S2x600x128 : 0 < S2x600x128.numel
  shapeCasts_S2x24000x128_S2x3072000 : S2x24000x128.ShapeCasts S2x3072000
  transposes_S2x3072000_S3072000x2_1_0 : S2x3072000.Transposes [1, 0] S3072000x2
  bcast_S_S1024000x2 : S_.BroadcastsInDim S1024000x2 (![] : Fin 0 → Fin S1024000x2.rank)
  slices_S1024000x2_S1024000x1_0_0 : S1024000x2.Slices ![0, 0] S1024000x1
  shapeCasts_S1024000x1_S1024000 : S1024000x1.ShapeCasts S1024000
  slices_S1024000x2_S1024000x1_0_1 : S1024000x2.Slices ![0, 1] S1024000x1
  slices_S2000x2_S2000x1_0_0 : S2000x2.Slices ![0, 0] S2000x1
  shapeCasts_S2000x1_S2000 : S2000x1.ShapeCasts S2000
  shapeCasts_S2000_S1x2000 : S2000.ShapeCasts S1x2000
  bcast_S1x2000_S512x2000_0_1 : S1x2000.BroadcastsInDim S512x2000 (![0, 1] : Fin 2 → Fin S512x2000.rank)
  shapeCasts_S512x2000_S1024000 : S512x2000.ShapeCasts S1024000
  slices_S2000x2_S2000x1_0_1 : S2000x2.Slices ![0, 1] S2000x1
  bcast_S1024000_S1x1024000_1 : S1024000.BroadcastsInDim S1x1024000 (![1] : Fin 1 → Fin S1x1024000.rank)
  concatenates_S1x1024000_S1x1024000_S1x1024000_S1x1024000_S1x1024000_S5x1024000_d0 : Shape.Concatenates [S1x1024000, S1x1024000, S1x1024000, S1x1024000, S1x1024000] S5x1024000 0
  shapeCasts_S5x1024000_S5x8000x128 : S5x1024000.ShapeCasts S5x8000x128
  shapeCasts_S4x800x128_S4x800x128 : S4x800x128.ShapeCasts S4x800x128
  slices_S4x800x128_o0_0_0_S1x800x128 : S4x800x128.Slices ![0, 0, 0] S1x800x128
  slices_S4x800x128_o2_0_0_S1x800x128 : S4x800x128.Slices ![2, 0, 0] S1x800x128
  slices_S4x800x128_o3_0_0_S1x800x128 : S4x800x128.Slices ![3, 0, 0] S1x800x128
  inb_S5x800x128_S5x800x128_0_0_0 : ∀ a, (![0, 0, 0] : Fin 3 → Nat) a + S5x800x128.size a ≤ S5x800x128.size a
  h_S5x800x128 : 0 < S5x800x128.numel
  shapeCasts_S5x800x128_S5x800x128 : S5x800x128.ShapeCasts S5x800x128
  slices_S5x800x128_o0_0_0_S1x800x128 : S5x800x128.Slices ![0, 0, 0] S1x800x128
  slices_S5x800x128_o1_0_0_S1x800x128 : S5x800x128.Slices ![1, 0, 0] S1x800x128
  slices_S5x800x128_o2_0_0_S1x800x128 : S5x800x128.Slices ![2, 0, 0] S1x800x128
  slices_S5x800x128_o3_0_0_S1x800x128 : S5x800x128.Slices ![3, 0, 0] S1x800x128
  slices_S5x800x128_o4_0_0_S1x800x128 : S5x800x128.Slices ![4, 0, 0] S1x800x128
  reducesTo_S2000_S_d0 : S2000.ReducesTo [0] S_
  gather_S2x1024000_S3072000x1_S2x3072000_0_1_n_n_1_1_21_wf : GatherDims.WF S2x1024000 S3072000x1 S2x3072000 [0] [1] [] [1] [] 1 ![2, 1]
  scatter_S1024000x2_S3072000x1_S3072000x2_1_0_0_1_wf : ScatterDims.WF S1024000x2 S3072000x1 S3072000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x800x128.size a ≤ S8x8000x128.size a
  hwx0_0 : ∀ i : grid0.Coords, EltTy.bits .f32 = 32 ∨ (Rect.block (s := S8x8000x128) S8x800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x800x128.size a ≤ S6x8000x128.size a
  hwx0_1 : ∀ i : grid0.Coords, EltTy.bits .f32 = 32 ∨ (Rect.block (s := S6x8000x128) S6x800x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x800x128.size a ≤ S4x8000x128.size a
  hwx0_2 : ∀ i : grid0.Coords, EltTy.bits .f32 = 32 ∨ (Rect.block (s := S4x8000x128) S4x800x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x800x128.size a ≤ S2x8000x128.size a
  hwx0_3 : ∀ i : grid0.Coords, EltTy.bits .f32 = 32 ∨ (Rect.block (s := S2x8000x128) S2x800x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x600x128.size a ≤ S4x24000x128.size a
  hwx1_0 : ∀ i : grid1.Coords, EltTy.bits .f32 = 32 ∨ (Rect.block (s := S4x24000x128) S4x600x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x600x128.size a ≤ S4x24000x128.size a
  hwx1_1 : ∀ i : grid1.Coords, EltTy.bits .f32 = 32 ∨ (Rect.block (s := S4x24000x128) S4x600x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x1x1.size a ≤ S4x1x1.size a
  hwx1_2 : ∀ i : grid1.Coords, EltTy.bits .f32 = 32 ∨ (Rect.block (s := S4x1x1) S4x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x1x1.size a ≤ S4x1x1.size a
  hwx1_3 : ∀ i : grid1.Coords, EltTy.bits .f32 = 32 ∨ (Rect.block (s := S4x1x1) S4x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x600x128.size a ≤ S2x24000x128.size a
  hwx1_4 : ∀ i : grid1.Coords, EltTy.bits .f32 = 32 ∨ (Rect.block (s := S2x24000x128) S2x600x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x800x128.size a ≤ S4x8000x128.size a
  hwx2_0 : ∀ i : grid2.Coords, EltTy.bits .f32 = 32 ∨ (Rect.block (s := S4x8000x128) S4x800x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5x800x128.size a ≤ S5x8000x128.size a
  hwx2_1 : ∀ i : grid2.Coords, EltTy.bits .f32 = 32 ∨ (Rect.block (s := S5x8000x128) S5x800x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def gather_S2x1024000_S3072000x1_S2x3072000_0_1_n_n_1_1_21 : GatherDims S2x1024000 S3072000x1 S2x3072000 where
  offsetDims := [0]
  collapsedSliceDims := [1]
  operandBatchingDims := []
  startIndicesBatchingDims := []
  startIndexMap := [1]
  indexVectorDim := 1
  sliceSizes := ![2, 1]
  wf := gather_S2x1024000_S3072000x1_S2x3072000_0_1_n_n_1_1_21_wf
def scatter_S1024000x2_S3072000x1_S3072000x2_1_0_0_1 : ScatterDims S1024000x2 S3072000x1 S3072000x2 where
  updateWindowDims := [1]
  insertedWindowDims := [0]
  scatterDimsToOperandDims := [0]
  indexVectorDim := 1
  wf := scatter_S1024000x2_S3072000x1_S3072000x2_1_0_0_1_wf

abbrev win0_0 : Pipeline.Window sig grid0 :=
  Pipeline.Window.ofSpec (Memref.whole main_v15) S8x800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S6x800x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32_0) S4x800x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32_1) S2x800x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v43) S4x600x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4x600x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S4x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4x1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S2x600x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v32_0) S4x800x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S5x800x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S512x4000 : Shape := ⟨2, ![512, 4000]⟩
abbrev S1024000x7 : Shape := ⟨2, ![1024000, 7]⟩
abbrev S2x3072000 : Shape := ⟨2, ![2, 3072000]⟩
abbrev S3072000x4 : Shape := ⟨2, ![3072000, 4]⟩
abbrev S2000x7 : Shape := ⟨2, ![2000, 7]⟩
abbrev S2000x2 : Shape := ⟨2, ![2000, 2]⟩
abbrev S4 : Shape := ⟨1, ![4]⟩
abbrev S2000 : Shape := ⟨1, ![2000]⟩
abbrev S512x2000x2 : Shape := ⟨3, ![512, 2000, 2]⟩
abbrev S1x2000x2 : Shape := ⟨3, ![1, 2000, 2]⟩
abbrev S_ : Shape := ⟨0, ![]⟩
abbrev S512x2000x7 : Shape := ⟨3, ![512, 2000, 7]⟩
abbrev S1024000x2 : Shape := ⟨2, ![1024000, 2]⟩
abbrev S1024000x4 : Shape := ⟨2, ![1024000, 4]⟩
abbrev S1x4 : Shape := ⟨2, ![1, 4]⟩
abbrev S1x3072000 : Shape := ⟨2, ![1, 3072000]⟩
abbrev S3072000 : Shape := ⟨1, ![3072000]⟩
abbrev S3072000x1 : Shape := ⟨2, ![3072000, 1]⟩
abbrev S3072000x2 : Shape := ⟨2, ![3072000, 2]⟩
abbrev S1024000x1 : Shape := ⟨2, ![1024000, 1]⟩
abbrev S1024000 : Shape := ⟨1, ![1024000]⟩
abbrev S1x2000x1x2 : Shape := ⟨4, ![1, 2000, 1, 2]⟩
abbrev S512x2000x1x2 : Shape := ⟨4, ![512, 2000, 1, 2]⟩
abbrev S1x2000 : Shape := ⟨2, ![1, 2000]⟩
abbrev S512x2000 : Shape := ⟨2, ![512, 2000]⟩

abbrev nBuf : Space → Nat
  | .hbm => 180
  | .vmem => 0
  | .smem => 0
  | _ => 0

abbrev hbmTy0_0 (i : Nat) : BufTy := match i % 128 with
  | 0 => ⟨S512x4000, .f32⟩
  | 1 => ⟨S512x4000, .f32⟩
  | 2 => ⟨S1024000x7, .f32⟩
  | 3 => ⟨S2x3072000, .i32⟩
  | 4 => ⟨S3072000x4, .f32⟩
  | 5 => ⟨S2000x7, .f32⟩
  | 6 => ⟨S2000x7, .f32⟩
  | 7 => ⟨S2000x2, .f32⟩
  | 8 => ⟨S2000x2, .f32⟩
  | 9 => ⟨S4, .f32⟩
  | 10 => ⟨S4, .f32⟩
  | 11 => ⟨S2000, .i1⟩
  | 12 => ⟨S2000x2, .f32⟩
  | 13 => ⟨S512x2000x2, .f32⟩
  | 14 => ⟨S1x2000x2, .f32⟩
  | 15 => ⟨S512x2000x2, .f32⟩
  | 16 => ⟨S512x2000x2, .f32⟩
  | 17 => ⟨S1x2000x2, .f32⟩
  | 18 => ⟨S512x2000x2, .f32⟩
  | 19 => ⟨S512x2000x2, .f32⟩
  | 20 => ⟨S512x2000x2, .f32⟩
  | 21 => ⟨S1x2000x2, .f32⟩
  | 22 => ⟨S512x2000x2, .f32⟩
  | 23 => ⟨S512x2000x2, .f32⟩
  | 24 => ⟨S1x2000x2, .f32⟩
  | 25 => ⟨S512x2000x2, .f32⟩
  | 26 => ⟨S512x2000x2, .f32⟩
  | 27 => ⟨S512x2000x2, .f32⟩
  | 28 => ⟨S512x2000x2, .f32⟩
  | 29 => ⟨S_, .f32⟩
  | 30 => ⟨S_, .f32⟩
  | 31 => ⟨S_, .f32⟩
  | 32 => ⟨S_, .f32⟩
  | 33 => ⟨S512x2000x7, .f32⟩
  | 34 => ⟨S512x2000x2, .f32⟩
  | 35 => ⟨S2000x2, .f32⟩
  | 36 => ⟨S1x2000x2, .f32⟩
  | 37 => ⟨S512x2000x2, .f32⟩
  | 38 => ⟨S512x2000x2, .f32⟩
  | 39 => ⟨S2000x2, .f32⟩
  | 40 => ⟨S1x2000x2, .f32⟩
  | 41 => ⟨S512x2000x2, .f32⟩
  | 42 => ⟨S512x2000x2, .f32⟩
  | 43 => ⟨S1024000x2, .f32⟩
  | 44 => ⟨S_, .f32⟩
  | 45 => ⟨S1024000x2, .f32⟩
  | 46 => ⟨S1024000x2, .f32⟩
  | 47 => ⟨S1024000x2, .f32⟩
  | 48 => ⟨S1024000x4, .f32⟩
  | 49 => ⟨S1x4, .f32⟩
  | 50 => ⟨S3072000x4, .f32⟩
  | 51 => ⟨S3072000x4, .f32⟩
  | 52 => ⟨S1x4, .f32⟩
  | 53 => ⟨S3072000x4, .f32⟩
  | 54 => ⟨S3072000x4, .f32⟩
  | 55 => ⟨S1x3072000, .i32⟩
  | 56 => ⟨S3072000, .i32⟩
  | 57 => ⟨S1x3072000, .i32⟩
  | 58 => ⟨S3072000, .i32⟩
  | 59 => ⟨S_, .i32⟩
  | 60 => ⟨S3072000, .i32⟩
  | 61 => ⟨S3072000, .i1⟩
  | 62 => ⟨S_, .i32⟩
  | 63 => ⟨S3072000, .i32⟩
  | 64 => ⟨S3072000, .i32⟩
  | 65 => ⟨S3072000, .i32⟩
  | 66 => ⟨S3072000x1, .i32⟩
  | 67 => ⟨S3072000x4, .f32⟩
  | 68 => ⟨S_, .i32⟩
  | 69 => ⟨S3072000, .i32⟩
  | 70 => ⟨S3072000, .i1⟩
  | 71 => ⟨S_, .i32⟩
  | 72 => ⟨S3072000, .i32⟩
  | 73 => ⟨S3072000, .i32⟩
  | 74 => ⟨S3072000, .i32⟩
  | 75 => ⟨S3072000x1, .i32⟩
  | 76 => ⟨S3072000x4, .f32⟩
  | 77 => ⟨S3072000x1, .f32⟩
  | 78 => ⟨S3072000, .f32⟩
  | 79 => ⟨S3072000x1, .f32⟩
  | 80 => ⟨S3072000, .f32⟩
  | 81 => ⟨S_, .f32⟩
  | 82 => ⟨S3072000, .f32⟩
  | 83 => ⟨S3072000, .f32⟩
  | 84 => ⟨S3072000x1, .f32⟩
  | 85 => ⟨S3072000, .f32⟩
  | 86 => ⟨S3072000x1, .f32⟩
  | 87 => ⟨S3072000, .f32⟩
  | 88 => ⟨S_, .f32⟩
  | 89 => ⟨S3072000, .f32⟩
  | 90 => ⟨S3072000, .f32⟩
  | 91 => ⟨S3072000, .f32⟩
  | 92 => ⟨S3072000, .f32⟩
  | 93 => ⟨S3072000, .f32⟩
  | 94 => ⟨S3072000, .f32⟩
  | 95 => ⟨S3072000, .f32⟩
  | 96 => ⟨S3072000, .f32⟩
  | 97 => ⟨S3072000, .f32⟩
  | 98 => ⟨S3072000, .f32⟩
  | 99 => ⟨S3072000x1, .f32⟩
  | 100 => ⟨S3072000, .f32⟩
  | 101 => ⟨S3072000x1, .f32⟩
  | 102 => ⟨S3072000, .f32⟩
  | 103 => ⟨S3072000x1, .f32⟩
  | 104 => ⟨S3072000, .f32⟩
  | 105 => ⟨S3072000x1, .f32⟩
  | 106 => ⟨S3072000, .f32⟩
  | 107 => ⟨S3072000, .f32⟩
  | 108 => ⟨S3072000, .f32⟩
  | 109 => ⟨S3072000, .f32⟩
  | 110 => ⟨S3072000, .f32⟩
  | 111 => ⟨S3072000, .f32⟩
  | 112 => ⟨S3072000, .f32⟩
  | 113 => ⟨S3072000, .f32⟩
  | 114 => ⟨S3072000, .f32⟩
  | 115 => ⟨S3072000, .f32⟩
  | 116 => ⟨S3072000, .f32⟩
  | 117 => ⟨S3072000, .f32⟩
  | 118 => ⟨S3072000, .f32⟩
  | 119 => ⟨S3072000, .f32⟩
  | 120 => ⟨S3072000, .f32⟩
  | 121 => ⟨S3072000, .f32⟩
  | 122 => ⟨S3072000, .f32⟩
  | 123 => ⟨S3072000, .f32⟩
  | 124 => ⟨S3072000, .f32⟩
  | 125 => ⟨S3072000, .f32⟩
  | 126 => ⟨S3072000, .f32⟩
  | 127 => ⟨S3072000, .f32⟩
  | _ => ⟨S512x4000, .f32⟩

abbrev hbmTy0_1 (i : Nat) : BufTy := match i % 128 with
  | 0 => ⟨S3072000, .f32⟩
  | 1 => ⟨S3072000x1, .f32⟩
  | 2 => ⟨S3072000x1, .f32⟩
  | 3 => ⟨S3072000x2, .f32⟩
  | 4 => ⟨S_, .f32⟩
  | 5 => ⟨S1024000x2, .f32⟩
  | 6 => ⟨S3072000x1, .i32⟩
  | 7 => ⟨S1024000x2, .f32⟩
  | 8 => ⟨S1024000x1, .f32⟩
  | 9 => ⟨S1024000, .f32⟩
  | 10 => ⟨S1024000, .f32⟩
  | 11 => ⟨S1x2000x1x2, .f32⟩
  | 12 => ⟨S512x2000x1x2, .f32⟩
  | 13 => ⟨S1024000x2, .f32⟩
  | 14 => ⟨S1024000x1, .f32⟩
  | 15 => ⟨S1024000, .f32⟩
  | 16 => ⟨S1024000, .f32⟩
  | 17 => ⟨S1024000x1, .f32⟩
  | 18 => ⟨S1024000, .f32⟩
  | 19 => ⟨S1024000, .f32⟩
  | 20 => ⟨S1024000x1, .f32⟩
  | 21 => ⟨S1024000, .f32⟩
  | 22 => ⟨S1024000, .f32⟩
  | 23 => ⟨S1024000, .f32⟩
  | 24 => ⟨S1024000x1, .f32⟩
  | 25 => ⟨S1024000, .f32⟩
  | 26 => ⟨S1024000, .f32⟩
  | 27 => ⟨S1024000x1, .f32⟩
  | 28 => ⟨S1024000, .f32⟩
  | 29 => ⟨S1024000, .f32⟩
  | 30 => ⟨S1024000x1, .f32⟩
  | 31 => ⟨S1024000, .f32⟩
  | 32 => ⟨S1024000, .f32⟩
  | 33 => ⟨S1024000, .f32⟩
  | 34 => ⟨S1024000, .f32⟩
  | 35 => ⟨S1024000, .f32⟩
  | 36 => ⟨S1024000, .f32⟩
  | 37 => ⟨S1x2000, .i1⟩
  | 38 => ⟨S512x2000, .i1⟩
  | 39 => ⟨S1024000, .i1⟩
  | 40 => ⟨S1024000, .f32⟩
  | 41 => ⟨S1024000, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S512x4000, .f32⟩

abbrev hbmTy (i : Nat) : BufTy := match i / 128 with
  | 0 => hbmTy0_0 i
  | 1 => hbmTy0_1 i
  | _ => ⟨S512x4000, .f32⟩

abbrev bufTy : (tb : Table) → Fin (tcTables nBuf tb) → BufTy
  | .hbm, ⟨i, _⟩ => hbmTy i
  | _, _ => ⟨S512x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c : Ref sig .tc := ⟨.hbm, 59, rfl⟩
abbrev main_v43 : Ref sig .tc := ⟨.hbm, 60, rfl⟩
abbrev main_v44 : Ref sig .tc := ⟨.hbm, 61, rfl⟩
abbrev main_c_2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_3 : Ref sig .tc := ⟨.hbm, 68, rfl⟩
abbrev main_v50 : Ref sig .tc := ⟨.hbm, 69, rfl⟩
abbrev main_v51 : Ref sig .tc := ⟨.hbm, 70, rfl⟩
abbrev main_c_4 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_5 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_7 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_cst_8 : Ref sig .tc := ⟨.hbm, 170, rfl⟩
abbrev main_v147 : Ref sig .tc := ⟨.hbm, 171, rfl⟩
abbrev main_cst_9 : Ref sig .tc := ⟨.hbm, 172, rfl⟩
abbrev main_v148 : Ref sig .tc := ⟨.hbm, 173, rfl⟩
abbrev main_v149 : Ref sig .tc := ⟨.hbm, 174, rfl⟩
abbrev main_cst_10 : Ref sig .tc := ⟨.hbm, 175, rfl⟩
abbrev main_v150 : Ref sig .tc := ⟨.hbm, 176, rfl⟩
abbrev main_cst_11 : Ref sig .tc := ⟨.hbm, 177, rfl⟩
abbrev main_v151 : Ref sig .tc := ⟨.hbm, 178, rfl⟩
abbrev main_v152 : Ref sig .tc := ⟨.hbm, 179, rfl⟩

abbrev nD : Nat := 1
abbrev τ : Topo := Topo.v7x

variable {F : FTy → Type} [FloatOps F]

class Facts₀ : Prop where
  shapeCasts_S512x4000_S512x2000x2 : S512x4000.ShapeCasts S512x2000x2
  bcast_S2000x2_S1x2000x2_1_2 : S2000x2.BroadcastsInDim S1x2000x2 (![1, 2] : Fin 2 → Fin S1x2000x2.rank)
  bcast_S1x2000x2_S512x2000x2_0_1_2 : S1x2000x2.BroadcastsInDim S512x2000x2 (![0, 1, 2] : Fin 3 → Fin S512x2000x2.rank)
  reducesTo_S512x2000x2_S_d0_1_2 : S512x2000x2.ReducesTo [0, 1, 2] S_
  h_S_ : 0 < S_.numel
  shapeCasts_S1024000x7_S512x2000x7 : S1024000x7.ShapeCasts S512x2000x7
  slices_S512x2000x7_S512x2000x2_0_0_0 : S512x2000x7.Slices ![0, 0, 0] S512x2000x2
  slices_S2000x7_S2000x2_0_0 : S2000x7.Slices ![0, 0] S2000x2
  shapeCasts_S512x2000x2_S1024000x2 : S512x2000x2.ShapeCasts S1024000x2
  bcast_S_S1024000x2 : S_.BroadcastsInDim S1024000x2 (![] : Fin 0 → Fin S1024000x2.rank)
  concatenates_S1024000x2_S1024000x2_S1024000x4_d1 : Shape.Concatenates [S1024000x2, S1024000x2] S1024000x4 1
  bcast_S4_S1x4_1 : S4.BroadcastsInDim S1x4 (![1] : Fin 1 → Fin S1x4.rank)
  bcast_S1x4_S3072000x4_0_1 : S1x4.BroadcastsInDim S3072000x4 (![0, 1] : Fin 2 → Fin S3072000x4.rank)
  slices_S2x3072000_S1x3072000_0_0 : S2x3072000.Slices ![0, 0] S1x3072000
  shapeCasts_S1x3072000_S3072000 : S1x3072000.ShapeCasts S3072000
  slices_S2x3072000_S1x3072000_1_0 : S2x3072000.Slices ![1, 0] S1x3072000
  bcast_S_S3072000 : S_.BroadcastsInDim S3072000 (![] : Fin 0 → Fin S3072000.rank)
  bcast_S3072000_S3072000x1_0 : S3072000.BroadcastsInDim S3072000x1 (![0] : Fin 1 → Fin S3072000x1.rank)
  slices_S3072000x4_S3072000x1_0_0 : S3072000x4.Slices ![0, 0] S3072000x1
  shapeCasts_S3072000x1_S3072000 : S3072000x1.ShapeCasts S3072000
  slices_S3072000x4_S3072000x1_0_1 : S3072000x4.Slices ![0, 1] S3072000x1
  slices_S3072000x4_S3072000x1_0_2 : S3072000x4.Slices ![0, 2] S3072000x1
  slices_S3072000x4_S3072000x1_0_3 : S3072000x4.Slices ![0, 3] S3072000x1
  concatenates_S3072000x1_S3072000x1_S3072000x2_d1 : Shape.Concatenates [S3072000x1, S3072000x1] S3072000x2 1
  slices_S1024000x4_S1024000x1_0_0 : S1024000x4.Slices ![0, 0] S1024000x1
  shapeCasts_S1024000x1_S1024000 : S1024000x1.ShapeCasts S1024000
  shapeCasts_S2000x2_S1x2000x1x2 : S2000x2.ShapeCasts S1x2000x1x2
  bcast_S1x2000x1x2_S512x2000x1x2_0_1_2_3 : S1x2000x1x2.BroadcastsInDim S512x2000x1x2 (![0, 1, 2, 3] : Fin 4 → Fin S512x2000x1x2.rank)
  shapeCasts_S512x2000x1x2_S1024000x2 : S512x2000x1x2.ShapeCasts S1024000x2
  slices_S1024000x2_S1024000x1_0_0 : S1024000x2.Slices ![0, 0] S1024000x1
  slices_S1024000x4_S1024000x1_0_2 : S1024000x4.Slices ![0, 2] S1024000x1
  slices_S1024000x2_S1024000x1_0_1 : S1024000x2.Slices ![0, 1] S1024000x1
  slices_S1024000x4_S1024000x1_0_3 : S1024000x4.Slices ![0, 3] S1024000x1
  shapeCasts_S2000_S1x2000 : S2000.ShapeCasts S1x2000
  bcast_S1x2000_S512x2000_0_1 : S1x2000.BroadcastsInDim S512x2000 (![0, 1] : Fin 2 → Fin S512x2000.rank)
  shapeCasts_S512x2000_S1024000 : S512x2000.ShapeCasts S1024000
  reducesTo_S1024000_S_d0 : S1024000.ReducesTo [0] S_
  gather_S1024000x4_S3072000x1_S3072000x4_1_0_n_n_0_1_14_wf : GatherDims.WF S1024000x4 S3072000x1 S3072000x4 [1] [0] [] [0] [] 1 ![1, 4]
  scatter_S1024000x2_S3072000x1_S3072000x2_1_0_0_1_wf : ScatterDims.WF S1024000x2 S3072000x1 S3072000x2 [1] [0] [0] 1

variable [Facts₀]

def gather_S1024000x4_S3072000x1_S3072000x4_1_0_n_n_0_1_14 : GatherDims S1024000x4 S3072000x1 S3072000x4 where
  offsetDims := [1]
  collapsedSliceDims := [0]
  operandBatchingDims := []
  startIndicesBatchingDims := []
  startIndexMap := [0]
  indexVectorDim := 1
  sliceSizes := ![1, 4]
  wf := gather_S1024000x4_S3072000x1_S3072000x4_1_0_n_n_0_1_14_wf
def scatter_S1024000x2_S3072000x1_S3072000x2_1_0_0_1 : ScatterDims S1024000x2 S3072000x1 S3072000x2 where
  updateWindowDims := [1]
  insertedWindowDims := [0]
  scatterDimsToOperandDims := [0]
  indexVectorDim := 1
  wf := scatter_S1024000x2_S3072000x1_S3072000x2_1_0_0_1_wf

class Facts : Prop extends Facts₀ where

variable [Facts]
-- ==== Proof.Node.lean ====
import proofs.«431324_j10900626998069_3_alg».proof.Proof.Gen.KernelIdeal.Launch
import proofs.«431324_j10900626998069_3_alg».proof.Proof.Gen.KernelIdeal.Skeleton
import proofs.«431324_j10900626998069_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def physBlock (a : Vec F S8x800x128 .f32) (p : Vec F S6x800x128 .f32) : Vec F S4x800x128 .f32 :=
  k0_pay1 (k0_pay7 a) (k0_pay9 p)

def efBlock (a : Vec F S8x800x128 .f32) : Vec F S2x800x128 .f32 :=
  k0_pay2 (k0_pay10 a) (k0_pay11 a) (k0_pay12 a)

def accStep (a : Vec F S8x800x128 .f32) (s : Vec F S1x1 .f32) : Vec F S1x1 .f32 :=
  k0_pay8 a s

/-- The running sum of squared errors after block `n`: block 0 starts from the stored zero. -/
def accAt (c : Dev nD) : (n : ℕ) → n < cfg0.N → Vec F S1x1 .f32
  | 0, h => accStep (iblk V c 0 ⟨0, h⟩) (k0_pay3 (F := F))
  | n + 1, h => accStep (iblk V c 0 ⟨n + 1, h⟩) (accAt c n (Nat.lt_of_succ_lt h))

theorem accAt_zero (c : Dev nD) (h : 0 < cfg0.N) :
    accAt V c 0 h = accStep (iblk V c 0 ⟨0, h⟩) (k0_pay3 (F := F)) := rfl
theorem accAt_succ (c : Dev nD) (n : ℕ) (h : n + 1 < cfg0.N) :
    accAt V c (n + 1) h = accStep (iblk V c 0 ⟨n + 1, h⟩) (accAt V c n (Nat.lt_of_succ_lt h)) := rfl

abbrev scM : Memref sig .tc .vmem S1x1 .f32 := Memref.whole cc0_scratch0

/-- Between blocks the one-word scratch holds the running sum of the blocks done so far. -/
def PhiS (c : Dev nD) : (n : ℕ) → n ≤ cfg0.N → sProp 𝕄
  | 0, _ => Pipeline.ΦA spec0 c
  | n + 1, hn => iprop(owns (c : Thread nD τ) scM fullShare (accAt V c n hn)
      ∗ Pipeline.scopedRestBut (Ix := Unit) (Name := ℕ) (U := UR sig nD τ) (Lvl := ℕ) (Val := Elt F) spec0 c [cc0_scratch0]
      ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare (accAt V c n hn)
      ∗ Pipeline.scopedRestBut (Ix := Unit) (Name := ℕ) (U := UR sig nD τ) (Lvl := ℕ) (Val := Elt F) spec0 c [cc0_scratch0]
      ∗ (∃ r, prngReg c r)) := rfl

theorem PhiS_pos (c : Dev nD) (n : ℕ) (h : n ≤ cfg0.N) (hz : n ≠ 0) :
    PhiS V c n h = iprop(owns (c : Thread nD τ) scM fullShare (accAt V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

private theorem sep_eq (P Q : sProp 𝕄) : BI.sep P Q = iprop(P ∗ Q) := rfl

theorem PhiA_split (c : Dev nD) :
    (Pipeline.ΦA spec0 c : sProp 𝕄)
      ⊢ iprop((∃ d, owns (c : Thread nD τ) scM fullShare d)
        ∗ Pipeline.scopedRestBut (Ix := Unit) (Name := ℕ) (U := UR sig nD τ) (Lvl := ℕ) (Val := Elt F) spec0 c [cc0_scratch0]
        ∗ (∃ r, prngReg c r)) := by
  unfold Pipeline.ΦA
  rw [Pipeline.scopedRest_split_of_list spec0 c [cc0_scratch0] (by decide) (by decide), sep_eq]
  simp only [scM, owns_whole, bigSepL]
  iintro ⟨⟨H1, H2⟩, H3⟩
  iframe

theorem PhiA_join (c : Dev nD) :
    (iprop((∃ d, owns (c : Thread nD τ) scM fullShare d)
        ∗ Pipeline.scopedRestBut (Ix := Unit) (Name := ℕ) (U := UR sig nD τ) (Lvl := ℕ) (Val := Elt F) spec0 c [cc0_scratch0]
        ∗ (∃ r, prngReg c r)) : sProp 𝕄)
      ⊢ Pipeline.ΦA spec0 c := by
  unfold Pipeline.ΦA
  rw [Pipeline.scopedRest_split_of_list spec0 c [cc0_scratch0] (by decide) (by decide), sep_eq]
  simp only [scM, owns_whole, bigSepL]
  iintro ⟨H1, H2, H3⟩
  iframe

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => physBlock (iblk V c 0 t) (iblk V c 1 t)
    | ⟨3, _⟩ => efBlock (iblk V c 0 t)
    | ⟨4, _⟩ => accAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = physBlock (iblk V c 0 t) (iblk V c 1 t) := by dsimp only [dat]
theorem after_3 (c : Dev nD) (t : Fin cfg0.N) : (dat V c).after 3 t = efBlock (iblk V c 0 t) := by dsimp only [dat]
theorem after_4 (c : Dev nD) (t : Fin cfg0.N) : (dat V c).after 4 t = accAt V c t.val t.isLt := by dsimp only [dat]

theorem Phi_castSucc (c : Dev nD) (t : Fin cfg0.N) :
    (dat V c).Φ t.castSucc = PhiS V c t.val (Nat.le_of_lt t.isLt) := by
  dsimp only [dat]; simp only [Fin.coe_castSucc]

end Cert.KernelIdeal.Node

end
-- ==== Proof.Edge.lean ====
import proofs.«431324_j10900626998069_3_alg».proof.Proof.Gen.KernelIdeal.Launch
import proofs.«431324_j10900626998069_3_alg».proof.Proof.Gen.KernelIdeal.Skeleton
import proofs.«431324_j10900626998069_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def msgBlock (xy : Vec F S4x600x128 .f32) (ea : Vec F S4x600x128 .f32) (em : Vec F S4x1x1 .f32) (es : Vec F S4x1x1 .f32) :
    Vec F S2x600x128 .f32 :=
  k1_pay1 xy ea em es

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => msgBlock (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = msgBlock (iblk V c 0 t) (iblk V c 1 t) (iblk V c 2 t) (iblk V c 3 t) := by dsimp only [dat]

end Cert.KernelIdeal.Edge

end
-- ==== Proof.Balance.lean ====
import proofs.«431324_j10900626998069_3_alg».proof.Proof.Gen.KernelIdeal.Launch
import proofs.«431324_j10900626998069_3_alg».proof.Proof.Gen.KernelIdeal.Skeleton
import proofs.«431324_j10900626998069_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Balance

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accStep (x : Vec F S4x800x128 .f32) (r : Vec F S5x800x128 .f32) (s : Vec F S1x1 .f32) : Vec F S1x1 .f32 :=
  k2_pay2 x r s

/-- The running masked sum of squared residuals after block `n`: block 0 starts from the stored zero. -/
def accAt (c : Dev nD) : (n : ℕ) → n < cfg2.N → Vec F S1x1 .f32
  | 0, h => accStep (iblk V c 0 ⟨0, h⟩) (iblk V c 1 ⟨0, h⟩) (k2_pay1 (F := F))
  | n + 1, h => accStep (iblk V c 0 ⟨n + 1, h⟩) (iblk V c 1 ⟨n + 1, h⟩) (accAt c n (Nat.lt_of_succ_lt h))

theorem accAt_zero (c : Dev nD) (h : 0 < cfg2.N) :
    accAt V c 0 h = accStep (iblk V c 0 ⟨0, h⟩) (iblk V c 1 ⟨0, h⟩) (k2_pay1 (F := F)) := rfl
theorem accAt_succ (c : Dev nD) (n : ℕ) (h : n + 1 < cfg2.N) :
    accAt V c (n + 1) h = accStep (iblk V c 0 ⟨n + 1, h⟩) (iblk V c 1 ⟨n + 1, h⟩) (accAt V c n (Nat.lt_of_succ_lt h)) := rfl

abbrev scM : Memref sig .tc .vmem S1x1 .f32 := Memref.whole cc2_scratch0

/-- Between blocks the one-word scratch holds the running sum of the blocks done so far. -/
def PhiS (c : Dev nD) : (n : ℕ) → n ≤ cfg2.N → sProp 𝕄
  | 0, _ => Pipeline.ΦA spec2 c
  | n + 1, hn => iprop(owns (c : Thread nD τ) scM fullShare (accAt V c n hn)
      ∗ Pipeline.scopedRestBut (Ix := Unit) (Name := ℕ) (U := UR sig nD τ) (Lvl := ℕ) (Val := Elt F) spec2 c [cc2_scratch0]
      ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) scM fullShare (accAt V c n hn)
      ∗ Pipeline.scopedRestBut (Ix := Unit) (Name := ℕ) (U := UR sig nD τ) (Lvl := ℕ) (Val := Elt F) spec2 c [cc2_scratch0]
      ∗ (∃ r, prngReg c r)) := rfl

theorem PhiS_pos (c : Dev nD) (n : ℕ) (h : n ≤ cfg2.N) (hz : n ≠ 0) :
    PhiS V c n h = iprop(owns (c : Thread nD τ) scM fullShare (accAt V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

private theorem sep_eq (P Q : sProp 𝕄) : BI.sep P Q = iprop(P ∗ Q) := rfl

theorem PhiA_split (c : Dev nD) :
    (Pipeline.ΦA spec2 c : sProp 𝕄)
      ⊢ iprop((∃ d, owns (c : Thread nD τ) scM fullShare d)
        ∗ Pipeline.scopedRestBut (Ix := Unit) (Name := ℕ) (U := UR sig nD τ) (Lvl := ℕ) (Val := Elt F) spec2 c [cc2_scratch0]
        ∗ (∃ r, prngReg c r)) := by
  unfold Pipeline.ΦA
  rw [Pipeline.scopedRest_split_of_list spec2 c [cc2_scratch0] (by decide) (by decide), sep_eq]
  simp only [scM, owns_whole, bigSepL]
  iintro ⟨⟨H1, H2⟩, H3⟩
  iframe

theorem PhiA_join (c : Dev nD) :
    (iprop((∃ d, owns (c : Thread nD τ) scM fullShare d)
        ∗ Pipeline.scopedRestBut (Ix := Unit) (Name := ℕ) (U := UR sig nD τ) (Lvl := ℕ) (Val := Elt F) spec2 c [cc2_scratch0]
        ∗ (∃ r, prngReg c r)) : sProp 𝕄)
      ⊢ Pipeline.ΦA spec2 c := by
  unfold Pipeline.ΦA
  rw [Pipeline.scopedRest_split_of_list spec2 c [cc2_scratch0] (by decide) (by decide), sep_eq]
  simp only [scM, owns_whole, bigSepL]
  iintro ⟨H1, H2, H3⟩
  iframe

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => accAt V c t.val t.isLt
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = accAt V c t.val t.isLt := by dsimp only [dat]

theorem Phi_castSucc (c : Dev nD) (t : Fin cfg2.N) :
    (dat V c).Φ t.castSucc = PhiS V c t.val (Nat.le_of_lt t.isLt) := by
  dsimp only [dat]; simp only [Fin.coe_castSucc]

end Cert.KernelIdeal.Balance

end
-- ==== Proof.Fold.lean ====
import proofs.«431324_j10900626998069_3_alg».proof.Proof.Node
import proofs.«431324_j10900626998069_3_alg».proof.Proof.Edge
import proofs.«431324_j10900626998069_3_alg».proof.Proof.Balance

set_option maxRecDepth 16384

noncomputable section

namespace Cert.KernelIdeal.Fold

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F] [Named F]

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the node stage: its arrays at what the blocks left, every other buffer as before. -/
def W2 (c : Dev nD) : Valuation τ sig (Elt F) :=
  Pipeline.withArrays spec0 c (W1 m c) fun w => (Node.dat (V1 m) c).arrAt w cfg0.N
theorem W2_arr (c : Dev nD) (w : Fin cfg0.W) :
    W2 m c (Proc.devRef .tc (Pipeline.arrRef spec0 w)) = (Node.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev V6 : (c : Dev nD) → (b : Ref sig .tc) → Buf (Elt F) ((c : Thread nD τ).loc b) := fun c b => W6 m c b
def W7 (c : Dev nD) : Valuation τ sig (Elt F) :=
  Pipeline.withArrays spec1 c (W6 m c) fun w => (Edge.dat (V6 m) c).arrAt w cfg1.N
theorem W7_arr (c : Dev nD) (w : Fin cfg1.W) :
    W7 m c (Proc.devRef .tc (Pipeline.arrRef spec1 w)) = (Edge.dat (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b

abbrev W8 : Dev nD → Valuation τ sig (Elt F) := fun c => StableHlo.after hostOps2 (W7 m c)
abbrev V8 : (c : Dev nD) → (b : Ref sig .tc) → Buf (Elt F) ((c : Thread nD τ).loc b) := fun c b => W8 m c b
def W9 (c : Dev nD) : Valuation τ sig (Elt F) :=
  Pipeline.withArrays spec2 c (W8 m c) fun w => (Balance.dat (V8 m) c).arrAt w cfg2.N
theorem W9_arr (c : Dev nD) (w : Fin cfg2.W) :
    W9 m c (Proc.devRef .tc (Pipeline.arrRef spec2 w)) = (Balance.dat (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b

abbrev W10 : Dev nD → Valuation τ sig (Elt F) := fun c => StableHlo.after hostOps3 (W9 m c)

end Cert.KernelIdeal.Fold

end
-- ==== Proof.NodeBody.lean ====
import proofs.«431324_j10900626998069_3_alg».proof.Proof.Node
import Idealize.ShloMosaic.Lib.Pipeline.Value

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

abbrev cond1 (i : grid0.Coords) : Prop := k0_cond2 i = 1#1
theorem hcond1 : ∀ t : Fin cfg0.N, cond1 (grid0.coords t) ↔ t.val = 9 :=
  (by decide +kernel : ∀ t : Fin grid0.N, cond1 (grid0.coords t) ↔ t.val = 9)

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem idleAt_4 : ∀ t : Fin cfg0.N, ¬cond1 (grid0.coords t) → cfg0.idle 4 (grid0.coords t) = true := by decide +kernel
theorem noFlush_4 : ∀ t : Fin cfg0.N, ¬cond1 (grid0.coords t) → (cfg0.win 4).flush t = false := by decide +kernel
theorem liveAt_4 : ∀ t : Fin cfg0.N, cond1 (grid0.coords t) → cfg0.idle 4 (grid0.coords t) = false := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

theorem read_whole_store {S : Shape} {e : EltTy} {kd : Kind} {sp : Space} (v : View sig kd sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

abbrev R8 : Rect S8x800x128 := Rect.unit (s := S8x800x128) ![0, 0, 0] S8x800x128.size inb_S8x800x128_S8x800x128_0_0_0
abbrev R6 : Rect S6x800x128 := Rect.unit (s := S6x800x128) ![0, 0, 0] S6x800x128.size inb_S6x800x128_S6x800x128_0_0_0
abbrev R1 : Rect S1x1 := Rect.unit (s := S1x1) ![0, 0] S1x1.size inb_S1x1_S1x1_0_0

theorem ld_R8 (X : Vec F S8x800x128 .f32) : View.ld X R8 = X := View.ld_unit_zero hz3 _ X
theorem ld_R6 (X : Vec F S6x800x128 .f32) : View.ld X R6 = X := View.ld_unit_zero hz3 _ X
theorem ld_R1 (X : Vec F S1x1 .f32) : View.ld X R1 = X := View.ld_unit_zero hz2 _ X

theorem phys_ld (X : Vec F S8x800x128 .f32) (Y : Vec F S6x800x128 .f32) :
    physBlock (View.ld X R8) (View.ld Y R6) = physBlock X Y := by rw [ld_R8, ld_R6]
theorem ef_ld (X : Vec F S8x800x128 .f32) : efBlock (View.ld X R8) = efBlock X := by rw [ld_R8]
theorem acc_ld (X : Vec F S8x800x128 .f32) (s : Vec F S1x1 .f32) :
    accStep (View.ld X R8) (View.ld s R1) = accStep X s := by rw [ld_R8, ld_R1]
theorem acc_ld' (X : Vec F S8x800x128 .f32) (s : Vec F S1x1 .f32) :
    accStep (View.ld X R8) s = accStep X s := by rw [ld_R8]

section Kernel
variable (c : Dev nD) (E : Set ℕ) (i : grid0.Coords)
    (arg1 : Memref sig .tc .vmem S8x800x128 .f32) (harg1 : arg1.IsWhole) (arg2 : Memref sig .tc .vmem S6x800x128 .f32) (harg2 : arg2.IsWhole)
    (arg3 : Memref sig .tc .vmem S4x800x128 .f32) (harg3 : arg3.IsWhole) (arg4 : Memref sig .tc .vmem S2x800x128 .f32) (harg4 : arg4.IsWhole)
    (arg5 : Memref sig .tc .vmem S1x1 .f32) (harg5 : arg5.IsWhole) (arg6 : Memref sig .tc .vmem S1x1 .f32) (harg6 : arg6.IsWhole)

set_option maxHeartbeats 1000000 in
theorem sound_kernel_mid (hc0 : ¬cond0 i) (hc1 : ¬cond1 i)
    (x0 : Vec F S8x800x128 .f32) (x1 : Vec F S6x800x128 .f32) (s : Vec F S1x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg6 fullShare s
        ∗ (iprop(owns (c : Thread nD τ) arg1 fullShare x0 ∗ owns (c : Thread nD τ) arg2 fullShare x1
            ∗ owns (c : Thread nD τ) arg3 fullShare (physBlock x0 x1) ∗ owns (c : Thread nD τ) arg4 fullShare (efBlock x0)
            ∗ owns (c : Thread nD τ) arg6 fullShare (accStep x0 s)) -∗ K ⟨⟩))
      ⊢ wp frame (wpE (defs₀ (F := F)) Variants.none c none) E (cc0__node_prep_kernel i arg1 harg1 arg2 harg2 arg3 harg3 arg4 harg4 arg5 harg5 arg6 harg6) K := by
  simp only [cc0__node_prep_kernel_eq_skeleton]; unfold cc0__node_prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (read_whole_store (S := S4x800x128) arg3.view f2 hz3 _ _ []).trans
      (phys_ld (arg1.view.read (Elt F) f0) (arg2.view.read (Elt F) f1))
  isplitl [H3]
  · iexists _; isplitr
    swap; · iexact H3
    ipureintro
    exact (read_whole_store (S := S2x800x128) arg4.view f3 hz3 _ _ []).trans (ef_ld (arg1.view.read (Elt F) f0))
  iexists _; isplitr
  swap; · iexact HS
  ipureintro
  exact (read_whole_store (S := S1x1) arg6.view fs hz2 _ _ []).trans
    (acc_ld (arg1.view.read (Elt F) f0) (arg6.view.read (Elt F) fs))

set_option maxHeartbeats 1000000 in
theorem sound_kernel_first (hc0 : cond0 i) (hc1 : ¬cond1 i)
    (x0 : Vec F S8x800x128 .f32) (x1 : Vec F S6x800x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg6 fullShare d)
        ∗ (iprop(owns (c : Thread nD τ) arg1 fullShare x0 ∗ owns (c : Thread nD τ) arg2 fullShare x1
            ∗ owns (c : Thread nD τ) arg3 fullShare (physBlock x0 x1) ∗ owns (c : Thread nD τ) arg4 fullShare (efBlock x0)
            ∗ owns (c : Thread nD τ) arg6 fullShare (accStep x0 (k0_pay3 (F := F)))) -∗ K ⟨⟩))
      ⊢ wp frame (wpE (defs₀ (F := F)) Variants.none c none) E (cc0__node_prep_kernel i arg1 harg1 arg2 harg2 arg3 harg3 arg4 harg4 arg5 harg5 arg6 harg6) K := by
  simp only [cc0__node_prep_kernel_eq_skeleton]; unfold cc0__node_prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (read_whole_store (S := S4x800x128) arg3.view f2 hz3 _ _ []).trans
      (phys_ld (arg1.view.read (Elt F) f0) (arg2.view.read (Elt F) f1))
  isplitl [H3]
  · iexists _; isplitr
    swap; · iexact H3
    ipureintro
    exact (read_whole_store (S := S2x800x128) arg4.view f3 hz3 _ _ []).trans (ef_ld (arg1.view.read (Elt F) f0))
  iexists _; isplitr
  swap; · iexact HS
  ipureintro
  sl_unfold_run_names
  refine (read_whole_store (S := S1x1) arg6.view fs hz2 _ _ _).trans ?_
  refine (congrArg (accStep (View.ld (arg1.view.read (Elt F) f0) R8)) (View.readCov_cons_toLoadRect arg6.view R1 (k0_pay3 (F := F)) [])).trans ?_
  exact acc_ld' (arg1.view.read (Elt F) f0) (k0_pay3 (F := F))

set_option maxHeartbeats 1000000 in
theorem sound_kernel_last (hc0 : ¬cond0 i) (hc1 : cond1 i)
    (x0 : Vec F S8x800x128 .f32) (x1 : Vec F S6x800x128 .f32) (s : Vec F S1x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ owns (c : Thread nD τ) arg6 fullShare s
        ∗ (iprop(owns (c : Thread nD τ) arg1 fullShare x0 ∗ owns (c : Thread nD τ) arg2 fullShare x1
            ∗ owns (c : Thread nD τ) arg3 fullShare (physBlock x0 x1) ∗ owns (c : Thread nD τ) arg4 fullShare (efBlock x0)
            ∗ owns (c : Thread nD τ) arg5 fullShare (accStep x0 s)
            ∗ owns (c : Thread nD τ) arg6 fullShare (accStep x0 s)) -∗ K ⟨⟩))
      ⊢ wp frame (wpE (defs₀ (F := F)) Variants.none c none) E (cc0__node_prep_kernel i arg1 harg1 arg2 harg2 arg3 harg3 arg4 harg4 arg5 harg5 arg6 harg6) K := by
  simp only [cc0__node_prep_kernel_eq_skeleton]; unfold cc0__node_prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d5, %f5, -, H5⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (read_whole_store (S := S4x800x128) arg3.view f2 hz3 _ _ []).trans
      (phys_ld (arg1.view.read (Elt F) f0) (arg2.view.read (Elt F) f1))
  isplitl [H3]
  · iexists _; isplitr
    swap; · iexact H3
    ipureintro
    exact (read_whole_store (S := S2x800x128) arg4.view f3 hz3 _ _ []).trans (ef_ld (arg1.view.read (Elt F) f0))
  isplitl [H5]
  · iexists _; isplitr
    swap; · iexact H5
    ipureintro
    exact (read_whole_store (S := S1x1) arg5.view f5 hz2 _ _ []).trans
      ((View.readCov_cons_toLoadRect arg6.view R1 _ []).trans
        (acc_ld (arg1.view.read (Elt F) f0) (arg6.view.read (Elt F) fs)))
  iexists _; isplitr
  swap; · iexact HS
  ipureintro
  exact (read_whole_store (S := S1x1) arg6.view fs hz2 _ _ []).trans
    (acc_ld (arg1.view.read (Elt F) f0) (arg6.view.read (Elt F) fs))

end Kernel

theorem accAt_first (c : Dev nD) (t : Fin cfg0.N) (hz : t.val = 0) :
    accAt V c t.val t.isLt = accStep (iblk V c 0 t) (k0_pay3 (F := F)) := by
  obtain ⟨n, hn⟩ := t
  cases n with
  | zero => rfl
  | succ n => exact absurd hz (Nat.succ_ne_zero n)

theorem accAt_pos (c : Dev nD) (t : Fin cfg0.N) (hz : t.val ≠ 0) :
    accAt V c t.val t.isLt
      = accStep (iblk V c 0 t) (accAt V c (t.val - 1) (Nat.lt_of_le_of_lt (Nat.sub_le _ _) t.isLt)) := by
  obtain ⟨n, hn⟩ := t
  cases n with
  | zero => exact absurd rfl hz
  | succ n => rfl

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ, Phi_castSucc]
  rw [show (dat V c).leavesExact 0 t = owns (c : Thread nD τ) (st0_0 t) fullShare ((dat V c).after 0 t) from by
    unfold Dat.leavesExact; rw [liveAt_0 t], after_0]
  rw [show (dat V c).leavesExact 1 t = owns (c : Thread nD τ) (st0_1 t) fullShare ((dat V c).after 1 t) from by
    unfold Dat.leavesExact; rw [liveAt_1 t], after_1]
  rw [show (dat V c).leavesExact 2 t = owns (c : Thread nD τ) (st0_2 t) fullShare ((dat V c).after 2 t) from by
    unfold Dat.leavesExact; rw [liveAt_2 t], after_2]
  rw [show (dat V c).leavesExact 3 t = owns (c : Thread nD τ) (st0_3 t) fullShare ((dat V c).after 3 t) from by
    unfold Dat.leavesExact; rw [liveAt_3 t], after_3]
  have hN : t.val < 10 := lt_of_lt_of_eq t.isLt (show cfg0.N = 10 from N_0)
  by_cases h0 : t.val = 0
  ·
    have hc0 : cond0 (grid0.coords t) := (hcond0 t).mpr h0
    have hc1 : ¬cond1 (grid0.coords t) := fun h => by have := (hcond1 t).mp h; omega
    rw [Dat.leavesExact_idle (dat V c) 4 t (idleAt_4 t hc1) (noFlush_4 t hc1)]
    rw [PhiS_zero V c _ _ h0, accAt_first V c t h0]
    iintro ⟨HΦ, Ho, ⟨%d0, H0⟩, ⟨%d1, H1⟩, ⟨%d2, H2⟩, ⟨%d3, H3⟩, H4⟩
    ihave HΦ' := (PhiA_split (F := F) c) $$ HΦ
    icases HΦ' with ⟨HS, HR, Hg⟩
    iapply (sound_kernel_first c Set.univ (grid0.coords t) _ _ _ _ _ _ _ _ _ _ _ _ hc0 hc1 (iblk V c 0 t) (iblk V c 1 t) _)
    iframe H0 H1 HS
    isplitl [H2]; · iexists _; iexact H2
    isplitl [H3]; · iexists _; iexact H3
    iintro ⟨H0, H1, H2, H3, HS⟩
    iframe
  · have hc0 : ¬cond0 (grid0.coords t) := fun h => h0 ((hcond0 t).mp h)
    by_cases h9 : t.val = 9
    ·
      have hc1 : cond1 (grid0.coords t) := (hcond1 t).mpr h9
      rw [show (dat V c).leavesExact 4 t = owns (c : Thread nD τ) (st0_4 t) fullShare ((dat V c).after 4 t) from by
        unfold Dat.leavesExact; rw [liveAt_4 t hc1], after_4]
      rw [PhiS_pos V c _ _ h0, accAt_pos V c t h0]
      iintro ⟨⟨HS, HR, Hg⟩, Ho, ⟨%d0, H0⟩, ⟨%d1, H1⟩, ⟨%d2, H2⟩, ⟨%d3, H3⟩, ⟨%d4, H4⟩⟩
      iapply (sound_kernel_last c Set.univ (grid0.coords t) _ _ _ _ _ _ _ _ _ _ _ _ hc0 hc1 (iblk V c 0 t) (iblk V c 1 t)
        (accAt V c (t.val - 1) (Nat.lt_of_le_of_lt (Nat.sub_le _ _) t.isLt)) _)
      iframe H0 H1 HS
      isplitl [H2]; · iexists _; iexact H2
      isplitl [H3]; · iexists _; iexact H3
      isplitl [H4]; · iexists _; iexact H4
      iintro ⟨H0, H1, H2, H3, H4, HS⟩
      iframe
    ·
      have hc1 : ¬cond1 (grid0.coords t) := fun h => h9 ((hcond1 t).mp h)
      rw [Dat.leavesExact_idle (dat V c) 4 t (idleAt_4 t hc1) (noFlush_4 t hc1)]
      rw [PhiS_pos V c _ _ h0, accAt_pos V c t h0]
      iintro ⟨⟨HS, HR, Hg⟩, Ho, ⟨%d0, H0⟩, ⟨%d1, H1⟩, ⟨%d2, H2⟩, ⟨%d3, H3⟩, H4⟩
      iapply (sound_kernel_mid c Set.univ (grid0.coords t) _ _ _ _ _ _ _ _ _ _ _ _ hc0 hc1 (iblk V c 0 t) (iblk V c 1 t)
        (accAt V c (t.val - 1) (Nat.lt_of_le_of_lt (Nat.sub_le _ _) t.isLt)) _)
      iframe H0 H1 HS
      isplitl [H2]; · iexists _; iexact H2
      isplitl [H3]; · iexists _; iexact H3
      iintro ⟨H0, H1, H2, H3, HS⟩
      iframe

theorem body_obligation (c : Dev nD) :
    BodyObligation (dat (F := F) V c) (defs₀ (F := F)) Variants.none () Set.univ := fun t => by
  rw [bigSep_W0, bigSep_W0]
  exact sound_body V c t

theorem hin (c : Dev nD) : (Pipeline.ΦA spec0 c : sProp 𝕄) ⊢ (dat V c).Φ 0 := by
  rw [show (dat V c).Φ 0 = PhiS V c 0 (Nat.zero_le _) from rfl, PhiS_zero V c 0 _ rfl]

theorem hout (c : Dev nD) : (dat V c).Φ (Fin.last _) ⊢ (Pipeline.ΦA spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 10 := N_0; omega)]
  iintro ⟨HS, HR, Hg⟩
  iapply (PhiA_join (F := F) c)
  iframe HR Hg
  iexists _; iexact HS

end Cert.KernelIdeal.Node

end
-- ==== Proof.EdgeBody.lean ====
import proofs.«431324_j10900626998069_3_alg».proof.Proof.Edge
import Idealize.ShloMosaic.Lib.Pipeline.Value

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

abbrev rIn : Rect S4x600x128 := Rect.unit (s := S4x600x128) ![0, 0, 0] S4x600x128.size inb_S4x600x128_S4x600x128_0_0_0
abbrev rCol : Rect S4x1x1 := Rect.unit (s := S4x1x1) ![0, 0, 0] S4x1x1.size inb_S4x1x1_S4x1x1_0_0_0
abbrev rOut : Rect S2x600x128 := Rect.unit (s := S2x600x128) ![0, 0, 0] S2x600x128.size inb_S2x600x128_S2x600x128_0_0_0

theorem hz3 : (![0, 0, 0] : Fin 3 → Nat) = fun _ => 0 := funext fun a => by fin_cases a <;> rfl

def outBlock (x0 x1 : Vec F S4x600x128 .f32) (x2 x3 : Vec F S4x1x1 .f32) : Vec F S2x600x128 .f32 :=
  View.canon [⟨rOut, k1_pay1 (View.ld x0 rIn) (View.ld x1 rIn) (View.ld x2 rCol) (View.ld x3 rCol)⟩]

theorem cover_out (p0 : Vec F S2x600x128 .f32) (y : S2x600x128.Idx) :
    ∃ pc ∈ ([⟨rOut, p0⟩] : List (View.Piece (Elt F) S2x600x128 .f32)), y ∈ pc.1.set :=
  ⟨_, List.mem_singleton_self _, View.mem_set_unit_zero hz3 inb_S2x600x128_S2x600x128_0_0_0 y⟩

theorem outBlock_eq (x0 x1 : Vec F S4x600x128 .f32) (x2 x3 : Vec F S4x1x1 .f32) :
    outBlock x0 x1 x2 x3 = msgBlock x0 x1 x2 x3 := by
  unfold outBlock msgBlock
  rw [View.canon_unit_zero hz3, View.ld_unit_zero hz3, View.ld_unit_zero hz3, View.ld_unit_zero hz3, View.ld_unit_zero hz3]

set_option maxHeartbeats 1000000 in
theorem sound_kernel (c : Dev nD) (E : Set ℕ) (i : grid1.Coords)
    (arg1 : Memref sig .tc .vmem S4x600x128 .f32) (harg1 : arg1.IsWhole) (arg2 : Memref sig .tc .vmem S4x600x128 .f32) (harg2 : arg2.IsWhole)
    (arg3 : Memref sig .tc .vmem S4x1x1 .f32) (harg3 : arg3.IsWhole) (arg4 : Memref sig .tc .vmem S4x1x1 .f32) (harg4 : arg4.IsWhole)
    (arg5 : Memref sig .tc .vmem S2x600x128 .f32) (harg5 : arg5.IsWhole)
    (x0 x1 : Vec F S4x600x128 .f32) (x2 x3 : Vec F S4x1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlock x0 x1 x2 x3)) -∗ K ⟨⟩))
      ⊢ wp frame (wpE (defs₀ (F := F)) Variants.none c none) E
          (cc1__edge_msg_kernel i arg1 harg1 arg2 harg2 arg3 harg3 arg4 harg4 arg5 harg5) K := by
  simp only [cc1__edge_msg_kernel_eq_skeleton]; unfold cc1__edge_msg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, ← outBlock_eq]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  iframe H0 H1 H2 H3
  isplitl [H4]; · iexists _; iexact H4
  iintro ⟨H0, H1, H2, H3, H4⟩
  iframe

theorem body_obligation (c : Dev nD) : BodyObligation (dat (F := F) V c) (defs₀ (F := F)) Variants.none () Set.univ := fun t => by
  rw [bigSep_W1, bigSep_W1]
  exact sound_body V c t

end Cert.KernelIdeal.Edge

end
-- ==== Proof.BalanceBody.lean ====
import proofs.«431324_j10900626998069_3_alg».proof.Proof.Balance
import Idealize.ShloMosaic.Lib.Pipeline.Value

set_option maxRecDepth 16384

noncomputable section

namespace Cert.KernelIdeal.Balance

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev condFirst (i : grid2.Coords) : Prop :=
  (Scalar.cmpi .ne (Scalar.extui (Scalar.cmpi .eq (BitVec.ofNat 32 (i 0).val) 0#32)) 0#32) = 1#1

abbrev condLast (i : grid2.Coords) : Prop := k2_cond2 i = 1#1

theorem hcondFirst : ∀ t : Fin cfg2.N, condFirst (grid2.coords t) ↔ t.val = 0 :=
  (by decide +kernel : ∀ t : Fin grid2.N, condFirst (grid2.coords t) ↔ t.val = 0)

theorem hcondLast : ∀ t : Fin cfg2.N, condLast (grid2.coords t) ↔ t.val = 9 :=
  (by decide +kernel : ∀ t : Fin grid2.N, condLast (grid2.coords t) ↔ t.val = 9)

theorem live0 : ∀ t : Fin cfg2.N, cfg2.idle 0 (grid2.coords t) = false := by decide +kernel
theorem live1 : ∀ t : Fin cfg2.N, cfg2.idle 1 (grid2.coords t) = false := by decide +kernel
theorem idle2_of : ∀ t : Fin cfg2.N, ¬condLast (grid2.coords t) → cfg2.idle 2 (grid2.coords t) = true := by decide +kernel
theorem noFlush2_of : ∀ t : Fin cfg2.N, ¬condLast (grid2.coords t) → (cfg2.win 2).flush t = false := by decide +kernel
theorem live2_of : ∀ t : Fin cfg2.N, condLast (grid2.coords t) → cfg2.idle 2 (grid2.coords t) = false := by decide +kernel

theorem zeros2 : (![0, 0] : Fin S1x1.rank → ℕ) = fun _ => 0 := by
  funext a; fin_cases a <;> rfl
theorem zeros3a : (![0, 0, 0] : Fin S4x800x128.rank → ℕ) = fun _ => 0 := by
  funext a; fin_cases a <;> rfl
theorem zeros3b : (![0, 0, 0] : Fin S5x800x128.rank → ℕ) = fun _ => 0 := by
  funext a; fin_cases a <;> rfl

theorem load_x (m : Memref sig .tc .vmem S4x800x128 .f32) (f : m.view.ty.Contents (Elt F)) :
    View.readAt (Elt F) m.view (Rect.unit (s := S4x800x128) ![0, 0, 0] S4x800x128.size inb_S4x800x128_S4x800x128_0_0_0).toLoadRect f
      = m.view.read (Elt F) f := by
  rw [View.readAt_eq_ld]; exact View.ld_unit_zero zeros3a _ _

theorem load_r (m : Memref sig .tc .vmem S5x800x128 .f32) (f : m.view.ty.Contents (Elt F)) :
    View.readAt (Elt F) m.view (Rect.unit (s := S5x800x128) ![0, 0, 0] S5x800x128.size inb_S5x800x128_S5x800x128_0_0_0).toLoadRect f
      = m.view.read (Elt F) f := by
  rw [View.readAt_eq_ld]; exact View.ld_unit_zero zeros3b _ _

theorem load_s (m : Memref sig .tc .vmem S1x1 .f32) (f : m.view.ty.Contents (Elt F)) :
    View.readAt (Elt F) m.view (Rect.unit (s := S1x1) ![0, 0] S1x1.size inb_S1x1_S1x1_0_0).toLoadRect f
      = m.view.read (Elt F) f := by
  rw [View.readAt_eq_ld]; exact View.ld_unit_zero zeros2 _ _

theorem read_store (m : Memref sig .tc .vmem S1x1 .f32) (f : m.view.ty.Contents (Elt F)) (w : Vec F S1x1 .f32)
    (L : List (View.Piece (Elt F) S1x1 .f32)) :
    m.view.read (Elt F) (m.view.writes (Elt F) f
        ((⟨Rect.unit (s := S1x1) ![0, 0] S1x1.size inb_S1x1_S1x1_0_0, w⟩ : View.Piece (Elt F) S1x1 .f32) :: L)) = w := by
  rw [View.read_writes_eq_canon _ _ _ (fun y => ⟨_, List.mem_cons_self, View.mem_set_unit_zero zeros2 inb_S1x1_S1x1_0_0 y⟩)]
  exact View.canon_cons_unit_zero zeros2 _ w L

theorem load_store (m : Memref sig .tc .vmem S1x1 .f32) (w : Vec F S1x1 .f32) :
    m.view.readCov [(⟨Rect.unit (s := S1x1) ![0, 0] S1x1.size inb_S1x1_S1x1_0_0, w⟩ : View.Piece (Elt F) S1x1 .f32)]
        (Rect.unit (s := S1x1) ![0, 0] S1x1.size inb_S1x1_S1x1_0_0).toLoadRect = w :=
  View.readCov_unit_zero _ zeros2 _ w

section Kernel
variable (c : Dev nD) (i : grid2.Coords)
    (arg1 : Memref sig .tc .vmem S4x800x128 .f32) (harg1 : arg1.IsWhole)
    (arg2 : Memref sig .tc .vmem S5x800x128 .f32) (harg2 : arg2.IsWhole)
    (arg3 : Memref sig .tc .vmem S1x1 .f32) (harg3 : arg3.IsWhole)
    (arg4 : Memref sig .tc .vmem S1x1 .f32) (harg4 : arg4.IsWhole)

set_option maxHeartbeats 1000000 in
theorem run_mid (hc0 : ¬condFirst i) (hc1 : ¬condLast i)
    (x : Vec F S4x800x128 .f32) (r : Vec F S5x800x128 .f32) (o : Vec F S1x1 .f32) (s : Vec F S1x1 .f32)
    (E : Set ℕ) (K : PUnit → sProp 𝕄) :
    iprop(owns (c : Thread nD τ) arg1 fullShare x ∗ owns (c : Thread nD τ) arg2 fullShare r
        ∗ owns (c : Thread nD τ) arg3 fullShare o ∗ owns (c : Thread nD τ) arg4 fullShare s
        ∗ (iprop(owns (c : Thread nD τ) arg1 fullShare x ∗ owns (c : Thread nD τ) arg2 fullShare r
            ∗ owns (c : Thread nD τ) arg3 fullShare o ∗ owns (c : Thread nD τ) arg4 fullShare (accStep x r s)) -∗ K ⟨⟩))
      ⊢ wp frame (wpE (defs₀ (F := F)) Variants.none c none) E (cc2__kcl_kernel i arg1 harg1 arg2 harg2 arg3 harg3 arg4 harg4) K := by
  simp only [cc2__kcl_kernel_eq_skeleton]; unfold cc2__kcl_kernel_skel
  simp only [k2_part1_eq_skeleton]
  unfold owns
  iintro ⟨⟨%f1, %hf1, H1⟩, ⟨%f2, %hf2, H2⟩, ⟨%f3, %hf3, H3⟩, ⟨%f4, %hf4, H4⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  sl_unfold_words
  rw [read_store, load_x, load_r, load_s, hf1, hf2, hf4]
  rfl

set_option maxHeartbeats 1000000 in
theorem run_first (hc0 : condFirst i) (hc1 : ¬condLast i)
    (x : Vec F S4x800x128 .f32) (r : Vec F S5x800x128 .f32) (o : Vec F S1x1 .f32)
    (E : Set ℕ) (K : PUnit → sProp 𝕄) :
    iprop(owns (c : Thread nD τ) arg1 fullShare x ∗ owns (c : Thread nD τ) arg2 fullShare r
        ∗ owns (c : Thread nD τ) arg3 fullShare o ∗ (∃ d, owns (c : Thread nD τ) arg4 fullShare d)
        ∗ (iprop(owns (c : Thread nD τ) arg1 fullShare x ∗ owns (c : Thread nD τ) arg2 fullShare r
            ∗ owns (c : Thread nD τ) arg3 fullShare o ∗ owns (c : Thread nD τ) arg4 fullShare (accStep x r (k2_pay1 (F := F)))) -∗ K ⟨⟩))
      ⊢ wp frame (wpE (defs₀ (F := F)) Variants.none c none) E (cc2__kcl_kernel i arg1 harg1 arg2 harg2 arg3 harg3 arg4 harg4) K := by
  simp only [cc2__kcl_kernel_eq_skeleton]; unfold cc2__kcl_kernel_skel
  simp only [k2_part1_eq_skeleton]
  unfold owns
  iintro ⟨⟨%f1, %hf1, H1⟩, ⟨%f2, %hf2, H2⟩, ⟨%f3, %hf3, H3⟩, ⟨%d4, %f4, -, H4⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  sl_unfold_words
  rw [read_store, load_x, load_r, load_store, hf1, hf2]
  rfl

set_option maxHeartbeats 1000000 in
theorem run_last (hc0 : ¬condFirst i) (hc1 : condLast i)
    (x : Vec F S4x800x128 .f32) (r : Vec F S5x800x128 .f32) (s : Vec F S1x1 .f32)
    (E : Set ℕ) (K : PUnit → sProp 𝕄) :
    iprop(owns (c : Thread nD τ) arg1 fullShare x ∗ owns (c : Thread nD τ) arg2 fullShare r
        ∗ (∃ d, owns (c : Thread nD τ) arg3 fullShare d) ∗ owns (c : Thread nD τ) arg4 fullShare s
        ∗ (iprop(owns (c : Thread nD τ) arg1 fullShare x ∗ owns (c : Thread nD τ) arg2 fullShare r
            ∗ owns (c : Thread nD τ) arg3 fullShare (accStep x r s) ∗ owns (c : Thread nD τ) arg4 fullShare (accStep x r s)) -∗ K ⟨⟩))
      ⊢ wp frame (wpE (defs₀ (F := F)) Variants.none c none) E (cc2__kcl_kernel i arg1 harg1 arg2 harg2 arg3 harg3 arg4 harg4) K := by
  simp only [cc2__kcl_kernel_eq_skeleton]; unfold cc2__kcl_kernel_skel
  simp only [k2_part1_eq_skeleton]
  unfold owns
  iintro ⟨⟨%f1, %hf1, H1⟩, ⟨%f2, %hf2, H2⟩, ⟨%d3, %f3, -, H3⟩, ⟨%f4, %hf4, H4⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [read_store, load_store, load_x, load_r, load_s, hf1, hf2, hf4]
    rfl
  iexists _; isplitr
  swap; · iexact H4
  ipureintro
  sl_unfold_words
  rw [read_store, load_x, load_r, load_s, hf1, hf2, hf4]
  rfl

end Kernel

theorem accAt_first (c : Dev nD) (t : Fin cfg2.N) (hz : t.val = 0) :
    accAt V c t.val t.isLt = accStep (iblk V c 0 t) (iblk V c 1 t) (k2_pay1 (F := F)) := by
  obtain ⟨n, hn⟩ := t
  cases n with
  | zero => rfl
  | succ n => exact absurd hz (Nat.succ_ne_zero n)

theorem accAt_later (c : Dev nD) (t : Fin cfg2.N) (hz : t.val ≠ 0) :
    accAt V c t.val t.isLt
      = accStep (iblk V c 0 t) (iblk V c 1 t) (accAt V c (t.val - 1) (Nat.lt_of_le_of_lt (Nat.sub_le _ _) t.isLt)) := by
  obtain ⟨n, hn⟩ := t
  cases n with
  | zero => exact absurd rfl hz
  | succ n => rfl

theorem blockOf_0 (c : Dev nD) (t : Fin cfg2.N) : (dat V c).blockOf 0 t = iblk V c 0 t := by
  unfold Dat.blockOf iblk; rw [A_eq]
theorem blockOf_1 (c : Dev nD) (t : Fin cfg2.N) : (dat V c).blockOf 1 t = iblk V c 1 t := by
  unfold Dat.blockOf iblk; rw [A_eq]

theorem before_0 (c : Dev nD) (t : Fin cfg2.N) (d) : (dat V c).before 0 t d = iblk V c 0 t := by
  rw [(dat V c).before_in_eq_fetched 0 rfl (fun _ => rfl) (fun _ _ _ => rfl)
    (fun t => by rw [after_0, blockOf_0]) t d]
  unfold Dat.fetched; rw [blockOf_0]; rfl
theorem before_1 (c : Dev nD) (t : Fin cfg2.N) (d) : (dat V c).before 1 t d = iblk V c 1 t := by
  rw [(dat V c).before_in_eq_fetched 1 rfl (fun _ => rfl) (fun _ _ _ => rfl)
    (fun t => by rw [after_1, blockOf_1]) t d]
  unfold Dat.fetched; rw [blockOf_1]; rfl

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t)

theorem leaves_0 (c : Dev nD) (t : Fin cfg2.N) :
    (dat V c).leavesExact 0 t = owns (c : Thread nD τ) (st2_0 t) fullShare (iblk V c 0 t) := by
  unfold Dat.leavesExact; rw [live0 t, after_0]
theorem leaves_1 (c : Dev nD) (t : Fin cfg2.N) :
    (dat V c).leavesExact 1 t = owns (c : Thread nD τ) (st2_1 t) fullShare (iblk V c 1 t) := by
  unfold Dat.leavesExact; rw [live1 t, after_1]
theorem leaves_2_last (c : Dev nD) (t : Fin cfg2.N) (h : condLast (grid2.coords t)) :
    (dat V c).leavesExact 2 t = owns (c : Thread nD τ) (st2_2 t) fullShare (accAt V c t.val t.isLt) := by
  unfold Dat.leavesExact; rw [live2_of t h, after_2]

set_option maxHeartbeats 2000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ, Phi_castSucc]
  rw [leaves_0, leaves_1]
  have hN : t.val < 10 := lt_of_lt_of_eq t.isLt (show cfg2.N = 10 from N_2)
  by_cases hz : t.val = 0
  ·
    have hc0 : condFirst (grid2.coords t) := (hcondFirst t).mpr hz
    have hc1 : ¬condLast (grid2.coords t) := fun h => by have := (hcondLast t).mp h; omega
    rw [Dat.leavesExact_idle (dat V c) 2 t (idle2_of t hc1) (noFlush2_of t hc1)]
    rw [PhiS_zero V c _ _ hz, accAt_first V c t hz]
    iintro ⟨HΦ, Ho, ⟨%d0, H0⟩, ⟨%d1, H1⟩, ⟨%d2, H2⟩⟩
    ihave Hsp := PhiA_split c $$ HΦ
    icases Hsp with ⟨HS, Hrest, Hg⟩
    iapply (run_first c (grid2.coords t) _ _ _ _ _ _ _ _ hc0 hc1 (iblk V c 0 t) (iblk V c 1 t) ((dat V c).before 2 t d2) Set.univ _)
    iframe H0 H1 H2 HS
    iintro ⟨H0, H1, H2, HS⟩
    iframe HS Hrest Hg Ho H0 H1
    iexists _; iexact H2
  · rw [PhiS_pos V c _ _ hz, accAt_later V c t hz]
    have hc0 : ¬condFirst (grid2.coords t) := fun h => hz ((hcondFirst t).mp h)
    by_cases h9 : t.val = 9
    ·
      have hc1 : condLast (grid2.coords t) := (hcondLast t).mpr h9
      rw [leaves_2_last V c t hc1, accAt_later V c t hz]
      iintro ⟨⟨HS, Hrest, Hg⟩, Ho, ⟨%d0, H0⟩, ⟨%d1, H1⟩, ⟨%d2, H2⟩⟩
      iapply (run_last c (grid2.coords t) _ _ _ _ _ _ _ _ hc0 hc1 (iblk V c 0 t) (iblk V c 1 t) (accAt V c (t.val - 1) (Nat.lt_of_le_of_lt (Nat.sub_le _ _) t.isLt)) Set.univ _)
      iframe H0 H1 HS
      isplitl [H2]; · iexists _; iexact H2
      iintro ⟨H0, H1, H2, HS⟩
      iframe
    ·
      have hc1 : ¬condLast (grid2.coords t) := fun h => h9 ((hcondLast t).mp h)
      rw [Dat.leavesExact_idle (dat V c) 2 t (idle2_of t hc1) (noFlush2_of t hc1)]
      iintro ⟨⟨HS, Hrest, Hg⟩, Ho, ⟨%d0, H0⟩, ⟨%d1, H1⟩, ⟨%d2, H2⟩⟩
      iapply (run_mid c (grid2.coords t) _ _ _ _ _ _ _ _ hc0 hc1 (iblk V c 0 t) (iblk V c 1 t) ((dat V c).before 2 t d2) (accAt V c (t.val - 1) (Nat.lt_of_le_of_lt (Nat.sub_le _ _) t.isLt)) Set.univ _)
      iframe H0 H1 H2 HS
      iintro ⟨H0, H1, H2, HS⟩
      iframe HS Hrest Hg Ho H0 H1
      iexists _; iexact H2

theorem body_obligation (c : Dev nD) : BodyObligation (dat (F := F) V c) (defs₀ (F := F)) Variants.none () Set.univ := fun t => by
  rw [bigSep_W2, bigSep_W2]
  exact sound_body V c t

theorem hin (c : Dev nD) : (Pipeline.ΦA spec2 c : sProp 𝕄) ⊢ (dat V c).Φ 0 := by
  rw [show (dat V c).Φ 0 = PhiS V c 0 (Nat.zero_le _) from rfl, PhiS_zero V c 0 _ rfl]

theorem hout (c : Dev nD) : (dat V c).Φ (Fin.last _) ⊢ (Pipeline.ΦA spec2 c : sProp 𝕄) := by
  have hne : (Fin.last cfg2.N).val ≠ 0 := by
    rw [Fin.val_last]; have : cfg2.N = 10 := N_2; omega
  rw [show (dat V c).Φ (Fin.last cfg2.N) = PhiS V c (Fin.last cfg2.N).val (Nat.le_of_lt_succ (Fin.last cfg2.N).isLt) from rfl,
    PhiS_pos V c _ _ hne]
  iintro ⟨HS, Hrest, Hg⟩
  iapply (PhiA_join c)
  iframe Hrest Hg
  iexists _; iexact HS

end Cert.KernelIdeal.Balance

end
-- ==== Proof.Run.lean ====
import proofs.«431324_j10900626998069_3_alg».proof.Proof.Fold
import proofs.«431324_j10900626998069_3_alg».proof.Proof.NodeBody
import proofs.«431324_j10900626998069_3_alg».proof.Proof.EdgeBody
import proofs.«431324_j10900626998069_3_alg».proof.Proof.BalanceBody
import proofs.«431324_j10900626998069_3_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fold

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hF0 (c : Dev nD) (w : Fin cfg0.W) : (Node.dat (Fold.V1 m) c).arrAt w cfg0.N = Fold.V2 m c (Pipeline.arrRef spec0 w) :=
  (W2_arr m c w).symm
theorem hrest0 (c : Dev nD) : ∀ b, b ∉ Finset.univ.image (Pipeline.arrRef spec0) → Fold.V2 m c b = Fold.V1 m c b :=
  fun b hb => W2_of_ne m c b fun w e => hb (Finset.mem_image.mpr ⟨w, Finset.mem_univ _, e⟩)
theorem hF1 (c : Dev nD) (w : Fin cfg1.W) : (Edge.dat (Fold.V6 m) c).arrAt w cfg1.N = Fold.V7 m c (Pipeline.arrRef spec1 w) :=
  (W7_arr m c w).symm
theorem hrest1 (c : Dev nD) : ∀ b, b ∉ Finset.univ.image (Pipeline.arrRef spec1) → Fold.V7 m c b = Fold.V6 m c b :=
  fun b hb => W7_of_ne m c b fun w e => hb (Finset.mem_image.mpr ⟨w, Finset.mem_univ _, e⟩)
theorem hF2 (c : Dev nD) (w : Fin cfg2.W) : (Balance.dat (Fold.V8 m) c).arrAt w cfg2.N = Fold.V9 m c (Pipeline.arrRef spec2 w) :=
  (W9_arr m c w).symm
theorem hrest2 (c : Dev nD) : ∀ b, b ∉ Finset.univ.image (Pipeline.arrRef spec2) → Fold.V9 m c b = Fold.V8 m c b :=
  fun b hb => W9_of_ne m c b fun w e => hb (Finset.mem_image.mpr ⟨w, Finset.mem_univ _, e⟩)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => Node.dat (Fold.V1 m) c
  | ⟨1, _⟩ => fun c => Edge.dat (Fold.V6 m) c
  | ⟨2, _⟩ => fun c => Balance.dat (Fold.V8 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

section Stages

set_option backward.isDefEq.respectTransparency.types false in
/-- The node stage takes the buffer contents `W1` to `W2`. -/
def reg0 :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Node.body_obligation (Fold.V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Fold.V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Fold.V1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    have h := Node.hin (Fold.V1 m) c
    unfold Pipeline.ΦA at h
    rw [show (pdats m 0 c).Φ 0 = (Node.dat (Fold.V1 m) c).Φ 0 from rfl]
    refine BIClass.entails_trans ?_ h
    iintro ⟨Hp, -, Hr⟩
    iframe
  hout c := by
    rw [Pipeline.ownSems0_none]
    have h := Node.hout (Fold.V1 m) c
    unfold Pipeline.ΦA at h
    rw [show (pdats m 0 c).Φ (Fin.last _) = (Node.dat (Fold.V1 m) c).Φ (Fin.last _) from rfl]
    refine BIClass.entails_trans h ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Fold.V1 m c) (Fold.V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge stage takes `W6` to `W7`. -/
def reg1 :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Edge.body_obligation (Fold.V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Fold.V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Fold.V6 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 1 c).Φ 0 = Pipeline.ΦA spec1 c from rfl]
    unfold Pipeline.ΦA
    iintro ⟨Hp, -, Hr⟩
    iframe
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Fold.V6 m c) (Fold.V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The balance stage takes `W8` to `W9`. -/
def reg2 :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Balance.body_obligation (Fold.V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (Fold.V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Fold.V8 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    have h := Balance.hin (Fold.V8 m) c
    unfold Pipeline.ΦA at h
    rw [show (pdats m 2 c).Φ 0 = (Balance.dat (Fold.V8 m) c).Φ 0 from rfl]
    refine BIClass.entails_trans ?_ h
    iintro ⟨Hp, -, Hr⟩
    iframe
  hout c := by
    rw [Pipeline.ownSems0_none]
    have h := Balance.hout (Fold.V8 m) c
    unfold Pipeline.ΦA at h
    rw [show (pdats m 2 c).Φ (Fin.last _) = (Balance.dat (Fold.V8 m) c).Φ (Fin.last _) from rfl]
    refine BIClass.entails_trans h ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Fold.V8 m c) (Fold.V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs :
    List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)),
    .region (reg2 m),
    .host (hseg hostOps3 hostOps3_sub hostOps3_fresh (W9 m)) ]

theorem main_run (c : Dev nD) : main (F := F) c = Pipeline.Seg.run (segs m) :=
  (main_chain c).trans (by chain_rfl)

set_option backward.isDefEq.respectTransparency.types false in
/-- Every weakly fair execution of @main ends, faulting nowhere, with each buffer that outlives the stages at the fold's last contents. -/
theorem run :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main
    (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Stages

end Cert.KernelIdeal.Run

end
-- ==== Proof.Kept.lean ====
import proofs.«431324_j10900626998069_3_alg».proof.Proof.Fold
import proofs.«431324_j10900626998069_3_alg».proof.Proof.Gen.KernelIdeal.Regions

set_option maxRecDepth 16384

noncomputable section

namespace Cert.KernelIdeal.Fold

open Idealize.ShloMosaic Idealize.ShloMosaic.TcCoe
open Idealize.SL Idealize.SL.Sem
open Cert.KernelIdeal Cert.KernelIdeal.Gen

variable {F : FTy → Type} [FloatOps F] [Named F]

variable (m : (ℓ : Loc nD τ sig) → Buf (Elt F) ℓ)

/-- `b` outlives the stages, no host operation writes it, and no stage has it among its arrays. -/
abbrev Kept (b : Ref sig .tc) : Prop :=
  ¬ (Proc.devRef .tc b : DevRef τ sig).isScoped ∧ b ∉ hostOps3_W ∧ (∀ w, Pipeline.arrRef spec2 w ≠ b) ∧ b ∉ hostOps2_W ∧ (∀ w, Pipeline.arrRef spec1 w ≠ b)
    ∧ b ∉ hostOps1_3_W ∧ b ∉ hostOps1_2_W ∧ b ∉ hostOps1_1_W ∧ b ∉ hostOps1_W
    ∧ (∀ w, Pipeline.arrRef spec0 w ≠ b) ∧ b ∉ hostOps0_W

/-- Such a buffer reaches the end of @main as launched: each item of the fold leaves it alone. -/
theorem W10_kept (c : Dev nD) (b : Ref sig .tc) (h : Kept b) : W10 m c (Proc.devRef .tc b) = m ((c : Thread nD τ).loc b) := by
  obtain ⟨-, h3, a2, h2, a1, h13, h12, h11, h1, a0, h0⟩ := h
  exact (StableHlo.after_of_writes_sub hostOps3 _ hostOps3_writes h3).trans <|
    (W9_of_ne m c b a2).trans <| (StableHlo.after_of_writes_sub hostOps2 _ hostOps2_writes h2).trans <|
    (W7_of_ne m c b a1).trans <| (StableHlo.after_of_writes_sub hostOps1_3 _ hostOps1_3_writes h13).trans <|
    (StableHlo.after_of_writes_sub hostOps1_2 _ hostOps1_2_writes h12).trans <|
    (StableHlo.after_of_writes_sub hostOps1_1 _ hostOps1_1_writes h11).trans <|
    (StableHlo.after_of_writes_sub hostOps1 _ hostOps1_writes h1).trans <|
    (W2_of_ne m c b a0).trans <| (StableHlo.after_of_writes_sub hostOps0 _ hostOps0_writes h0).trans rfl

/-- What holds of every such buffer holds of the thirteen arguments. -/
theorem of_kept {P : Ref sig .tc → Prop} (k : ∀ b, Kept b → P b) :
    P main_arg0 ∧ P main_arg1 ∧ P main_arg2 ∧ P main_arg3 ∧ P main_arg4 ∧ P main_arg5 ∧ P main_arg6 ∧ P main_arg7
      ∧ P main_arg8 ∧ P main_arg9 ∧ P main_arg10 ∧ P main_arg11 ∧ P main_arg12 :=
  ⟨k _ (by decide), k _ (by decide), k _ (by decide), k _ (by decide), k _ (by decide), k _ (by decide), k _ (by decide),
    k _ (by decide), k _ (by decide), k _ (by decide), k _ (by decide), k _ (by decide), k _ (by decide)⟩

end Cert.KernelIdeal.Fold

end
-- ==== Proof.Frames.lean ====
import proofs.«431324_j10900626998069_3_alg».proof.Proof.Run
import proofs.«431324_j10900626998069_3_alg».proof.Proof.Kept

set_option maxRecDepth 16384

noncomputable section

namespace Cert.KernelIdeal.Frames

open Idealize.ShloMosaic Idealize.ShloMosaic.TcCoe
open Idealize.SL Idealize.SL.Sem
open Cert.KernelIdeal Cert.KernelIdeal.Gen Cert.KernelIdeal.Fold

variable {F : FTy → Type} [FloatOps F] [Named F]

variable (m : (ℓ : Loc nD τ sig) → Buf (Elt F) ℓ) (ρ : Dev nD → PrngReg)

/-- At the end of @main the scalar result buffer holds the fold's last contents and every buffer no item touches is as launched. -/
theorem frame : θ_run defs (onTc (τ := τ) (main (F := F))) ⟨m, fun _ => 0, ρ⟩ (fun r => ∀ c : Dev nD,
      r.2.mem ((c.tc : Thread nD τ).loc main_v87) = W10 m c (Proc.devRef .tc main_v87)
      ∧ ∀ b : Ref sig .tc, Kept b → r.2.mem ((c.tc : Thread nD τ).loc b) = m ((c.tc : Thread nD τ).loc b)) :=
  (θ_run defs _ _).mono (fun r h c =>
    ⟨h c _ (Run.mem_uc main_v87 (by decide)), fun b hk => (h c _ (Run.mem_uc b hk.1)).trans (W10_kept m c b hk)⟩)
    (Run.run m ρ)

end Cert.KernelIdeal.Frames

end
-- ==== Proof.NodeBits.lean ====
import proofs.«431324_j10900626998069_3_alg».proof.Proof.Gen.Kernel.Launch
import proofs.«431324_j10900626998069_3_alg».proof.Proof.Gen.Kernel.Skeleton
import proofs.«431324_j10900626998069_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def physBlock (a : Vec F S8x800x128 .f32) (p : Vec F S6x800x128 .f32) : Vec F S4x800x128 .f32 :=
  k0_pay1 (k0_pay7 a) (k0_pay9 p)

def efBlock (a : Vec F S8x800x128 .f32) : Vec F S2x800x128 .f32 :=
  k0_pay2 (k0_pay10 a) (k0_pay11 a) (k0_pay12 a)

def accStep (a : Vec F S8x800x128 .f32) (s : Vec F S1x1 .f32) : Vec F S1x1 .f32 :=
  k0_pay8 a s

/-- The running sum of squared errors after block `n`: block 0 starts from the stored zero. -/
def accAt (c : Dev nD) : (n : ℕ) → n < cfg0.N → Vec F S1x1 .f32
  | 0, h => accStep (iblk V c 0 ⟨0, h⟩) (k0_pay3 (F := F))
  | n + 1, h => accStep (iblk V c 0 ⟨n + 1, h⟩) (accAt c n (Nat.lt_of_succ_lt h))

theorem accAt_zero (c : Dev nD) (h : 0 < cfg0.N) :
    accAt V c 0 h = accStep (iblk V c 0 ⟨0, h⟩) (k0_pay3 (F := F)) := rfl
theorem accAt_succ (c : Dev nD) (n : ℕ) (h : n + 1 < cfg0.N) :
    accAt V c (n + 1) h = accStep (iblk V c 0 ⟨n + 1, h⟩) (accAt V c n (Nat.lt_of_succ_lt h)) := rfl

abbrev scM : Memref sig .tc .vmem S1x1 .f32 := Memref.whole cc0_scratch0

/-- Between blocks the one-word scratch holds the running sum of the blocks done so far. -/
def PhiS (c : Dev nD) : (n : ℕ) → n ≤ cfg0.N → sProp 𝕄
  | 0, _ => Pipeline.ΦA spec0 c
  | n + 1, hn => iprop(owns (c : Thread nD τ) scM fullShare (accAt V c n hn)
      ∗ Pipeline.scopedRestBut (Ix := Unit) (Name := ℕ) (U := UR sig nD τ) (Lvl := ℕ) (Val := Elt F) spec0 c [cc0_scratch0]
      ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare (accAt V c n hn)
      ∗ Pipeline.scopedRestBut (Ix := Unit) (Name := ℕ) (U := UR sig nD τ) (Lvl := ℕ) (Val := Elt F) spec0 c [cc0_scratch0]
      ∗ (∃ r, prngReg c r)) := rfl

theorem PhiS_pos (c : Dev nD) (n : ℕ) (h : n ≤ cfg0.N) (hz : n ≠ 0) :
    PhiS V c n h = iprop(owns (c : Thread nD τ) scM fullShare (accAt V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

private theorem sep_eq (P Q : sProp 𝕄) : BI.sep P Q = iprop(P ∗ Q) := rfl

theorem PhiA_split (c : Dev nD) :
    (Pipeline.ΦA spec0 c : sProp 𝕄)
      ⊢ iprop((∃ d, owns (c : Thread nD τ) scM fullShare d)
        ∗ Pipeline.scopedRestBut (Ix := Unit) (Name := ℕ) (U := UR sig nD τ) (Lvl := ℕ) (Val := Elt F) spec0 c [cc0_scratch0]
        ∗ (∃ r, prngReg c r)) := by
  unfold Pipeline.ΦA
  rw [Pipeline.scopedRest_split_of_list spec0 c [cc0_scratch0] (by decide) (by decide), sep_eq]
  simp only [scM, owns_whole, bigSepL]
  iintro ⟨⟨H1, H2⟩, H3⟩
  iframe

theorem PhiA_join (c : Dev nD) :
    (iprop((∃ d, owns (c : Thread nD τ) scM fullShare d)
        ∗ Pipeline.scopedRestBut (Ix := Unit) (Name := ℕ) (U := UR sig nD τ) (Lvl := ℕ) (Val := Elt F) spec0 c [cc0_scratch0]
        ∗ (∃ r, prngReg c r)) : sProp 𝕄)
      ⊢ Pipeline.ΦA spec0 c := by
  unfold Pipeline.ΦA
  rw [Pipeline.scopedRest_split_of_list spec0 c [cc0_scratch0] (by decide) (by decide), sep_eq]
  simp only [scM, owns_whole, bigSepL]
  iintro ⟨H1, H2, H3⟩
  iframe

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => physBlock (iblk V c 0 t) (iblk V c 1 t)
    | ⟨3, _⟩ => efBlock (iblk V c 0 t)
    | ⟨4, _⟩ => accAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = physBlock (iblk V c 0 t) (iblk V c 1 t) := by dsimp only [dat]
theorem after_3 (c : Dev nD) (t : Fin cfg0.N) : (dat V c).after 3 t = efBlock (iblk V c 0 t) := by dsimp only [dat]
theorem after_4 (c : Dev nD) (t : Fin cfg0.N) : (dat V c).after 4 t = accAt V c t.val t.isLt := by dsimp only [dat]

theorem Phi_castSucc (c : Dev nD) (t : Fin cfg0.N) :
    (dat V c).Φ t.castSucc = PhiS V c t.val (Nat.le_of_lt t.isLt) := by
  dsimp only [dat]; simp only [Fin.coe_castSucc]

end Cert.Kernel.Node

end
-- ==== Proof.EdgeBits.lean ====
import proofs.«431324_j10900626998069_3_alg».proof.Proof.Gen.Kernel.Launch
import proofs.«431324_j10900626998069_3_alg».proof.Proof.Gen.Kernel.Skeleton
import proofs.«431324_j10900626998069_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def msgBlock (xy : Vec F S4x600x128 .f32) (ea : Vec F S4x600x128 .f32) (em : Vec F S4x1x1 .f32) (es : Vec F S4x1x1 .f32) :
    Vec F S2x600x128 .f32 :=
  k1_pay1 xy ea em es

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => msgBlock (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = msgBlock (iblk V c 0 t) (iblk V c 1 t) (iblk V c 2 t) (iblk V c 3 t) := by dsimp only [dat]

end Cert.Kernel.Edge

end
-- ==== Proof.BalanceBits.lean ====
import proofs.«431324_j10900626998069_3_alg».proof.Proof.Gen.Kernel.Launch
import proofs.«431324_j10900626998069_3_alg».proof.Proof.Gen.Kernel.Skeleton
import proofs.«431324_j10900626998069_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Balance

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accStep (x : Vec F S4x800x128 .f32) (r : Vec F S5x800x128 .f32) (s : Vec F S1x1 .f32) : Vec F S1x1 .f32 :=
  k2_pay2 x r s

/-- The running masked sum of squared residuals after block `n`: block 0 starts from the stored zero. -/
def accAt (c : Dev nD) : (n : ℕ) → n < cfg2.N → Vec F S1x1 .f32
  | 0, h => accStep (iblk V c 0 ⟨0, h⟩) (iblk V c 1 ⟨0, h⟩) (k2_pay1 (F := F))
  | n + 1, h => accStep (iblk V c 0 ⟨n + 1, h⟩) (iblk V c 1 ⟨n + 1, h⟩) (accAt c n (Nat.lt_of_succ_lt h))

theorem accAt_zero (c : Dev nD) (h : 0 < cfg2.N) :
    accAt V c 0 h = accStep (iblk V c 0 ⟨0, h⟩) (iblk V c 1 ⟨0, h⟩) (k2_pay1 (F := F)) := rfl
theorem accAt_succ (c : Dev nD) (n : ℕ) (h : n + 1 < cfg2.N) :
    accAt V c (n + 1) h = accStep (iblk V c 0 ⟨n + 1, h⟩) (iblk V c 1 ⟨n + 1, h⟩) (accAt V c n (Nat.lt_of_succ_lt h)) := rfl

abbrev scM : Memref sig .tc .vmem S1x1 .f32 := Memref.whole cc2_scratch0

/-- Between blocks the one-word scratch holds the running sum of the blocks done so far. -/
def PhiS (c : Dev nD) : (n : ℕ) → n ≤ cfg2.N → sProp 𝕄
  | 0, _ => Pipeline.ΦA spec2 c
  | n + 1, hn => iprop(owns (c : Thread nD τ) scM fullShare (accAt V c n hn)
      ∗ Pipeline.scopedRestBut (Ix := Unit) (Name := ℕ) (U := UR sig nD τ) (Lvl := ℕ) (Val := Elt F) spec2 c [cc2_scratch0]
      ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) scM fullShare (accAt V c n hn)
      ∗ Pipeline.scopedRestBut (Ix := Unit) (Name := ℕ) (U := UR sig nD τ) (Lvl := ℕ) (Val := Elt F) spec2 c [cc2_scratch0]
      ∗ (∃ r, prngReg c r)) := rfl

theorem PhiS_pos (c : Dev nD) (n : ℕ) (h : n ≤ cfg2.N) (hz : n ≠ 0) :
    PhiS V c n h = iprop(owns (c : Thread nD τ) scM fullShare (accAt V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

private theorem sep_eq (P Q : sProp 𝕄) : BI.sep P Q = iprop(P ∗ Q) := rfl

theorem PhiA_split (c : Dev nD) :
    (Pipeline.ΦA spec2 c : sProp 𝕄)
      ⊢ iprop((∃ d, owns (c : Thread nD τ) scM fullShare d)
        ∗ Pipeline.scopedRestBut (Ix := Unit) (Name := ℕ) (U := UR sig nD τ) (Lvl := ℕ) (Val := Elt F) spec2 c [cc2_scratch0]
        ∗ (∃ r, prngReg c r)) := by
  unfold Pipeline.ΦA
  rw [Pipeline.scopedRest_split_of_list spec2 c [cc2_scratch0] (by decide) (by decide), sep_eq]
  simp only [scM, owns_whole, bigSepL]
  iintro ⟨⟨H1, H2⟩, H3⟩
  iframe

theorem PhiA_join (c : Dev nD) :
    (iprop((∃ d, owns (c : Thread nD τ) scM fullShare d)
        ∗ Pipeline.scopedRestBut (Ix := Unit) (Name := ℕ) (U := UR sig nD τ) (Lvl := ℕ) (Val := Elt F) spec2 c [cc2_scratch0]
        ∗ (∃ r, prngReg c r)) : sProp 𝕄)
      ⊢ Pipeline.ΦA spec2 c := by
  unfold Pipeline.ΦA
  rw [Pipeline.scopedRest_split_of_list spec2 c [cc2_scratch0] (by decide) (by decide), sep_eq]
  simp only [scM, owns_whole, bigSepL]
  iintro ⟨H1, H2, H3⟩
  iframe

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => accAt V c t.val t.isLt
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = accAt V c t.val t.isLt := by dsimp only [dat]

theorem Phi_castSucc (c : Dev nD) (t : Fin cfg2.N) :
    (dat V c).Φ t.castSucc = PhiS V c t.val (Nat.le_of_lt t.isLt) := by
  dsimp only [dat]; simp only [Fin.coe_castSucc]

end Cert.Kernel.Balance

end
-- ==== Proof.FoldBits.lean ====
import proofs.«431324_j10900626998069_3_alg».proof.Proof.NodeBits
import proofs.«431324_j10900626998069_3_alg».proof.Proof.EdgeBits
import proofs.«431324_j10900626998069_3_alg».proof.Proof.BalanceBits

set_option maxRecDepth 16384

noncomputable section

namespace Cert.Kernel.Fold

open Idealize.ShloMosaic Idealize.ShloMosaic.TcCoe
open Idealize.SL Idealize.SL.Sem
open Idealize.ShloMosaic.Pipeline (Dat)
open Cert.Kernel Cert.Kernel.Gen

variable {F : FTy → Type} [FloatOps F]

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the node stage: its arrays at what the blocks left, every other buffer as before. -/
def W2 (c : Dev nD) : Valuation τ sig (Elt F) :=
  Pipeline.withArrays spec0 c (W1 m c) fun w => (Node.dat (V1 m) c).arrAt w cfg0.N
theorem W2_arr (c : Dev nD) (w : Fin cfg0.W) :
    W2 m c (Proc.devRef .tc (Pipeline.arrRef spec0 w)) = (Node.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev V6 : (c : Dev nD) → (b : Ref sig .tc) → Buf (Elt F) ((c : Thread nD τ).loc b) := fun c b => W6 m c b
def W7 (c : Dev nD) : Valuation τ sig (Elt F) :=
  Pipeline.withArrays spec1 c (W6 m c) fun w => (Edge.dat (V6 m) c).arrAt w cfg1.N
theorem W7_arr (c : Dev nD) (w : Fin cfg1.W) :
    W7 m c (Proc.devRef .tc (Pipeline.arrRef spec1 w)) = (Edge.dat (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b

abbrev W8 : Dev nD → Valuation τ sig (Elt F) := fun c => StableHlo.after hostOps2 (W7 m c)
abbrev V8 : (c : Dev nD) → (b : Ref sig .tc) → Buf (Elt F) ((c : Thread nD τ).loc b) := fun c b => W8 m c b
def W9 (c : Dev nD) : Valuation τ sig (Elt F) :=
  Pipeline.withArrays spec2 c (W8 m c) fun w => (Balance.dat (V8 m) c).arrAt w cfg2.N
theorem W9_arr (c : Dev nD) (w : Fin cfg2.W) :
    W9 m c (Proc.devRef .tc (Pipeline.arrRef spec2 w)) = (Balance.dat (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b

abbrev W10 : Dev nD → Valuation τ sig (Elt F) := fun c => StableHlo.after hostOps3 (W9 m c)

end Cert.Kernel.Fold

end
-- ==== Proof.NodeBodyBits.lean ====
import proofs.«431324_j10900626998069_3_alg».proof.Proof.NodeBits
import Idealize.ShloMosaic.Lib.Pipeline.Value

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

abbrev cond1 (i : grid0.Coords) : Prop := k0_cond2 i = 1#1
theorem hcond1 : ∀ t : Fin cfg0.N, cond1 (grid0.coords t) ↔ t.val = 9 :=
  (by decide +kernel : ∀ t : Fin grid0.N, cond1 (grid0.coords t) ↔ t.val = 9)

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem idleAt_4 : ∀ t : Fin cfg0.N, ¬cond1 (grid0.coords t) → cfg0.idle 4 (grid0.coords t) = true := by decide +kernel
theorem noFlush_4 : ∀ t : Fin cfg0.N, ¬cond1 (grid0.coords t) → (cfg0.win 4).flush t = false := by decide +kernel
theorem liveAt_4 : ∀ t : Fin cfg0.N, cond1 (grid0.coords t) → cfg0.idle 4 (grid0.coords t) = false := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

theorem read_whole_store {S : Shape} {e : EltTy} {kd : Kind} {sp : Space} (v : View sig kd sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

abbrev R8 : Rect S8x800x128 := Rect.unit (s := S8x800x128) ![0, 0, 0] S8x800x128.size inb_S8x800x128_S8x800x128_0_0_0
abbrev R6 : Rect S6x800x128 := Rect.unit (s := S6x800x128) ![0, 0, 0] S6x800x128.size inb_S6x800x128_S6x800x128_0_0_0
abbrev R1 : Rect S1x1 := Rect.unit (s := S1x1) ![0, 0] S1x1.size inb_S1x1_S1x1_0_0

theorem ld_R8 (X : Vec F S8x800x128 .f32) : View.ld X R8 = X := View.ld_unit_zero hz3 _ X
theorem ld_R6 (X : Vec F S6x800x128 .f32) : View.ld X R6 = X := View.ld_unit_zero hz3 _ X
theorem ld_R1 (X : Vec F S1x1 .f32) : View.ld X R1 = X := View.ld_unit_zero hz2 _ X

theorem phys_ld (X : Vec F S8x800x128 .f32) (Y : Vec F S6x800x128 .f32) :
    physBlock (View.ld X R8) (View.ld Y R6) = physBlock X Y := by rw [ld_R8, ld_R6]
theorem ef_ld (X : Vec F S8x800x128 .f32) : efBlock (View.ld X R8) = efBlock X := by rw [ld_R8]
theorem acc_ld (X : Vec F S8x800x128 .f32) (s : Vec F S1x1 .f32) :
    accStep (View.ld X R8) (View.ld s R1) = accStep X s := by rw [ld_R8, ld_R1]
theorem acc_ld' (X : Vec F S8x800x128 .f32) (s : Vec F S1x1 .f32) :
    accStep (View.ld X R8) s = accStep X s := by rw [ld_R8]

section Kernel
variable (c : Dev nD) (E : Set ℕ) (i : grid0.Coords)
    (arg1 : Memref sig .tc .vmem S8x800x128 .f32) (harg1 : arg1.IsWhole) (arg2 : Memref sig .tc .vmem S6x800x128 .f32) (harg2 : arg2.IsWhole)
    (arg3 : Memref sig .tc .vmem S4x800x128 .f32) (harg3 : arg3.IsWhole) (arg4 : Memref sig .tc .vmem S2x800x128 .f32) (harg4 : arg4.IsWhole)
    (arg5 : Memref sig .tc .vmem S1x1 .f32) (harg5 : arg5.IsWhole) (arg6 : Memref sig .tc .vmem S1x1 .f32) (harg6 : arg6.IsWhole)

set_option maxHeartbeats 1000000 in
theorem sound_kernel_mid (hc0 : ¬cond0 i) (hc1 : ¬cond1 i)
    (x0 : Vec F S8x800x128 .f32) (x1 : Vec F S6x800x128 .f32) (s : Vec F S1x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg6 fullShare s
        ∗ (iprop(owns (c : Thread nD τ) arg1 fullShare x0 ∗ owns (c : Thread nD τ) arg2 fullShare x1
            ∗ owns (c : Thread nD τ) arg3 fullShare (physBlock x0 x1) ∗ owns (c : Thread nD τ) arg4 fullShare (efBlock x0)
            ∗ owns (c : Thread nD τ) arg6 fullShare (accStep x0 s)) -∗ K ⟨⟩))
      ⊢ wp frame (wpE (defs₀ (F := F)) Variants.none c none) E (cc0__node_prep_kernel i arg1 harg1 arg2 harg2 arg3 harg3 arg4 harg4 arg5 harg5 arg6 harg6) K := by
  simp only [cc0__node_prep_kernel_eq_skeleton]; unfold cc0__node_prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (read_whole_store (S := S4x800x128) arg3.view f2 hz3 _ _ []).trans
      (phys_ld (arg1.view.read (Elt F) f0) (arg2.view.read (Elt F) f1))
  isplitl [H3]
  · iexists _; isplitr
    swap; · iexact H3
    ipureintro
    exact (read_whole_store (S := S2x800x128) arg4.view f3 hz3 _ _ []).trans (ef_ld (arg1.view.read (Elt F) f0))
  iexists _; isplitr
  swap; · iexact HS
  ipureintro
  exact (read_whole_store (S := S1x1) arg6.view fs hz2 _ _ []).trans
    (acc_ld (arg1.view.read (Elt F) f0) (arg6.view.read (Elt F) fs))

set_option maxHeartbeats 1000000 in
theorem sound_kernel_first (hc0 : cond0 i) (hc1 : ¬cond1 i)
    (x0 : Vec F S8x800x128 .f32) (x1 : Vec F S6x800x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg6 fullShare d)
        ∗ (iprop(owns (c : Thread nD τ) arg1 fullShare x0 ∗ owns (c : Thread nD τ) arg2 fullShare x1
            ∗ owns (c : Thread nD τ) arg3 fullShare (physBlock x0 x1) ∗ owns (c : Thread nD τ) arg4 fullShare (efBlock x0)
            ∗ owns (c : Thread nD τ) arg6 fullShare (accStep x0 (k0_pay3 (F := F)))) -∗ K ⟨⟩))
      ⊢ wp frame (wpE (defs₀ (F := F)) Variants.none c none) E (cc0__node_prep_kernel i arg1 harg1 arg2 harg2 arg3 harg3 arg4 harg4 arg5 harg5 arg6 harg6) K := by
  simp only [cc0__node_prep_kernel_eq_skeleton]; unfold cc0__node_prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (read_whole_store (S := S4x800x128) arg3.view f2 hz3 _ _ []).trans
      (phys_ld (arg1.view.read (Elt F) f0) (arg2.view.read (Elt F) f1))
  isplitl [H3]
  · iexists _; isplitr
    swap; · iexact H3
    ipureintro
    exact (read_whole_store (S := S2x800x128) arg4.view f3 hz3 _ _ []).trans (ef_ld (arg1.view.read (Elt F) f0))
  iexists _; isplitr
  swap; · iexact HS
  ipureintro
  sl_unfold_run_names
  refine (read_whole_store (S := S1x1) arg6.view fs hz2 _ _ _).trans ?_
  refine (congrArg (accStep (View.ld (arg1.view.read (Elt F) f0) R8)) (View.readCov_cons_toLoadRect arg6.view R1 (k0_pay3 (F := F)) [])).trans ?_
  exact acc_ld' (arg1.view.read (Elt F) f0) (k0_pay3 (F := F))

set_option maxHeartbeats 1000000 in
theorem sound_kernel_last (hc0 : ¬cond0 i) (hc1 : cond1 i)
    (x0 : Vec F S8x800x128 .f32) (x1 : Vec F S6x800x128 .f32) (s : Vec F S1x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ owns (c : Thread nD τ) arg6 fullShare s
        ∗ (iprop(owns (c : Thread nD τ) arg1 fullShare x0 ∗ owns (c : Thread nD τ) arg2 fullShare x1
            ∗ owns (c : Thread nD τ) arg3 fullShare (physBlock x0 x1) ∗ owns (c : Thread nD τ) arg4 fullShare (efBlock x0)
            ∗ owns (c : Thread nD τ) arg5 fullShare (accStep x0 s)
            ∗ owns (c : Thread nD τ) arg6 fullShare (accStep x0 s)) -∗ K ⟨⟩))
      ⊢ wp frame (wpE (defs₀ (F := F)) Variants.none c none) E (cc0__node_prep_kernel i arg1 harg1 arg2 harg2 arg3 harg3 arg4 harg4 arg5 harg5 arg6 harg6) K := by
  simp only [cc0__node_prep_kernel_eq_skeleton]; unfold cc0__node_prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d5, %f5, -, H5⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (read_whole_store (S := S4x800x128) arg3.view f2 hz3 _ _ []).trans
      (phys_ld (arg1.view.read (Elt F) f0) (arg2.view.read (Elt F) f1))
  isplitl [H3]
  · iexists _; isplitr
    swap; · iexact H3
    ipureintro
    exact (read_whole_store (S := S2x800x128) arg4.view f3 hz3 _ _ []).trans (ef_ld (arg1.view.read (Elt F) f0))
  isplitl [H5]
  · iexists _; isplitr
    swap; · iexact H5
    ipureintro
    exact (read_whole_store (S := S1x1) arg5.view f5 hz2 _ _ []).trans
      ((View.readCov_cons_toLoadRect arg6.view R1 _ []).trans
        (acc_ld (arg1.view.read (Elt F) f0) (arg6.view.read (Elt F) fs)))
  iexists _; isplitr
  swap; · iexact HS
  ipureintro
  exact (read_whole_store (S := S1x1) arg6.view fs hz2 _ _ []).trans
    (acc_ld (arg1.view.read (Elt F) f0) (arg6.view.read (Elt F) fs))

end Kernel

theorem accAt_first (c : Dev nD) (t : Fin cfg0.N) (hz : t.val = 0) :
    accAt V c t.val t.isLt = accStep (iblk V c 0 t) (k0_pay3 (F := F)) := by
  obtain ⟨n, hn⟩ := t
  cases n with
  | zero => rfl
  | succ n => exact absurd hz (Nat.succ_ne_zero n)

theorem accAt_pos (c : Dev nD) (t : Fin cfg0.N) (hz : t.val ≠ 0) :
    accAt V c t.val t.isLt
      = accStep (iblk V c 0 t) (accAt V c (t.val - 1) (Nat.lt_of_le_of_lt (Nat.sub_le _ _) t.isLt)) := by
  obtain ⟨n, hn⟩ := t
  cases n with
  | zero => exact absurd rfl hz
  | succ n => rfl

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ, Phi_castSucc]
  rw [show (dat V c).leavesExact 0 t = owns (c : Thread nD τ) (st0_0 t) fullShare ((dat V c).after 0 t) from by
    unfold Dat.leavesExact; rw [liveAt_0 t], after_0]
  rw [show (dat V c).leavesExact 1 t = owns (c : Thread nD τ) (st0_1 t) fullShare ((dat V c).after 1 t) from by
    unfold Dat.leavesExact; rw [liveAt_1 t], after_1]
  rw [show (dat V c).leavesExact 2 t = owns (c : Thread nD τ) (st0_2 t) fullShare ((dat V c).after 2 t) from by
    unfold Dat.leavesExact; rw [liveAt_2 t], after_2]
  rw [show (dat V c).leavesExact 3 t = owns (c : Thread nD τ) (st0_3 t) fullShare ((dat V c).after 3 t) from by
    unfold Dat.leavesExact; rw [liveAt_3 t], after_3]
  have hN : t.val < 10 := lt_of_lt_of_eq t.isLt (show cfg0.N = 10 from N_0)
  by_cases h0 : t.val = 0
  ·
    have hc0 : cond0 (grid0.coords t) := (hcond0 t).mpr h0
    have hc1 : ¬cond1 (grid0.coords t) := fun h => by have := (hcond1 t).mp h; omega
    rw [Dat.leavesExact_idle (dat V c) 4 t (idleAt_4 t hc1) (noFlush_4 t hc1)]
    rw [PhiS_zero V c _ _ h0, accAt_first V c t h0]
    iintro ⟨HΦ, Ho, ⟨%d0, H0⟩, ⟨%d1, H1⟩, ⟨%d2, H2⟩, ⟨%d3, H3⟩, H4⟩
    ihave HΦ' := (PhiA_split (F := F) c) $$ HΦ
    icases HΦ' with ⟨HS, HR, Hg⟩
    iapply (sound_kernel_first c Set.univ (grid0.coords t) _ _ _ _ _ _ _ _ _ _ _ _ hc0 hc1 (iblk V c 0 t) (iblk V c 1 t) _)
    iframe H0 H1 HS
    isplitl [H2]; · iexists _; iexact H2
    isplitl [H3]; · iexists _; iexact H3
    iintro ⟨H0, H1, H2, H3, HS⟩
    iframe
  · have hc0 : ¬cond0 (grid0.coords t) := fun h => h0 ((hcond0 t).mp h)
    by_cases h9 : t.val = 9
    ·
      have hc1 : cond1 (grid0.coords t) := (hcond1 t).mpr h9
      rw [show (dat V c).leavesExact 4 t = owns (c : Thread nD τ) (st0_4 t) fullShare ((dat V c).after 4 t) from by
        unfold Dat.leavesExact; rw [liveAt_4 t hc1], after_4]
      rw [PhiS_pos V c _ _ h0, accAt_pos V c t h0]
      iintro ⟨⟨HS, HR, Hg⟩, Ho, ⟨%d0, H0⟩, ⟨%d1, H1⟩, ⟨%d2, H2⟩, ⟨%d3, H3⟩, ⟨%d4, H4⟩⟩
      iapply (sound_kernel_last c Set.univ (grid0.coords t) _ _ _ _ _ _ _ _ _ _ _ _ hc0 hc1 (iblk V c 0 t) (iblk V c 1 t)
        (accAt V c (t.val - 1) (Nat.lt_of_le_of_lt (Nat.sub_le _ _) t.isLt)) _)
      iframe H0 H1 HS
      isplitl [H2]; · iexists _; iexact H2
      isplitl [H3]; · iexists _; iexact H3
      isplitl [H4]; · iexists _; iexact H4
      iintro ⟨H0, H1, H2, H3, H4, HS⟩
      iframe
    ·
      have hc1 : ¬cond1 (grid0.coords t) := fun h => h9 ((hcond1 t).mp h)
      rw [Dat.leavesExact_idle (dat V c) 4 t (idleAt_4 t hc1) (noFlush_4 t hc1)]
      rw [PhiS_pos V c _ _ h0, accAt_pos V c t h0]
      iintro ⟨⟨HS, HR, Hg⟩, Ho, ⟨%d0, H0⟩, ⟨%d1, H1⟩, ⟨%d2, H2⟩, ⟨%d3, H3⟩, H4⟩
      iapply (sound_kernel_mid c Set.univ (grid0.coords t) _ _ _ _ _ _ _ _ _ _ _ _ hc0 hc1 (iblk V c 0 t) (iblk V c 1 t)
        (accAt V c (t.val - 1) (Nat.lt_of_le_of_lt (Nat.sub_le _ _) t.isLt)) _)
      iframe H0 H1 HS
      isplitl [H2]; · iexists _; iexact H2
      isplitl [H3]; · iexists _; iexact H3
      iintro ⟨H0, H1, H2, H3, HS⟩
      iframe

theorem body_obligation (c : Dev nD) :
    BodyObligation (dat (F := F) V c) (defs₀ (F := F)) Variants.none () Set.univ := fun t => by
  rw [bigSep_W0, bigSep_W0]
  exact sound_body V c t

theorem hin (c : Dev nD) : (Pipeline.ΦA spec0 c : sProp 𝕄) ⊢ (dat V c).Φ 0 := by
  rw [show (dat V c).Φ 0 = PhiS V c 0 (Nat.zero_le _) from rfl, PhiS_zero V c 0 _ rfl]

theorem hout (c : Dev nD) : (dat V c).Φ (Fin.last _) ⊢ (Pipeline.ΦA spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 10 := N_0; omega)]
  iintro ⟨HS, HR, Hg⟩
  iapply (PhiA_join (F := F) c)
  iframe HR Hg
  iexists _; iexact HS

end Cert.Kernel.Node

end
-- ==== Proof.EdgeBodyBits.lean ====
import proofs.«431324_j10900626998069_3_alg».proof.Proof.EdgeBits
import Idealize.ShloMosaic.Lib.Pipeline.Value

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

abbrev rIn : Rect S4x600x128 := Rect.unit (s := S4x600x128) ![0, 0, 0] S4x600x128.size inb_S4x600x128_S4x600x128_0_0_0
abbrev rCol : Rect S4x1x1 := Rect.unit (s := S4x1x1) ![0, 0, 0] S4x1x1.size inb_S4x1x1_S4x1x1_0_0_0
abbrev rOut : Rect S2x600x128 := Rect.unit (s := S2x600x128) ![0, 0, 0] S2x600x128.size inb_S2x600x128_S2x600x128_0_0_0

theorem hz3 : (![0, 0, 0] : Fin 3 → Nat) = fun _ => 0 := funext fun a => by fin_cases a <;> rfl

def outBlock (x0 x1 : Vec F S4x600x128 .f32) (x2 x3 : Vec F S4x1x1 .f32) : Vec F S2x600x128 .f32 :=
  View.canon [⟨rOut, k1_pay1 (View.ld x0 rIn) (View.ld x1 rIn) (View.ld x2 rCol) (View.ld x3 rCol)⟩]

theorem cover_out (p0 : Vec F S2x600x128 .f32) (y : S2x600x128.Idx) :
    ∃ pc ∈ ([⟨rOut, p0⟩] : List (View.Piece (Elt F) S2x600x128 .f32)), y ∈ pc.1.set :=
  ⟨_, List.mem_singleton_self _, View.mem_set_unit_zero hz3 inb_S2x600x128_S2x600x128_0_0_0 y⟩

theorem outBlock_eq (x0 x1 : Vec F S4x600x128 .f32) (x2 x3 : Vec F S4x1x1 .f32) :
    outBlock x0 x1 x2 x3 = msgBlock x0 x1 x2 x3 := by
  unfold outBlock msgBlock
  rw [View.canon_unit_zero hz3, View.ld_unit_zero hz3, View.ld_unit_zero hz3, View.ld_unit_zero hz3, View.ld_unit_zero hz3]

set_option maxHeartbeats 1000000 in
theorem sound_kernel (c : Dev nD) (E : Set ℕ) (i : grid1.Coords)
    (arg1 : Memref sig .tc .vmem S4x600x128 .f32) (harg1 : arg1.IsWhole) (arg2 : Memref sig .tc .vmem S4x600x128 .f32) (harg2 : arg2.IsWhole)
    (arg3 : Memref sig .tc .vmem S4x1x1 .f32) (harg3 : arg3.IsWhole) (arg4 : Memref sig .tc .vmem S4x1x1 .f32) (harg4 : arg4.IsWhole)
    (arg5 : Memref sig .tc .vmem S2x600x128 .f32) (harg5 : arg5.IsWhole)
    (x0 x1 : Vec F S4x600x128 .f32) (x2 x3 : Vec F S4x1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlock x0 x1 x2 x3)) -∗ K ⟨⟩))
      ⊢ wp frame (wpE (defs₀ (F := F)) Variants.none c none) E
          (cc1__edge_msg_kernel i arg1 harg1 arg2 harg2 arg3 harg3 arg4 harg4 arg5 harg5) K := by
  simp only [cc1__edge_msg_kernel_eq_skeleton]; unfold cc1__edge_msg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, ← outBlock_eq]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  iframe H0 H1 H2 H3
  isplitl [H4]; · iexists _; iexact H4
  iintro ⟨H0, H1, H2, H3, H4⟩
  iframe

theorem body_obligation (c : Dev nD) : BodyObligation (dat (F := F) V c) (defs₀ (F := F)) Variants.none () Set.univ := fun t => by
  rw [bigSep_W1, bigSep_W1]
  exact sound_body V c t

end Cert.Kernel.Edge

end
-- ==== Proof.BalanceBodyBits.lean ====
import proofs.«431324_j10900626998069_3_alg».proof.Proof.BalanceBits
import Idealize.ShloMosaic.Lib.Pipeline.Value

set_option maxRecDepth 16384

noncomputable section

namespace Cert.Kernel.Balance

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev condFirst (i : grid2.Coords) : Prop :=
  (Scalar.cmpi .ne (Scalar.extui (Scalar.cmpi .eq (BitVec.ofNat 32 (i 0).val) 0#32)) 0#32) = 1#1

abbrev condLast (i : grid2.Coords) : Prop := k2_cond2 i = 1#1

theorem hcondFirst : ∀ t : Fin cfg2.N, condFirst (grid2.coords t) ↔ t.val = 0 :=
  (by decide +kernel : ∀ t : Fin grid2.N, condFirst (grid2.coords t) ↔ t.val = 0)

theorem hcondLast : ∀ t : Fin cfg2.N, condLast (grid2.coords t) ↔ t.val = 9 :=
  (by decide +kernel : ∀ t : Fin grid2.N, condLast (grid2.coords t) ↔ t.val = 9)

theorem live0 : ∀ t : Fin cfg2.N, cfg2.idle 0 (grid2.coords t) = false := by decide +kernel
theorem live1 : ∀ t : Fin cfg2.N, cfg2.idle 1 (grid2.coords t) = false := by decide +kernel
theorem idle2_of : ∀ t : Fin cfg2.N, ¬condLast (grid2.coords t) → cfg2.idle 2 (grid2.coords t) = true := by decide +kernel
theorem noFlush2_of : ∀ t : Fin cfg2.N, ¬condLast (grid2.coords t) → (cfg2.win 2).flush t = false := by decide +kernel
theorem live2_of : ∀ t : Fin cfg2.N, condLast (grid2.coords t) → cfg2.idle 2 (grid2.coords t) = false := by decide +kernel

theorem zeros2 : (![0, 0] : Fin S1x1.rank → ℕ) = fun _ => 0 := by
  funext a; fin_cases a <;> rfl
theorem zeros3a : (![0, 0, 0] : Fin S4x800x128.rank → ℕ) = fun _ => 0 := by
  funext a; fin_cases a <;> rfl
theorem zeros3b : (![0, 0, 0] : Fin S5x800x128.rank → ℕ) = fun _ => 0 := by
  funext a; fin_cases a <;> rfl

theorem load_x (m : Memref sig .tc .vmem S4x800x128 .f32) (f : m.view.ty.Contents (Elt F)) :
    View.readAt (Elt F) m.view (Rect.unit (s := S4x800x128) ![0, 0, 0] S4x800x128.size inb_S4x800x128_S4x800x128_0_0_0).toLoadRect f
      = m.view.read (Elt F) f := by
  rw [View.readAt_eq_ld]; exact View.ld_unit_zero zeros3a _ _

theorem load_r (m : Memref sig .tc .vmem S5x800x128 .f32) (f : m.view.ty.Contents (Elt F)) :
    View.readAt (Elt F) m.view (Rect.unit (s := S5x800x128) ![0, 0, 0] S5x800x128.size inb_S5x800x128_S5x800x128_0_0_0).toLoadRect f
      = m.view.read (Elt F) f := by
  rw [View.readAt_eq_ld]; exact View.ld_unit_zero zeros3b _ _

theorem load_s (m : Memref sig .tc .vmem S1x1 .f32) (f : m.view.ty.Contents (Elt F)) :
    View.readAt (Elt F) m.view (Rect.unit (s := S1x1) ![0, 0] S1x1.size inb_S1x1_S1x1_0_0).toLoadRect f
      = m.view.read (Elt F) f := by
  rw [View.readAt_eq_ld]; exact View.ld_unit_zero zeros2 _ _

theorem read_store (m : Memref sig .tc .vmem S1x1 .f32) (f : m.view.ty.Contents (Elt F)) (w : Vec F S1x1 .f32)
    (L : List (View.Piece (Elt F) S1x1 .f32)) :
    m.view.read (Elt F) (m.view.writes (Elt F) f
        ((⟨Rect.unit (s := S1x1) ![0, 0] S1x1.size inb_S1x1_S1x1_0_0, w⟩ : View.Piece (Elt F) S1x1 .f32) :: L)) = w := by
  rw [View.read_writes_eq_canon _ _ _ (fun y => ⟨_, List.mem_cons_self, View.mem_set_unit_zero zeros2 inb_S1x1_S1x1_0_0 y⟩)]
  exact View.canon_cons_unit_zero zeros2 _ w L

theorem load_store (m : Memref sig .tc .vmem S1x1 .f32) (w : Vec F S1x1 .f32) :
    m.view.readCov [(⟨Rect.unit (s := S1x1) ![0, 0] S1x1.size inb_S1x1_S1x1_0_0, w⟩ : View.Piece (Elt F) S1x1 .f32)]
        (Rect.unit (s := S1x1) ![0, 0] S1x1.size inb_S1x1_S1x1_0_0).toLoadRect = w :=
  View.readCov_unit_zero _ zeros2 _ w

section Kernel
variable (c : Dev nD) (i : grid2.Coords)
    (arg1 : Memref sig .tc .vmem S4x800x128 .f32) (harg1 : arg1.IsWhole)
    (arg2 : Memref sig .tc .vmem S5x800x128 .f32) (harg2 : arg2.IsWhole)
    (arg3 : Memref sig .tc .vmem S1x1 .f32) (harg3 : arg3.IsWhole)
    (arg4 : Memref sig .tc .vmem S1x1 .f32) (harg4 : arg4.IsWhole)

set_option maxHeartbeats 1000000 in
theorem run_mid (hc0 : ¬condFirst i) (hc1 : ¬condLast i)
    (x : Vec F S4x800x128 .f32) (r : Vec F S5x800x128 .f32) (o : Vec F S1x1 .f32) (s : Vec F S1x1 .f32)
    (E : Set ℕ) (K : PUnit → sProp 𝕄) :
    iprop(owns (c : Thread nD τ) arg1 fullShare x ∗ owns (c : Thread nD τ) arg2 fullShare r
        ∗ owns (c : Thread nD τ) arg3 fullShare o ∗ owns (c : Thread nD τ) arg4 fullShare s
        ∗ (iprop(owns (c : Thread nD τ) arg1 fullShare x ∗ owns (c : Thread nD τ) arg2 fullShare r
            ∗ owns (c : Thread nD τ) arg3 fullShare o ∗ owns (c : Thread nD τ) arg4 fullShare (accStep x r s)) -∗ K ⟨⟩))
      ⊢ wp frame (wpE (defs₀ (F := F)) Variants.none c none) E (cc2__kcl_kernel i arg1 harg1 arg2 harg2 arg3 harg3 arg4 harg4) K := by
  simp only [cc2__kcl_kernel_eq_skeleton]; unfold cc2__kcl_kernel_skel
  simp only [k2_part1_eq_skeleton]
  unfold owns
  iintro ⟨⟨%f1, %hf1, H1⟩, ⟨%f2, %hf2, H2⟩, ⟨%f3, %hf3, H3⟩, ⟨%f4, %hf4, H4⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  sl_unfold_words
  rw [read_store, load_x, load_r, load_s, hf1, hf2, hf4]
  rfl

set_option maxHeartbeats 1000000 in
theorem run_first (hc0 : condFirst i) (hc1 : ¬condLast i)
    (x : Vec F S4x800x128 .f32) (r : Vec F S5x800x128 .f32) (o : Vec F S1x1 .f32)
    (E : Set ℕ) (K : PUnit → sProp 𝕄) :
    iprop(owns (c : Thread nD τ) arg1 fullShare x ∗ owns (c : Thread nD τ) arg2 fullShare r
        ∗ owns (c : Thread nD τ) arg3 fullShare o ∗ (∃ d, owns (c : Thread nD τ) arg4 fullShare d)
        ∗ (iprop(owns (c : Thread nD τ) arg1 fullShare x ∗ owns (c : Thread nD τ) arg2 fullShare r
            ∗ owns (c : Thread nD τ) arg3 fullShare o ∗ owns (c : Thread nD τ) arg4 fullShare (accStep x r (k2_pay1 (F := F)))) -∗ K ⟨⟩))
      ⊢ wp frame (wpE (defs₀ (F := F)) Variants.none c none) E (cc2__kcl_kernel i arg1 harg1 arg2 harg2 arg3 harg3 arg4 harg4) K := by
  simp only [cc2__kcl_kernel_eq_skeleton]; unfold cc2__kcl_kernel_skel
  simp only [k2_part1_eq_skeleton]
  unfold owns
  iintro ⟨⟨%f1, %hf1, H1⟩, ⟨%f2, %hf2, H2⟩, ⟨%f3, %hf3, H3⟩, ⟨%d4, %f4, -, H4⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  sl_unfold_words
  rw [read_store, load_x, load_r, load_store, hf1, hf2]
  rfl

set_option maxHeartbeats 1000000 in
theorem run_last (hc0 : ¬condFirst i) (hc1 : condLast i)
    (x : Vec F S4x800x128 .f32) (r : Vec F S5x800x128 .f32) (s : Vec F S1x1 .f32)
    (E : Set ℕ) (K : PUnit → sProp 𝕄) :
    iprop(owns (c : Thread nD τ) arg1 fullShare x ∗ owns (c : Thread nD τ) arg2 fullShare r
        ∗ (∃ d, owns (c : Thread nD τ) arg3 fullShare d) ∗ owns (c : Thread nD τ) arg4 fullShare s
        ∗ (iprop(owns (c : Thread nD τ) arg1 fullShare x ∗ owns (c : Thread nD τ) arg2 fullShare r
            ∗ owns (c : Thread nD τ) arg3 fullShare (accStep x r s) ∗ owns (c : Thread nD τ) arg4 fullShare (accStep x r s)) -∗ K ⟨⟩))
      ⊢ wp frame (wpE (defs₀ (F := F)) Variants.none c none) E (cc2__kcl_kernel i arg1 harg1 arg2 harg2 arg3 harg3 arg4 harg4) K := by
  simp only [cc2__kcl_kernel_eq_skeleton]; unfold cc2__kcl_kernel_skel
  simp only [k2_part1_eq_skeleton]
  unfold owns
  iintro ⟨⟨%f1, %hf1, H1⟩, ⟨%f2, %hf2, H2⟩, ⟨%d3, %f3, -, H3⟩, ⟨%f4, %hf4, H4⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [read_store, load_store, load_x, load_r, load_s, hf1, hf2, hf4]
    rfl
  iexists _; isplitr
  swap; · iexact H4
  ipureintro
  sl_unfold_words
  rw [read_store, load_x, load_r, load_s, hf1, hf2, hf4]
  rfl

end Kernel

theorem accAt_first (c : Dev nD) (t : Fin cfg2.N) (hz : t.val = 0) :
    accAt V c t.val t.isLt = accStep (iblk V c 0 t) (iblk V c 1 t) (k2_pay1 (F := F)) := by
  obtain ⟨n, hn⟩ := t
  cases n with
  | zero => rfl
  | succ n => exact absurd hz (Nat.succ_ne_zero n)

theorem accAt_later (c : Dev nD) (t : Fin cfg2.N) (hz : t.val ≠ 0) :
    accAt V c t.val t.isLt
      = accStep (iblk V c 0 t) (iblk V c 1 t) (accAt V c (t.val - 1) (Nat.lt_of_le_of_lt (Nat.sub_le _ _) t.isLt)) := by
  obtain ⟨n, hn⟩ := t
  cases n with
  | zero => exact absurd rfl hz
  | succ n => rfl

theorem blockOf_0 (c : Dev nD) (t : Fin cfg2.N) : (dat V c).blockOf 0 t = iblk V c 0 t := by
  unfold Dat.blockOf iblk; rw [A_eq]
theorem blockOf_1 (c : Dev nD) (t : Fin cfg2.N) : (dat V c).blockOf 1 t = iblk V c 1 t := by
  unfold Dat.blockOf iblk; rw [A_eq]

theorem before_0 (c : Dev nD) (t : Fin cfg2.N) (d) : (dat V c).before 0 t d = iblk V c 0 t := by
  rw [(dat V c).before_in_eq_fetched 0 rfl (fun _ => rfl) (fun _ _ _ => rfl)
    (fun t => by rw [after_0, blockOf_0]) t d]
  unfold Dat.fetched; rw [blockOf_0]; rfl
theorem before_1 (c : Dev nD) (t : Fin cfg2.N) (d) : (dat V c).before 1 t d = iblk V c 1 t := by
  rw [(dat V c).before_in_eq_fetched 1 rfl (fun _ => rfl) (fun _ _ _ => rfl)
    (fun t => by rw [after_1, blockOf_1]) t d]
  unfold Dat.fetched; rw [blockOf_1]; rfl

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t)

theorem leaves_0 (c : Dev nD) (t : Fin cfg2.N) :
    (dat V c).leavesExact 0 t = owns (c : Thread nD τ) (st2_0 t) fullShare (iblk V c 0 t) := by
  unfold Dat.leavesExact; rw [live0 t, after_0]
theorem leaves_1 (c : Dev nD) (t : Fin cfg2.N) :
    (dat V c).leavesExact 1 t = owns (c : Thread nD τ) (st2_1 t) fullShare (iblk V c 1 t) := by
  unfold Dat.leavesExact; rw [live1 t, after_1]
theorem leaves_2_last (c : Dev nD) (t : Fin cfg2.N) (h : condLast (grid2.coords t)) :
    (dat V c).leavesExact 2 t = owns (c : Thread nD τ) (st2_2 t) fullShare (accAt V c t.val t.isLt) := by
  unfold Dat.leavesExact; rw [live2_of t h, after_2]

set_option maxHeartbeats 2000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ, Phi_castSucc]
  rw [leaves_0, leaves_1]
  have hN : t.val < 10 := lt_of_lt_of_eq t.isLt (show cfg2.N = 10 from N_2)
  by_cases hz : t.val = 0
  ·
    have hc0 : condFirst (grid2.coords t) := (hcondFirst t).mpr hz
    have hc1 : ¬condLast (grid2.coords t) := fun h => by have := (hcondLast t).mp h; omega
    rw [Dat.leavesExact_idle (dat V c) 2 t (idle2_of t hc1) (noFlush2_of t hc1)]
    rw [PhiS_zero V c _ _ hz, accAt_first V c t hz]
    iintro ⟨HΦ, Ho, ⟨%d0, H0⟩, ⟨%d1, H1⟩, ⟨%d2, H2⟩⟩
    ihave Hsp := PhiA_split c $$ HΦ
    icases Hsp with ⟨HS, Hrest, Hg⟩
    iapply (run_first c (grid2.coords t) _ _ _ _ _ _ _ _ hc0 hc1 (iblk V c 0 t) (iblk V c 1 t) ((dat V c).before 2 t d2) Set.univ _)
    iframe H0 H1 H2 HS
    iintro ⟨H0, H1, H2, HS⟩
    iframe HS Hrest Hg Ho H0 H1
    iexists _; iexact H2
  · rw [PhiS_pos V c _ _ hz, accAt_later V c t hz]
    have hc0 : ¬condFirst (grid2.coords t) := fun h => hz ((hcondFirst t).mp h)
    by_cases h9 : t.val = 9
    ·
      have hc1 : condLast (grid2.coords t) := (hcondLast t).mpr h9
      rw [leaves_2_last V c t hc1, accAt_later V c t hz]
      iintro ⟨⟨HS, Hrest, Hg⟩, Ho, ⟨%d0, H0⟩, ⟨%d1, H1⟩, ⟨%d2, H2⟩⟩
      iapply (run_last c (grid2.coords t) _ _ _ _ _ _ _ _ hc0 hc1 (iblk V c 0 t) (iblk V c 1 t) (accAt V c (t.val - 1) (Nat.lt_of_le_of_lt (Nat.sub_le _ _) t.isLt)) Set.univ _)
      iframe H0 H1 HS
      isplitl [H2]; · iexists _; iexact H2
      iintro ⟨H0, H1, H2, HS⟩
      iframe
    ·
      have hc1 : ¬condLast (grid2.coords t) := fun h => h9 ((hcondLast t).mp h)
      rw [Dat.leavesExact_idle (dat V c) 2 t (idle2_of t hc1) (noFlush2_of t hc1)]
      iintro ⟨⟨HS, Hrest, Hg⟩, Ho, ⟨%d0, H0⟩, ⟨%d1, H1⟩, ⟨%d2, H2⟩⟩
      iapply (run_mid c (grid2.coords t) _ _ _ _ _ _ _ _ hc0 hc1 (iblk V c 0 t) (iblk V c 1 t) ((dat V c).before 2 t d2) (accAt V c (t.val - 1) (Nat.lt_of_le_of_lt (Nat.sub_le _ _) t.isLt)) Set.univ _)
      iframe H0 H1 H2 HS
      iintro ⟨H0, H1, H2, HS⟩
      iframe HS Hrest Hg Ho H0 H1
      iexists _; iexact H2

theorem body_obligation (c : Dev nD) : BodyObligation (dat (F := F) V c) (defs₀ (F := F)) Variants.none () Set.univ := fun t => by
  rw [bigSep_W2, bigSep_W2]
  exact sound_body V c t

theorem hin (c : Dev nD) : (Pipeline.ΦA spec2 c : sProp 𝕄) ⊢ (dat V c).Φ 0 := by
  rw [show (dat V c).Φ 0 = PhiS V c 0 (Nat.zero_le _) from rfl, PhiS_zero V c 0 _ rfl]

theorem hout (c : Dev nD) : (dat V c).Φ (Fin.last _) ⊢ (Pipeline.ΦA spec2 c : sProp 𝕄) := by
  have hne : (Fin.last cfg2.N).val ≠ 0 := by
    rw [Fin.val_last]; have : cfg2.N = 10 := N_2; omega
  rw [show (dat V c).Φ (Fin.last cfg2.N) = PhiS V c (Fin.last cfg2.N).val (Nat.le_of_lt_succ (Fin.last cfg2.N).isLt) from rfl,
    PhiS_pos V c _ _ hne]
  iintro ⟨HS, Hrest, Hg⟩
  iapply (PhiA_join c)
  iframe Hrest Hg
  iexists _; iexact HS

end Cert.Kernel.Balance

end
-- ==== Proof.RunBits.lean ====
import proofs.«431324_j10900626998069_3_alg».proof.Proof.FoldBits
import proofs.«431324_j10900626998069_3_alg».proof.Proof.NodeBodyBits
import proofs.«431324_j10900626998069_3_alg».proof.Proof.EdgeBodyBits
import proofs.«431324_j10900626998069_3_alg».proof.Proof.BalanceBodyBits
import proofs.«431324_j10900626998069_3_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Fold

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hF0 (c : Dev nD) (w : Fin cfg0.W) : (Node.dat (Fold.V1 m) c).arrAt w cfg0.N = Fold.V2 m c (Pipeline.arrRef spec0 w) :=
  (W2_arr m c w).symm
theorem hrest0 (c : Dev nD) : ∀ b, b ∉ Finset.univ.image (Pipeline.arrRef spec0) → Fold.V2 m c b = Fold.V1 m c b :=
  fun b hb => W2_of_ne m c b fun w e => hb (Finset.mem_image.mpr ⟨w, Finset.mem_univ _, e⟩)
theorem hF1 (c : Dev nD) (w : Fin cfg1.W) : (Edge.dat (Fold.V6 m) c).arrAt w cfg1.N = Fold.V7 m c (Pipeline.arrRef spec1 w) :=
  (W7_arr m c w).symm
theorem hrest1 (c : Dev nD) : ∀ b, b ∉ Finset.univ.image (Pipeline.arrRef spec1) → Fold.V7 m c b = Fold.V6 m c b :=
  fun b hb => W7_of_ne m c b fun w e => hb (Finset.mem_image.mpr ⟨w, Finset.mem_univ _, e⟩)
theorem hF2 (c : Dev nD) (w : Fin cfg2.W) : (Balance.dat (Fold.V8 m) c).arrAt w cfg2.N = Fold.V9 m c (Pipeline.arrRef spec2 w) :=
  (W9_arr m c w).symm
theorem hrest2 (c : Dev nD) : ∀ b, b ∉ Finset.univ.image (Pipeline.arrRef spec2) → Fold.V9 m c b = Fold.V8 m c b :=
  fun b hb => W9_of_ne m c b fun w e => hb (Finset.mem_image.mpr ⟨w, Finset.mem_univ _, e⟩)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => Node.dat (Fold.V1 m) c
  | ⟨1, _⟩ => fun c => Edge.dat (Fold.V6 m) c
  | ⟨2, _⟩ => fun c => Balance.dat (Fold.V8 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

section Stages

set_option backward.isDefEq.respectTransparency.types false in
/-- The node stage takes the buffer contents `W1` to `W2`. -/
def reg0 :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Node.body_obligation (Fold.V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Fold.V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Fold.V1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    have h := Node.hin (Fold.V1 m) c
    unfold Pipeline.ΦA at h
    rw [show (pdats m 0 c).Φ 0 = (Node.dat (Fold.V1 m) c).Φ 0 from rfl]
    refine BIClass.entails_trans ?_ h
    iintro ⟨Hp, -, Hr⟩
    iframe
  hout c := by
    rw [Pipeline.ownSems0_none]
    have h := Node.hout (Fold.V1 m) c
    unfold Pipeline.ΦA at h
    rw [show (pdats m 0 c).Φ (Fin.last _) = (Node.dat (Fold.V1 m) c).Φ (Fin.last _) from rfl]
    refine BIClass.entails_trans h ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Fold.V1 m c) (Fold.V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge stage takes `W6` to `W7`. -/
def reg1 :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Edge.body_obligation (Fold.V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Fold.V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Fold.V6 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 1 c).Φ 0 = Pipeline.ΦA spec1 c from rfl]
    unfold Pipeline.ΦA
    iintro ⟨Hp, -, Hr⟩
    iframe
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Fold.V6 m c) (Fold.V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The balance stage takes `W8` to `W9`. -/
def reg2 :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Balance.body_obligation (Fold.V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (Fold.V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Fold.V8 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    have h := Balance.hin (Fold.V8 m) c
    unfold Pipeline.ΦA at h
    rw [show (pdats m 2 c).Φ 0 = (Balance.dat (Fold.V8 m) c).Φ 0 from rfl]
    refine BIClass.entails_trans ?_ h
    iintro ⟨Hp, -, Hr⟩
    iframe
  hout c := by
    rw [Pipeline.ownSems0_none]
    have h := Balance.hout (Fold.V8 m) c
    unfold Pipeline.ΦA at h
    rw [show (pdats m 2 c).Φ (Fin.last _) = (Balance.dat (Fold.V8 m) c).Φ (Fin.last _) from rfl]
    refine BIClass.entails_trans h ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Fold.V8 m c) (Fold.V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs :
    List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)),
    .region (reg2 m),
    .host (hseg hostOps3 hostOps3_sub hostOps3_fresh (W9 m)) ]

theorem main_run (c : Dev nD) : main (F := F) c = Pipeline.Seg.run (segs m) :=
  (main_chain c).trans (by chain_rfl)

set_option backward.isDefEq.respectTransparency.types false in
/-- Every weakly fair execution of @main ends, faulting nowhere, with each buffer that outlives the stages at the fold's last contents. -/
theorem run :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main
    (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Stages

end Cert.Kernel.Run

end
-- ==== Proof.KeptBits.lean ====
import proofs.«431324_j10900626998069_3_alg».proof.Proof.FoldBits
import proofs.«431324_j10900626998069_3_alg».proof.Proof.Gen.Kernel.Regions

set_option maxRecDepth 16384

noncomputable section

namespace Cert.Kernel.Fold

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- `b` outlives the stages, no host operation writes it, and no stage has it among its arrays. -/
abbrev Kept (b : Ref sig .tc) : Prop :=
  ¬ (Proc.devRef .tc b : DevRef τ sig).isScoped ∧ b ∉ hostOps3_W ∧ (∀ w, Pipeline.arrRef spec2 w ≠ b) ∧ b ∉ hostOps2_W ∧ (∀ w, Pipeline.arrRef spec1 w ≠ b)
    ∧ b ∉ hostOps1_3_W ∧ b ∉ hostOps1_2_W ∧ b ∉ hostOps1_1_W ∧ b ∉ hostOps1_W
    ∧ (∀ w, Pipeline.arrRef spec0 w ≠ b) ∧ b ∉ hostOps0_W

/-- Such a buffer reaches the end of @main as launched: each item of the fold leaves it alone. -/
theorem W10_kept (c : Dev nD) (b : Ref sig .tc) (h : Kept b) : W10 m c (Proc.devRef .tc b) = m ((c : Thread nD τ).loc b) := by
  obtain ⟨-, h3, a2, h2, a1, h13, h12, h11, h1, a0, h0⟩ := h
  exact (StableHlo.after_of_writes_sub hostOps3 _ hostOps3_writes h3).trans <|
    (W9_of_ne m c b a2).trans <| (StableHlo.after_of_writes_sub hostOps2 _ hostOps2_writes h2).trans <|
    (W7_of_ne m c b a1).trans <| (StableHlo.after_of_writes_sub hostOps1_3 _ hostOps1_3_writes h13).trans <|
    (StableHlo.after_of_writes_sub hostOps1_2 _ hostOps1_2_writes h12).trans <|
    (StableHlo.after_of_writes_sub hostOps1_1 _ hostOps1_1_writes h11).trans <|
    (StableHlo.after_of_writes_sub hostOps1 _ hostOps1_writes h1).trans <|
    (W2_of_ne m c b a0).trans <| (StableHlo.after_of_writes_sub hostOps0 _ hostOps0_writes h0).trans rfl

/-- What holds of every such buffer holds of the thirteen arguments. -/
theorem of_kept {P : Ref sig .tc → Prop} (k : ∀ b, Kept b → P b) :
    P main_arg0 ∧ P main_arg1 ∧ P main_arg2 ∧ P main_arg3 ∧ P main_arg4 ∧ P main_arg5 ∧ P main_arg6 ∧ P main_arg7
      ∧ P main_arg8 ∧ P main_arg9 ∧ P main_arg10 ∧ P main_arg11 ∧ P main_arg12 :=
  ⟨k _ (by decide), k _ (by decide), k _ (by decide), k _ (by decide), k _ (by decide), k _ (by decide), k _ (by decide),
    k _ (by decide), k _ (by decide), k _ (by decide), k _ (by decide), k _ (by decide), k _ (by decide)⟩

end Cert.Kernel.Fold

end
-- ==== Proof.FramesBits.lean ====
import proofs.«431324_j10900626998069_3_alg».proof.Proof.RunBits
import proofs.«431324_j10900626998069_3_alg».proof.Proof.KeptBits

set_option maxRecDepth 16384

noncomputable section

namespace Cert.Kernel.Frames

open Idealize.ShloMosaic Idealize.ShloMosaic.TcCoe
open Idealize.SL Idealize.SL.Sem
open Cert.Kernel Cert.Kernel.Gen Cert.Kernel.Fold

variable {F : FTy → Type} [FloatOps F]

variable (m : (ℓ : Loc nD τ sig) → Buf (Elt F) ℓ) (ρ : Dev nD → PrngReg)

/-- At the end of @main the scalar result buffer holds the fold's last contents and every buffer no item touches is as launched. -/
theorem frame : θ_run defs (onTc (τ := τ) (main (F := F))) ⟨m, fun _ => 0, ρ⟩ (fun r => ∀ c : Dev nD,
      r.2.mem ((c.tc : Thread nD τ).loc main_v87) = W10 m c (Proc.devRef .tc main_v87)
      ∧ ∀ b : Ref sig .tc, Kept b → r.2.mem ((c.tc : Thread nD τ).loc b) = m ((c.tc : Thread nD τ).loc b)) :=
  (θ_run defs _ _).mono (fun r h c =>
    ⟨h c _ (Run.mem_uc main_v87 (by decide)), fun b hk => (h c _ (Run.mem_uc b hk.1)).trans (W10_kept m c b hk)⟩)
    (Run.run m ρ)

end Cert.Kernel.Frames

end
-- ==== Proof.Spec.lean ====
import Idealize.ShloMosaic.PureOps.Ideal
import Idealize.ShloMosaic.Lib.ValueIdx

noncomputable section

namespace Cert.Spec

open Idealize.ShloMosaic Idealize.ShloMosaic.ValueIdx

structure Args where
  yPred : (⟨2, ![512, 4000]⟩ : Shape).Idx → EReal
  yTrue : (⟨2, ![512, 4000]⟩ : Shape).Idx → EReal
  xIn : (⟨2, ![1024000, 7]⟩ : Shape).Idx → EReal
  eIdx : IVec ⟨2, ![2, 3072000]⟩ 32
  eAttr : (⟨2, ![3072000, 4]⟩ : Shape).Idx → EReal
  xMean : (⟨2, ![2000, 7]⟩ : Shape).Idx → EReal
  xStd : (⟨2, ![2000, 7]⟩ : Shape).Idx → EReal
  yMean : (⟨2, ![2000, 2]⟩ : Shape).Idx → EReal
  yStd : (⟨2, ![2000, 2]⟩ : Shape).Idx → EReal
  eMean : (⟨1, ![4]⟩ : Shape).Idx → EReal
  eStd : (⟨1, ![4]⟩ : Shape).Idx → EReal
  mask : IVec ⟨1, ![2000]⟩ 1
  shunt : (⟨2, ![2000, 2]⟩ : Shape).Idx → EReal

abbrev ScatterFn : Type :=
  ((⟨2, ![1024000, 2]⟩ : Shape).Idx → EReal) → IVec ⟨2, ![3072000, 1]⟩ 32 → ((⟨2, ![3072000, 2]⟩ : Shape).Idx → EReal)
    → ((⟨2, ![1024000, 2]⟩ : Shape).Idx → EReal)

variable (A : Args) (sc : ScatterFn)

def bat (n : Fin 1024000) : Fin 512 := ⟨n.val / 2000, by have := n.isLt; omega⟩
def bus (n : Fin 1024000) : Fin 2000 := ⟨n.val % 2000, Nat.mod_lt _ (by norm_num)⟩

def ycol (n : Fin 1024000) (f : Fin 2) : Fin 4000 := ⟨2 * (bus n).val + f.val, by have := (bus n).isLt; have := f.isLt; omega⟩

def f7 (f : Fin 2) : Fin 7 := ⟨f.val, by have := f.isLt; omega⟩

def degRad : EReal := Ideal.ofBits .f32 0x3C8EFA35#32
def cMse : EReal := Ideal.ofBits .f32 0x3F666666#32
def cPhys : EReal := Ideal.ofBits .f32 0x3B03126F#32
def cCount : EReal := Ideal.ofBits .f32 0x49FA0000#32

def yp (n : Fin 1024000) (f : Fin 2) : EReal :=
  A.yPred (ix2 (bat n) (ycol n f)) * A.yStd (ix2 (bus n) f) + A.yMean (ix2 (bus n) f)
def yt (n : Fin 1024000) (f : Fin 2) : EReal :=
  A.yTrue (ix2 (bat n) (ycol n f)) * A.yStd (ix2 (bus n) f) + A.yMean (ix2 (bus n) f)

def sqErr : EReal := ∑ n : Fin 1024000, ∑ f : Fin 2, (yp A n f - yt A n f) * (yp A n f - yt A n f)

def pq (n : Fin 1024000) (f : Fin 2) : EReal :=
  (A.xIn (ix2 n (f7 f)) * A.xStd (ix2 (bus n) (f7 f)) + A.xMean (ix2 (bus n) (f7 f))) * ((1 / 100 : ℝ) : EReal)

def eN (n : Fin 1024000) : EReal := yp A n 0 * Ideal.cos (yp A n 1 * degRad)
def fN (n : Fin 1024000) : EReal := yp A n 0 * Ideal.sin (yp A n 1 * degRad)

def epu (e : Fin 3072000) (k : Fin 4) : EReal := A.eAttr (ix2 e k) * A.eStd (ix1 k) + A.eMean (ix1 k)

def wrap (w : BitVec 32) : BitVec 32 := Scalar.select (IntOp.cmpi .slt w 0#32) (IntOp.addi w 1024000#32) w
def nodeOf (w : BitVec 32) : Fin 1024000 := ⟨min (wrap w).toInt.toNat 1023999, by omega⟩

def srcW (e : Fin 3072000) : BitVec 32 := A.eIdx (ix2 0 e)
def dstW (e : Fin 3072000) : BitVec 32 := A.eIdx (ix2 1 e)
def srcN (e : Fin 3072000) : Fin 1024000 := nodeOf (srcW A e)
def dstN (e : Fin 3072000) : Fin 1024000 := nodeOf (dstW A e)

def iRe (e : Fin 3072000) : EReal :=
  epu A e 0 * eN A (srcN A e) - epu A e 1 * fN A (srcN A e) + epu A e 2 * eN A (dstN A e) - epu A e 3 * fN A (dstN A e)
def iIm (e : Fin 3072000) : EReal :=
  epu A e 0 * fN A (srcN A e) + epu A e 1 * eN A (srcN A e) + epu A e 2 * fN A (dstN A e) + epu A e 3 * eN A (dstN A e)
def msgP (e : Fin 3072000) : EReal := -(eN A (srcN A e) * iRe A e + fN A (srcN A e) * iIm A e)
def msgQ (e : Fin 3072000) : EReal := -(fN A (srcN A e) * iRe A e - eN A (srcN A e) * iIm A e)

def zeros : (⟨2, ![1024000, 2]⟩ : Shape).Idx → EReal := fun _ => Ideal.ofBits .f32 0x00000000#32
def srcCol : IVec ⟨2, ![3072000, 1]⟩ 32 := fun j => srcW A (j 0)
def msgArr : (⟨2, ![3072000, 2]⟩ : Shape).Idx → EReal := fun j => if (j 1).val = 0 then msgP A (j 0) else msgQ A (j 0)

def agg : (⟨2, ![1024000, 2]⟩ : Shape).Idx → EReal := sc zeros (srcCol A) (msgArr A)

def dP (n : Fin 1024000) : EReal := -(agg A sc (ix2 n 0)) + pq A n 0 + yp A n 0 * yp A n 0 * A.shunt (ix2 (bus n) 0)
def dQ (n : Fin 1024000) : EReal := -(agg A sc (ix2 n 1)) + pq A n 1 - yp A n 0 * yp A n 0 * A.shunt (ix2 (bus n) 1)
def wN (n : Fin 1024000) : EReal := (((A.mask (ix1 (bus n))).toNat : ℝ) : EReal)
def sqN (n : Fin 1024000) : EReal := dP A sc n * dP A sc n + dQ A sc n * dQ A sc n

def physNum : EReal := ∑ n : Fin 1024000, sqN A sc n * wN A n
def sumW : EReal := ∑ n : Fin 1024000, wN A n

/-- The loss as one function of the argument arrays: the weighted mean squared voltage error plus the weighted masked mean of the squared power-balance residuals. -/
def loss : EReal := cMse * Ideal.div (sqErr A) cCount + cPhys * Ideal.div (physNum A sc) (sumW A)

end Cert.Spec

end
-- ==== Proof.ValArgs.lean ====
import proofs.«431324_j10900626998069_3_alg».proof.Proof.Gen.KernelIdeal
import proofs.«431324_j10900626998069_3_alg».proof.Proof.Spec

noncomputable section

namespace Cert.KernelIdeal.Val

open Idealize.ShloMosaic Idealize.ShloMosaic.TcCoe Idealize.ShloMosaic.ValueIdx
open Idealize.SL Idealize.SL.Sem
open Cert.KernelIdeal Cert.KernelIdeal.Gen

noncomputable def argsOf (m : (ℓ : Loc nD τ sig) → Buf (Elt Ideal) ℓ) (c : Dev nD) : Cert.Spec.Args where
  yPred := m ((c.tc : Thread nD τ).loc main_arg0)
  yTrue := m ((c.tc : Thread nD τ).loc main_arg1)
  xIn := m ((c.tc : Thread nD τ).loc main_arg2)
  eIdx := m ((c.tc : Thread nD τ).loc main_arg3)
  eAttr := m ((c.tc : Thread nD τ).loc main_arg4)
  xMean := m ((c.tc : Thread nD τ).loc main_arg5)
  xStd := m ((c.tc : Thread nD τ).loc main_arg6)
  yMean := m ((c.tc : Thread nD τ).loc main_arg7)
  yStd := m ((c.tc : Thread nD τ).loc main_arg8)
  eMean := m ((c.tc : Thread nD τ).loc main_arg9)
  eStd := m ((c.tc : Thread nD τ).loc main_arg10)
  mask := m ((c.tc : Thread nD τ).loc main_arg11)
  shunt := m ((c.tc : Thread nD τ).loc main_arg12)

def nodeRL (R : Fin 8000) (l : Fin 128) : Fin 1024000 := ⟨128 * R.val + l.val, by have := R.isLt; have := l.isLt; omega⟩
def edgeRL (R : Fin 24000) (l : Fin 128) : Fin 3072000 := ⟨128 * R.val + l.val, by have := R.isLt; have := l.isLt; omega⟩

noncomputable def scK : Cert.Spec.ScatterFn :=
  fun x i u => Host.scatterAdd (F := Ideal) (φ := .f32) scatter_S1024000x2_S3072000x1_S3072000x2_1_0_0_1 x i u

def InRange (A : Cert.Spec.Args) : Prop := ∀ (r : Fin 2) (e : Fin 3072000), (A.eIdx (ix2 r e)).toNat < 1024000

def lo2 {k : ℕ} (j : Fin k) : Fin 2 := ⟨j.val % 2, Nat.mod_lt _ (by norm_num)⟩

open Cert.Spec in
def ainSpec (A : Cert.Spec.Args) (j : Fin 8) (n : Fin 1024000) : EReal :=
  if j.val < 2 then A.yPred (ix2 (bat n) (ycol n (lo2 j)))
  else if j.val < 4 then A.yTrue (ix2 (bat n) (ycol n (lo2 j)))
  else if j.val < 6 then A.yStd (ix2 (bus n) (lo2 j))
  else A.yMean (ix2 (bus n) (lo2 j))

open Cert.Spec in
def pinSpec (A : Cert.Spec.Args) (j : Fin 6) (n : Fin 1024000) : EReal :=
  if j.val < 2 then A.xIn (ix2 n (f7 (lo2 j)))
  else if j.val < 4 then A.xStd (ix2 (bus n) (f7 (lo2 j)))
  else A.xMean (ix2 (bus n) (f7 (lo2 j)))

open Cert.Spec in
def physSpec (A : Cert.Spec.Args) (j : Fin 4) (n : Fin 1024000) : EReal :=
  if j.val < 2 then yp A n (lo2 j) else pq A n (lo2 j)

open Cert.Spec in
def efSpec (A : Cert.Spec.Args) (j : Fin 2) (n : Fin 1024000) : EReal :=
  if j.val = 0 then eN A n else fN A n

open Cert.Spec in
def xySpec (A : Cert.Spec.Args) (j : Fin 4) (e : Fin 3072000) : EReal :=
  if j.val = 0 then eN A (srcN A e) else if j.val = 1 then fN A (srcN A e)
  else if j.val = 2 then eN A (dstN A e) else fN A (dstN A e)

open Cert.Spec in
def msgSpec (A : Cert.Spec.Args) (j : Fin 2) (e : Fin 3072000) : EReal :=
  if j.val = 0 then msgP A e else msgQ A e

open Cert.Spec in
def cinSpec (A : Cert.Spec.Args) (sc : Cert.Spec.ScatterFn) (j : Fin 5) (n : Fin 1024000) : EReal :=
  if j.val = 0 then agg A sc (ix2 n 0) else if j.val = 1 then agg A sc (ix2 n 1)
  else if j.val = 2 then A.shunt (ix2 (bus n) 0) else if j.val = 3 then A.shunt (ix2 (bus n) 1)
  else wN A n

end Cert.KernelIdeal.Val

end
-- ==== Proof.PreRange.lean ====
import proofs.«431324_j10900626998069_3_alg».proof.Defs
import proofs.«431324_j10900626998069_3_alg».proof.Proof.Gen.Pre_finite_inputs
import proofs.«431324_j10900626998069_3_alg».proof.Proof.Gen.KernelIdeal
import proofs.«431324_j10900626998069_3_alg».proof.Proof.ValArgs
import Idealize.ShloMosaic.Lib.ReduceAll
import Idealize.ShloMosaic.Lib.StableHlo.Predicate

noncomputable section

namespace Cert.KernelIdeal.Val

open Idealize.ShloMosaic Idealize.ShloMosaic.TcCoe Idealize.ShloMosaic.ValueIdx
open Idealize.SL Idealize.SL.Sem
open Cert.KernelIdeal Cert.KernelIdeal.Gen

theorem andi_at {s : Shape} (x y : IVec s 1) (i : s.Idx) (h : andi x y i = 1#1) : x i = 1#1 ∧ y i = 1#1 :=
  IntOp.andi_eq_one.1 h

instance subsingleton_scalar_idx : Subsingleton Cert.Pre_finite_inputs.S_.Idx :=
  ⟨fun a b => funext fun d => d.elim0⟩

theorem toNat_lt_of_signed_range (w : BitVec 32) (n : ℕ) (hn : n < 2 ^ 31)
    (h0 : IntOp.cmpi .sge w (0#32) = 1#1) (h1 : IntOp.cmpi .slt w (BitVec.ofNat 32 n) = 1#1) : w.toNat < n := by
  rw [IntOp.cmpi_sge] at h0
  rw [IntOp.cmpi_slt, StableHlo.Predicate.toInt_ofNat_small n hn] at h1
  have z : (0#32).toInt = 0 := by decide
  rw [z] at h0
  have hw := w.isLt
  rw [BitVec.toInt_eq_toNat_cond] at h0 h1
  split at h0 <;> omega

theorem range_of_pre (m : (ℓ : Loc nD τ sig) → Buf (Elt Ideal) ℓ) (h : Cert.Pre_KernelIdeal m) (c : Dev nD) :
    InRange (argsOf m c) := by
  intro r e
  have e0 := congrFun (h c) ix0
  dsimp only [Cert.Pre_finite_inputs.fn, Cert.Pre_finite_inputs.fn_part1, Cert.Pre_finite_inputs.fn_part2,
    Cert.Pre_finite_inputs.fn_part3] at e0

  have e1 := (andi_at _ _ _ e0).2

  have e2 := Host.reduce_andi_all _ _ _ _ _ e1 (ix2 r e)
  obtain ⟨hge, hlt⟩ := andi_at _ _ _ e2

  exact toNat_lt_of_signed_range _ 1024000 (by norm_num) hge hlt

end Cert.KernelIdeal.Val

end
-- ==== Proof.ValHostIn.lean ====
import proofs.«431324_j10900626998069_3_alg».proof.Proof.Fold
import proofs.«431324_j10900626998069_3_alg».proof.Proof.ValArgs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fold Cert.Spec

variable (m : (ℓ : Loc nD τ sig) → Buf (Elt Ideal) ℓ) (c : Dev nD)

-- A [K, N] array with N = 8000·128 cut into rows of 128 lanes: row R, lane l of row j is node 128·R + l.
theorem cast3_apply {K : ℕ} (y : (⟨2, ![K, 1024000]⟩ : Shape).Idx → EReal)
    (h : (⟨2, ![K, 1024000]⟩ : Shape).ShapeCasts ⟨3, ![K, 8000, 128]⟩) (j : Fin K) (R : Fin 8000) (l : Fin 128) :
    shapeCast ⟨3, ![K, 8000, 128]⟩ y h (ix3 j R l) = y (ix2 j (nodeRL R l)) := by
  refine shapeCast_apply _ _ _ _ ?_
  rw [Shape.rowMajor_val_two, Shape.rowMajor_val_three]
  show j.val * 1024000 + (128 * R.val + l.val) = (j.val * 8000 + R.val) * 128 + l.val
  omega

-- [512, 2000, 2], feature axis to the front, batch and bus merged: feature f of node n = 2000·b + k is the entry (b, k, f).
theorem front_apply (x : S512x2000x2.Idx → EReal) (h2 : S512x2000x2.Transposes [2, 0, 1] S2x512x2000)
    (h3 : S2x512x2000.ShapeCasts S2x1024000) (f : Fin 2) (n : Fin 1024000) :
    shapeCast S2x1024000 (transpose S2x512x2000 [2, 0, 1] x h2) h3 (ix2 f n) = x (ix3 (bat n) (bus n) f) := by
  refine (shapeCast_apply _ _ (ix2 f n) (ix3 f (bat n) (bus n)) ?_).trans
    (transpose_apply _ _ _ (ix3 f (bat n) (bus n)) (ix3 (bat n) (bus n) f) fun b => by
      match b with
      | ⟨0, _⟩ => rfl
      | ⟨1, _⟩ => rfl
      | ⟨2, _⟩ => rfl)
  rw [Shape.rowMajor_val_three, Shape.rowMajor_val_two]
  show (f.val * 512 + n.val / 2000) * 2000 + n.val % 2000 = f.val * 1024000 + n.val
  omega

-- [512, 4000] read as [512, 2000, 2] first: the entry at row b, column 2k + f.
theorem featRow_apply (x : S512x4000.Idx → EReal) (h1 : S512x4000.ShapeCasts S512x2000x2)
    (h2 : S512x2000x2.Transposes [2, 0, 1] S2x512x2000) (h3 : S2x512x2000.ShapeCasts S2x1024000)
    (f : Fin 2) (n : Fin 1024000) :
    shapeCast S2x1024000 (transpose S2x512x2000 [2, 0, 1] (shapeCast S512x2000x2 x h1) h2) h3 (ix2 f n)
      = x (ix2 (bat n) (ycol n f)) := by
  refine (front_apply _ h2 h3 f n).trans (shapeCast_apply _ _ _ _ ?_)
  rw [Shape.rowMajor_val_two, Shape.rowMajor_val_three]
  show (n.val / 2000) * 4000 + (2 * (n.val % 2000) + f.val) = ((n.val / 2000) * 2000 + n.val % 2000) * 2 + f.val
  omega

-- [N, 7] read as [512, 2000, 7] with its first two features kept: the entry at row n, column f.
theorem demRow_apply (x : S1024000x7.Idx → EReal) (h0 : S1024000x7.ShapeCasts S512x2000x7)
    (hs : S512x2000x7.Slices ![0, 0, 0] S512x2000x2) (h2 : S512x2000x2.Transposes [2, 0, 1] S2x512x2000)
    (h3 : S2x512x2000.ShapeCasts S2x1024000) (f : Fin 2) (n : Fin 1024000) :
    shapeCast S2x1024000 (transpose S2x512x2000 [2, 0, 1]
        (extractStridedSlice S512x2000x2 ![0, 0, 0] (shapeCast S512x2000x7 x h0) hs) h2) h3 (ix2 f n)
      = x (ix2 n (f7 f)) := by
  refine (front_apply _ h2 h3 f n).trans ((extractStridedSlice_apply _ _ _ _ (ix3 (bat n) (bus n) (f7 f)) fun a => by
    match a with
    | ⟨0, _⟩ => exact (Nat.zero_add _).symm
    | ⟨1, _⟩ => exact (Nat.zero_add _).symm
    | ⟨2, _⟩ => exact (Nat.zero_add _).symm).trans (shapeCast_apply _ _ _ _ ?_))
  rw [Shape.rowMajor_val_two, Shape.rowMajor_val_three]
  show n.val * 7 + f.val = ((n.val / 2000) * 2000 + n.val % 2000) * 7 + f.val
  omega

-- A per-bus [2000, 2] table transposed, repeated over the 512 batches and flattened: the table's entry at the node's bus.
theorem busRow_apply (x : S2000x2.Idx → EReal) (h1 : S2000x2.Transposes [1, 0] S2x2000)
    (h2 : S2x2000.ShapeCasts S1x2x1x2000) (h3 : S1x2x1x2000.BroadcastsInDim S1x2x512x2000 ![0, 1, 2, 3])
    (h4 : S1x2x512x2000.ShapeCasts S2x1024000) (f : Fin 2) (n : Fin 1024000) :
    shapeCast S2x1024000 (broadcastInDim S1x2x512x2000 ![0, 1, 2, 3] h3 (shapeCast S1x2x1x2000 (transpose S2x2000 [1, 0] x h1) h2)) h4
        (ix2 f n)
      = x (ix2 (bus n) f) := by
  refine (shapeCast_apply _ _ (ix2 f n) (ix4 (0 : Fin 1) f (bat n) (bus n)) ?_).trans
    ((broadcastInDim_apply _ _ _ _ (ix4 (0 : Fin 1) f (0 : Fin 1) (bus n)) fun a => by
      match a with
      | ⟨0, _⟩ => rfl
      | ⟨1, _⟩ => rfl
      | ⟨2, _⟩ => rfl
      | ⟨3, _⟩ => rfl).trans
    ((shapeCast_apply _ _ _ (ix2 f (bus n)) ?_).trans (transpose_ix2_apply x h1 f (bus n))))
  · rw [Shape.rowMajor_val_four, Shape.rowMajor_val_two]
    show ((0 * 2 + f.val) * 512 + n.val / 2000) * 2000 + n.val % 2000 = f.val * 1024000 + n.val
    omega
  · rw [Shape.rowMajor_val_four, Shape.rowMajor_val_two]
    show f.val * 2000 + n.val % 2000 = ((0 * 2 + f.val) * 1 + 0) * 2000 + n.val % 2000
    omega

-- Pieces of two rows each stacked along the rows: row j is row j % 2 of piece j / 2.
theorem concat_row {K : ℕ} (xs : List ((s : Shape) × (s.Idx → EReal)))
    (h : Shape.Concatenates (xs.map (·.1)) (⟨2, ![K, 1024000]⟩ : Shape) (0 : Fin 2)) (j : Fin K) (n : Fin 1024000)
    (k : ℕ) (x : S2x1024000.Idx → EReal) (hx : xs[k]? = some ⟨S2x1024000, x⟩)
    (hpre : (((xs.take k).map (·.1)).map fun s => if h : s.rank = 2 then s.size ((0 : Fin 2).cast h.symm) else 0).sum = 2 * k)
    (hj : j.val / 2 = k) :
    concatenate (⟨2, ![K, 1024000]⟩ : Shape) (0 : Fin 2) xs h (ix2 j n) = x (ix2 (lo2 j) n) :=
  have ⟨hk, hx'⟩ := List.getElem?_eq_some_iff.mp hx
  concatenate_apply_piece (0 : Fin 2) xs h (ix2 j n) k hk S2x1024000 x hx' rfl (2 * k) hpre (ix2 (lo2 j) n)
    (fun b hb => by
      match b with
      | ⟨0, _⟩ => exact absurd rfl hb
      | ⟨1, _⟩ => rfl)
    (by show 2 * k + j.val % 2 = j.val; omega)

local macro "layout_results" : tactic =>
  `(tactic| repeat (first
      | rw [StableHlo.unary_result] | rw [StableHlo.reshape_result]
      | (rw [StableHlo.unary_result_ne]; rotate_left; decide)
      | (rw [StableHlo.reshape_result_ne]; rotate_left; decide)
      | (rw [StableHlo.nary_result_ne]; rotate_left; decide)))

set_option maxHeartbeats 2000000 in
theorem ain_eq (j : Fin 8) (R : Fin 8000) (l : Fin 128) :
    (W1 m c main_v15 : S8x8000x128.Idx → EReal) (ix3 j R l) = ainSpec (argsOf m c) j (nodeRL R l) := by
  dsimp only [W1, W0]
  after_results
  dsimp only [Matrix.cons_val]
  layout_results
  refine (cast3_apply _ _ j R l).trans ?_
  unfold ainSpec
  have hj := j.isLt
  by_cases c0 : j.val < 2
  · rw [if_pos c0]
    exact (concat_row _ _ j _ 0 _ rfl rfl (by omega)).trans (featRow_apply _ _ _ _ _ _)
  rw [if_neg c0]
  by_cases c1 : j.val < 4
  · rw [if_pos c1]
    exact (concat_row _ _ j _ 1 _ rfl rfl (by omega)).trans (featRow_apply _ _ _ _ _ _)
  rw [if_neg c1]
  by_cases c2 : j.val < 6
  · rw [if_pos c2]
    exact (concat_row _ _ j _ 2 _ rfl rfl (by omega)).trans (busRow_apply _ _ _ _ _ _ _)
  rw [if_neg c2]
  exact (concat_row _ _ j _ 3 _ rfl rfl (by omega)).trans (busRow_apply _ _ _ _ _ _ _)

set_option maxHeartbeats 2000000 in
theorem pin_eq (j : Fin 6) (R : Fin 8000) (l : Fin 128) :
    (W1 m c main_v31 : S6x8000x128.Idx → EReal) (ix3 j R l) = pinSpec (argsOf m c) j (nodeRL R l) := by
  dsimp only [W1, W0]
  after_results
  dsimp only [Matrix.cons_val]
  layout_results
  refine (cast3_apply _ _ j R l).trans ?_
  unfold pinSpec
  have hj := j.isLt
  by_cases c0 : j.val < 2
  · rw [if_pos c0]
    exact (concat_row _ _ j _ 0 _ rfl rfl (by omega)).trans (demRow_apply _ _ _ _ _ _ _)
  rw [if_neg c0]
  by_cases c1 : j.val < 4
  · rw [if_pos c1]
    exact (concat_row _ _ j _ 1 _ rfl rfl (by omega)).trans
      ((busRow_apply _ _ _ _ _ _ _).trans (slice2_axis1_apply 0 _ _ _ _ (f7 _) (Nat.zero_add _).symm))
  rw [if_neg c1]
  exact (concat_row _ _ j _ 2 _ rfl rfl (by omega)).trans
    ((busRow_apply _ _ _ _ _ _ _).trans (slice2_axis1_apply 0 _ _ _ _ (f7 _) (Nat.zero_add _).symm))

end Cert.KernelIdeal.Val

end
-- ==== Proof.ValNodeBlocks.lean ====
import proofs.«431324_j10900626998069_3_alg».proof.Proof.Fold
import proofs.«431324_j10900626998069_3_alg».proof.Proof.ValArgs
import Idealize.ShloMosaic.Lib.Pipeline.Value
import Idealize.ShloMosaic.Lib.ValueIdx
import Idealize.ShloMosaic.PureOps.IdealRules

set_option maxRecDepth 16384

noncomputable section

namespace Cert.KernelIdeal.Val.NodeBlocks

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fold Cert.Spec

theorem inv100 : Named.named (F := Ideal) Cert.KernelIdeal.κ "inv_100" (φ := .f32) 0x3C23D70A#32 = ((1 / 100 : ℝ) : EReal) :=
  IdealRules.named_const.ideal_named_scalar _ _ _ _ rfl

-- Rows o, o + 1, … cut off a rank-3 array read, at row j, the array's row o + j.
theorem slice0 {α : Type} {n0 n1 n2 m : ℕ} (o : ℕ) (X : (⟨3, ![n0, n1, n2]⟩ : Shape).Idx → α)
    (h : (⟨3, ![n0, n1, n2]⟩ : Shape).Slices ![o, 0, 0] ⟨3, ![m, n1, n2]⟩) (j : Fin m) (b : Fin n1) (e : Fin n2) :
    extractStridedSlice ⟨3, ![m, n1, n2]⟩ ![o, 0, 0] X h (ix3 j b e)
      = X (ix3 ⟨o + j.val, Nat.lt_of_lt_of_le (Nat.add_lt_add_left j.isLt o) (h.2 0)⟩ b e) :=
  extractStridedSlice_apply _ _ _ _ _ fun ax => by
    match ax with
    | ⟨0, _⟩ => rfl
    | ⟨1, _⟩ => exact (Nat.zero_add _).symm
    | ⟨2, _⟩ => exact (Nat.zero_add _).symm

theorem pay7_at (a : Vec Ideal S8x800x128 .f32) (f : Fin 2) (r : Fin 800) (l : Fin 128) :
    k0_pay7 a (ix3 f r l)
      = a (ix3 ⟨0 + f.val, by omega⟩ r l) * a (ix3 ⟨4 + f.val, by omega⟩ r l) + a (ix3 ⟨6 + f.val, by omega⟩ r l) := by
  simp only [k0_pay7, k0_pay5, k0_pay6, k0_pay4, shapeCast_self, addf_apply, mulf_apply, slice0]

theorem pay9_at (p : Vec Ideal S6x800x128 .f32) (f : Fin 2) (r : Fin 800) (l : Fin 128) :
    k0_pay9 p (ix3 f r l)
      = (p (ix3 ⟨0 + f.val, by omega⟩ r l) * p (ix3 ⟨2 + f.val, by omega⟩ r l) + p (ix3 ⟨4 + f.val, by omega⟩ r l))
        * ((1 / 100 : ℝ) : EReal) := by
  simp only [k0_pay9, shapeCast_self, addf_apply, mulf_apply, broadcast_apply, slice0, inv100]

-- The four feature rows of a block are its two pairs of rows stacked.
theorem phys_at (a : Vec Ideal S8x800x128 .f32) (p : Vec Ideal S6x800x128 .f32) (j : Fin 4) (r : Fin 800) (l : Fin 128) :
    Node.physBlock a p (ix3 j r l)
      = if j.val < 2 then k0_pay7 a (ix3 (lo2 j) r l) else k0_pay9 p (ix3 (lo2 j) r l) := by
  unfold Node.physBlock k0_pay1
  by_cases hj : j.val < 2
  · rw [if_pos hj]
    exact concatenate_pair_apply_left (t := S4x800x128) (s₁ := S2x800x128) (s₂ := S2x800x128) (0 : Fin 3) _ _ _ _ rfl (ix3 (lo2 j) r l) fun d => by
      match d with
      | ⟨0, _⟩ => exact Nat.mod_eq_of_lt hj
      | ⟨1, _⟩ => rfl
      | ⟨2, _⟩ => rfl
  · rw [if_neg hj]
    exact concatenate_pair_apply_right (t := S4x800x128) (s₁ := S2x800x128) (s₂ := S2x800x128) (0 : Fin 3) _ _ _ _ rfl rfl (ix3 (lo2 j) r l) (fun d hd => by
      match d with
      | ⟨0, _⟩ => exact absurd rfl hd
      | ⟨1, _⟩ => rfl
      | ⟨2, _⟩ => rfl) (by show j.val % 2 + 2 = j.val; have := j.isLt; omega)

-- The two voltage-component rows of a block: magnitude times cosine, and times sine, of the angle in radians.
theorem ef_at (a : Vec Ideal S8x800x128 .f32) (j : Fin 2) (r : Fin 800) (l : Fin 128) :
    Node.efBlock a (ix3 j r l)
      = if j.val = 0 then k0_pay7 a (ix3 0 r l) * Ideal.cos (k0_pay7 a (ix3 1 r l) * degRad)
        else k0_pay7 a (ix3 0 r l) * Ideal.sin (k0_pay7 a (ix3 1 r l) * degRad) := by
  have e0 := slice0 0 (k0_pay7 a) slices_S2x800x128_o0_0_0_S1x800x128 0 r l
  have e1 := slice0 1 (k0_pay7 a) slices_S2x800x128_o1_0_0_S1x800x128 0 r l
  unfold Node.efBlock k0_pay2
  by_cases hj : j.val = 0
  · rw [if_pos hj]
    refine (concatenate_pair_apply_left (t := S2x800x128) (s₁ := S1x800x128) (s₂ := S1x800x128) (0 : Fin 3) _ _ _ _ rfl (ix3 (0 : Fin 1) r l) fun d => by
      match d with
      | ⟨0, _⟩ => exact hj.symm
      | ⟨1, _⟩ => rfl
      | ⟨2, _⟩ => rfl).trans ?_
    exact congrArg₂ (fun x y => x * Ideal.cos (y * degRad)) e0 e1
  · rw [if_neg hj]
    refine (concatenate_pair_apply_right (t := S2x800x128) (s₁ := S1x800x128) (s₂ := S1x800x128) (0 : Fin 3) _ _ _ _ rfl rfl (ix3 (0 : Fin 1) r l) (fun d hd => by
      match d with
      | ⟨0, _⟩ => exact absurd rfl hd
      | ⟨1, _⟩ => rfl
      | ⟨2, _⟩ => rfl) (by show 0 + 1 = j.val; have := j.isLt; omega)).trans ?_
    exact congrArg₂ (fun x y => x * Ideal.sin (y * degRad)) e0 e1

theorem node_idx : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

theorem node_flush : ∀ t : Fin cfg0.N, (cfg0.win 2).flush t = true ∧ (cfg0.win 3).flush t = true :=
  (by decide +kernel : ∀ t : Fin grid0.N, _)

-- Row r of block t is row 800·t + r of the array.
def rowOf (t : Fin cfg0.N) (r : Fin 800) : Fin 8000 :=
  ⟨800 * t.val + r.val, by have := lt_of_lt_of_eq t.isLt N_0; have := r.isLt; omega⟩

-- Every row of the array is a row of one of the ten blocks.
theorem rowOf_surj (R : Fin 8000) : ∃ (t : Fin cfg0.N) (r : Fin 800), rowOf t r = R :=
  ⟨⟨R.val / 800, by rw [show cfg0.N = 10 from N_0]; have := R.isLt; omega⟩, ⟨R.val % 800, Nat.mod_lt _ (by norm_num)⟩,
    Fin.ext (Nat.div_add_mod R.val 800)⟩

-- An index of a rank-3 array is known by its three coordinates.
theorem ix3_ext {n0 n1 n2 : ℕ} (x : (⟨3, ![n0, n1, n2]⟩ : Shape).Idx) (a : Fin n0) (b : Fin n1) (e : Fin n2)
    (h0 : (x 0).val = a.val) (h1 : (x 1).val = b.val) (h2 : (x 2).val = e.val) : x = ix3 a b e :=
  funext fun d => Fin.ext (by
    match d with
    | ⟨0, _⟩ => exact h0
    | ⟨1, _⟩ => exact h1
    | ⟨2, _⟩ => exact h2)

section Blocks

variable (V : (c : Dev nD) → (b : Ref sig .tc) → Buf (Elt Ideal) ((c : Thread nD τ).loc b)) (c : Dev nD)

abbrev aarr : S8x8000x128.Idx → EReal := V c (Pipeline.arrRef spec0 0)
abbrev parr : S6x8000x128.Idx → EReal := V c (Pipeline.arrRef spec0 1)
abbrev ablk (t : Fin cfg0.N) : Vec Ideal S8x800x128 .f32 := Node.iblk V c 0 t
abbrev pblk (t : Fin cfg0.N) : Vec Ideal S6x800x128 .f32 := Node.iblk V c 1 t

-- Where a point of block t of each of the four arrays lies in its array.
theorem emb0 (t : Fin cfg0.N) (j : Fin 8) (r : Fin 800) (l : Fin 128) :
    ((cfg0.win 0).blk t).view.emb (ix3 j r l) = ix3 j (rowOf t r) l := by
  obtain ⟨e0, e1, e2, -⟩ := node_idx t
  exact ix3_ext _ _ _ _ (by show win0_0.index t (0 : Fin 3) * 8 + 1 * j.val = j.val; omega)
    (by show win0_0.index t (1 : Fin 3) * 800 + 1 * r.val = 800 * t.val + r.val; omega)
    (by show win0_0.index t (2 : Fin 3) * 128 + 1 * l.val = l.val; omega)

theorem emb1 (t : Fin cfg0.N) (j : Fin 6) (r : Fin 800) (l : Fin 128) :
    ((cfg0.win 1).blk t).view.emb (ix3 j r l) = ix3 j (rowOf t r) l := by
  obtain ⟨-, -, -, e0, e1, e2, -⟩ := node_idx t
  exact ix3_ext _ _ _ _ (by show win0_1.index t (0 : Fin 3) * 6 + 1 * j.val = j.val; omega)
    (by show win0_1.index t (1 : Fin 3) * 800 + 1 * r.val = 800 * t.val + r.val; omega)
    (by show win0_1.index t (2 : Fin 3) * 128 + 1 * l.val = l.val; omega)

theorem emb2 (t : Fin cfg0.N) (j : Fin 4) (r : Fin 800) (l : Fin 128) :
    ((cfg0.win 2).blk t).view.emb (ix3 j r l) = ix3 j (rowOf t r) l := by
  obtain ⟨-, -, -, -, -, -, e0, e1, e2, -⟩ := node_idx t
  exact ix3_ext _ _ _ _ (by show win0_2.index t (0 : Fin 3) * 4 + 1 * j.val = j.val; omega)
    (by show win0_2.index t (1 : Fin 3) * 800 + 1 * r.val = 800 * t.val + r.val; omega)
    (by show win0_2.index t (2 : Fin 3) * 128 + 1 * l.val = l.val; omega)

theorem emb3 (t : Fin cfg0.N) (j : Fin 2) (r : Fin 800) (l : Fin 128) :
    ((cfg0.win 3).blk t).view.emb (ix3 j r l) = ix3 j (rowOf t r) l := by
  obtain ⟨-, -, -, -, -, -, -, -, -, e0, e1, e2⟩ := node_idx t
  exact ix3_ext _ _ _ _ (by show win0_3.index t (0 : Fin 3) * 2 + 1 * j.val = j.val; omega)
    (by show win0_3.index t (1 : Fin 3) * 800 + 1 * r.val = 800 * t.val + r.val; omega)
    (by show win0_3.index t (2 : Fin 3) * 128 + 1 * l.val = l.val; omega)

theorem ablk_at (t : Fin cfg0.N) (k : Fin 8) (r : Fin 800) (l : Fin 128) :
    ablk V c t (ix3 k r l) = aarr V c (ix3 k (rowOf t r) l) :=
  (View.read_apply _ _).trans (congrArg (aarr V c) (emb0 t k r l))

theorem pblk_at (t : Fin cfg0.N) (k : Fin 6) (r : Fin 800) (l : Fin 128) :
    pblk V c t (ix3 k r l) = parr V c (ix3 k (rowOf t r) l) :=
  (View.read_apply _ _).trans (congrArg (parr V c) (emb1 t k r l))

variable (A : Args)
  (hA : ∀ (j : Fin 8) (R : Fin 8000) (l : Fin 128), aarr V c (ix3 j R l) = ainSpec A j (nodeRL R l))
  (hP : ∀ (j : Fin 6) (R : Fin 8000) (l : Fin 128), parr V c (ix3 j R l) = pinSpec A j (nodeRL R l))

include hA in
-- When the stacked array holds each node's raw prediction, scale and shift: the denormalised prediction.
theorem rows_yp (t : Fin cfg0.N) (f : Fin 2) (r : Fin 800) (l : Fin 128) :
    ablk V c t (ix3 ⟨0 + f.val, by omega⟩ r l) * ablk V c t (ix3 ⟨4 + f.val, by omega⟩ r l)
      + ablk V c t (ix3 ⟨6 + f.val, by omega⟩ r l) = yp A (nodeRL (rowOf t r) l) f := by
  rw [ablk_at, ablk_at, ablk_at, hA, hA, hA]
  fin_cases f <;> rfl

include hA in
theorem pay7_spec (t : Fin cfg0.N) (f : Fin 2) (r : Fin 800) (l : Fin 128) :
    k0_pay7 (ablk V c t) (ix3 f r l) = yp A (nodeRL (rowOf t r) l) f :=
  (pay7_at _ f r l).trans (rows_yp V c A hA t f r l)

include hP in
-- Likewise the per-unit demand.
theorem pay9_spec (t : Fin cfg0.N) (f : Fin 2) (r : Fin 800) (l : Fin 128) :
    k0_pay9 (pblk V c t) (ix3 f r l) = pq A (nodeRL (rowOf t r) l) f := by
  rw [pay9_at, pblk_at, pblk_at, pblk_at, hP, hP, hP]
  fin_cases f <;> rfl

include hA hP in
theorem phys_arr : (Node.dat V c).arrAt 2 cfg0.N
    = fun i : S4x8000x128.Idx => physSpec A (i 0) (nodeRL (i 1) (i 2)) :=
  (Node.dat V c).arrAt_eq_of_cover 2 _ (fun t _ => funext fun y : S4x800x128.Idx => by
      obtain ⟨j, r, l, rfl⟩ : ∃ (j : Fin 4) (r : Fin 800) (l : Fin 128), y = ix3 j r l := ⟨y 0, y 1, y 2, eq_ix3 y⟩
      rw [View.read_apply, emb2 t j r l]
      exact (phys_at _ _ j r l).trans (if_congr Iff.rfl (pay7_spec V c A hA t _ r l) (pay9_spec V c A hP t _ r l)))
    fun i => by
      obtain ⟨j, R, l, rfl⟩ : ∃ (j : Fin 4) (R : Fin 8000) (l : Fin 128), i = ix3 j R l := ⟨i 0, i 1, i 2, eq_ix3 i⟩
      obtain ⟨t, r, rfl⟩ := rowOf_surj R
      exact ⟨t, (node_flush t).1, emb2 t j r l ▸ View.emb_mem_set _ _⟩

include hA in
theorem ef_arr : (Node.dat V c).arrAt 3 cfg0.N
    = fun i : S2x8000x128.Idx => efSpec A (i 0) (nodeRL (i 1) (i 2)) :=
  (Node.dat V c).arrAt_eq_of_cover 3 _ (fun t _ => funext fun y : S2x800x128.Idx => by
      obtain ⟨j, r, l, rfl⟩ : ∃ (j : Fin 2) (r : Fin 800) (l : Fin 128), y = ix3 j r l := ⟨y 0, y 1, y 2, eq_ix3 y⟩
      rw [View.read_apply, emb3 t j r l]
      refine (ef_at _ j r l).trans ?_
      rw [pay7_spec V c A hA, pay7_spec V c A hA]
      rfl)
    fun i => by
      obtain ⟨j, R, l, rfl⟩ : ∃ (j : Fin 2) (R : Fin 8000) (l : Fin 128), i = ix3 j R l := ⟨i 0, i 1, i 2, eq_ix3 i⟩
      obtain ⟨t, r, rfl⟩ := rowOf_surj R
      exact ⟨t, (node_flush t).2, emb3 t j r l ▸ View.emb_mem_set _ _⟩

end Blocks

end Cert.KernelIdeal.Val.NodeBlocks

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fold

variable (m : (ℓ : Loc nD τ sig) → Buf (Elt Ideal) ℓ) (c : Dev nD)

theorem phys_eq
    (hain : ∀ (j : Fin 8) (R : Fin 8000) (l : Fin 128), (W1 m c main_v15 : S8x8000x128.Idx → EReal) (ix3 j R l) = ainSpec (argsOf m c) j (nodeRL R l))
    (hpin : ∀ (j : Fin 6) (R : Fin 8000) (l : Fin 128), (W1 m c main_v31 : S6x8000x128.Idx → EReal) (ix3 j R l) = pinSpec (argsOf m c) j (nodeRL R l))
    (j : Fin 4) (R : Fin 8000) (l : Fin 128) :
    (W2 m c main_v32_0 : S4x8000x128.Idx → EReal) (ix3 j R l) = physSpec (argsOf m c) j (nodeRL R l) :=
  congrFun ((W2_arr m c 2).trans (NodeBlocks.phys_arr (V1 m) c _ hain hpin)) (ix3 j R l)

theorem ef_eq
    (hain : ∀ (j : Fin 8) (R : Fin 8000) (l : Fin 128), (W1 m c main_v15 : S8x8000x128.Idx → EReal) (ix3 j R l) = ainSpec (argsOf m c) j (nodeRL R l))
    (j : Fin 2) (R : Fin 8000) (l : Fin 128) :
    (W2 m c main_v32_1 : S2x8000x128.Idx → EReal) (ix3 j R l) = efSpec (argsOf m c) j (nodeRL R l) :=
  congrFun ((W2_arr m c 3).trans (NodeBlocks.ef_arr (V1 m) c _ hain)) (ix3 j R l)

end Cert.KernelIdeal.Val

end
-- ==== Proof.ValNodeSum.lean ====
import proofs.«431324_j10900626998069_3_alg».proof.Proof.ValNodeBlocks
import Idealize.ShloMosaic.Lib.ValueLayout
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fold Cert.Spec

namespace NodeSum

open NodeBlocks

theorem mul_add_lt {a b i j : ℕ} (hi : i < a) (hj : j < b) : b * i + j < a * b :=
  calc b * i + j < b * i + b := by omega
    _ = b * (i + 1) := (Nat.mul_succ b i).symm
    _ ≤ b * a := Nat.mul_le_mul_left _ hi
    _ = a * b := Nat.mul_comm _ _

-- A sum over Fin (a·b) is the double sum over quotient and remainder.
theorem sum_fin_mul {M : Type*} [AddCommMonoid M] {a b n : ℕ} (hn : a * b = n) (g : Fin n → M) :
    ∑ k, g k = ∑ i : Fin a, ∑ j : Fin b, g ⟨b * i.val + j.val, hn ▸ mul_add_lt i.isLt j.isLt⟩ := by
  subst hn
  rw [← finProdFinEquiv.sum_comp, Fintype.sum_prod_type]
  refine Finset.sum_congr rfl fun i _ => Finset.sum_congr rfl fun j _ => congrArg g (Fin.ext ?_)
  show j.val + b * i.val = b * i.val + j.val
  omega

-- One step adds, to the running sum, the block's squared differences summed over features, rows and lanes.
theorem accStep_apply (a : Vec Ideal S8x800x128 .f32) (s : Vec Ideal S1x1 .f32) (p q : Fin 2 → Fin 800 → Fin 128 → EReal)
    (hp : ∀ f R l, a (ix3 ⟨0 + f.val, by omega⟩ R l) * a (ix3 ⟨4 + f.val, by omega⟩ R l) + a (ix3 ⟨6 + f.val, by omega⟩ R l) = p f R l)
    (hq : ∀ f R l, a (ix3 ⟨2 + f.val, by omega⟩ R l) * a (ix3 ⟨4 + f.val, by omega⟩ R l) + a (ix3 ⟨6 + f.val, by omega⟩ R l) = q f R l) :
    Node.accStep a s (ix2 0 0)
      = s (ix2 0 0) + ∑ l : Fin 128, ∑ R : Fin 800, ∑ f : Fin 2, (p f R l - q f R l) * (p f R l - q f R l) := by
  unfold Node.accStep k0_pay8
  simp only [shapeCast_self, addf_apply]
  congr 1
  refine (Ideal.multiReduction_add_single _ _ _ _ _ _).trans (Finset.sum_congr rfl fun (l : Fin 128) _ => ?_)
  refine ((congrArg _ (ix3_ext _ (0 : Fin 1) (0 : Fin 1) l rfl rfl rfl)).trans (shapeCast_ab_1ab_apply _ _ 0 0 l)).trans ?_
  refine (Ideal.multiReduction_add_single _ _ _ _ _ _).trans (Finset.sum_congr rfl fun (R : Fin 800) _ => ?_)
  refine ((congrArg _ (ix3_ext _ (0 : Fin 1) R l rfl rfl rfl)).trans (shapeCast_ab_1ab_apply _ _ 0 R l)).trans ?_
  refine (Ideal.multiReduction_add_single _ _ _ _ _ _).trans (Finset.sum_congr rfl fun (f : Fin 2) _ => ?_)
  refine (congrArg _ (ix3_ext _ f R l rfl rfl rfl)).trans ?_
  simp only [k0_pay7, k0_pay5, k0_pay6, k0_pay4, shapeCast_self, addf_apply, mulf_apply, subf_apply, slice0, hp, hq]

theorem pay3_apply : (k0_pay3 (F := Ideal)) (ix2 0 0) = 0 := by
  unfold k0_pay3
  simp only [shapeCast_self, broadcast_apply]
  exact Ideal.ofBits_zero_f32

variable (V : (c : Dev nD) → (b : Ref sig .tc) → Buf (Elt Ideal) ((c : Thread nD τ).loc b)) (c : Dev nD)

abbrev accLast : Vec Ideal S1x1 .f32 := Node.accAt V c 9 (by rw [show cfg0.N = 10 from N_0]; decide)

-- The block at zero offsets of the [1, 1] array is the whole array.
theorem flushed4_eq (t : Fin cfg0.N) (hf : (cfg0.win 4).flush t = true) :
    (Node.dat V c).flushed 4 t = ((cfg0.win 4).blk t).view.read (Elt Ideal) (accLast V c) := by
  obtain rfl : t = t0_9 :=
    Fin.ext (by have := (flush0_4 t).mp hf; have := lt_of_lt_of_eq t.isLt N_0; show t.val = 9; omega)
  have hz : (fun a => win0_4.index t0_9 a * main_v32_2.ty.shape.size a) = fun _ => 0 :=
    funext fun a => by fin_cases a <;> decide
  exact (Memref.read_access_unit_zero (Elt Ideal) main_v32_2 hz (fun a => by rw [congrFun hz a]; simp) (accLast V c)).symm

theorem arr4_eq : (Node.dat V c).arrAt 4 cfg0.N = accLast V c :=
  (Node.dat V c).arrAt_eq_of_cover 4 (accLast V c) (flushed4_eq V c) fun i =>
    ⟨t0_9, (flush0_4 t0_9).mpr rfl, by
      show i ∈ ((View.whole main_v32_2).slice (win0_4.rect t0_9)).set
      rw [View.set_slice_whole, Rect.mem_set_unit]
      intro a
      match a with
      | ⟨0, _⟩ => exact ⟨Nat.zero_le _, (i 0).isLt⟩
      | ⟨1, _⟩ => exact ⟨Nat.zero_le _, (i 1).isLt⟩⟩

variable (A : Args) (hX : ∀ (j : Fin 8) (R : Fin 8000) (l : Fin 128), aarr V c (ix3 j R l) = ainSpec A j (nodeRL R l))

def errSq (n : Fin 1024000) (f : Fin 2) : EReal := (yp A n f - yt A n f) * (yp A n f - yt A n f)

-- Block i's sum of squared errors (zero when there is no block i).
def blockSum (i : ℕ) : EReal :=
  if h : i < cfg0.N then ∑ l : Fin 128, ∑ R : Fin 800, ∑ f : Fin 2, errSq A (nodeRL (rowOf ⟨i, h⟩ R) l) f else 0

include hX in
theorem step (t : Fin cfg0.N) (s : Vec Ideal S1x1 .f32) :
    Node.accStep (ablk V c t) s (ix2 0 0) = s (ix2 0 0) + blockSum A t.val := by
  rw [blockSum, dif_pos t.isLt]
  exact accStep_apply _ s _ _ (rows_yp V c A hX t) fun f R l => by
    rw [ablk_at, ablk_at, ablk_at, hX, hX, hX]
    fin_cases f <;> rfl

include hX in
theorem accAt_eq : ∀ (n : ℕ) (h : n < cfg0.N),
    Node.accAt V c n h (ix2 0 0) = ∑ i ∈ Finset.range (n + 1), blockSum A i
  | 0, h => by
    rw [Node.accAt_zero, step V c A hX ⟨0, h⟩, pay3_apply, zero_add, Finset.sum_range_one]
  | n + 1, h => by
    rw [Node.accAt_succ, step V c A hX ⟨n + 1, h⟩, accAt_eq n, Finset.sum_range_succ _ (n + 1)]

include hX in
-- (t, R, l) ↦ 128·(800·t + R) + l runs over the nodes once, so the ten block sums add up to the sum over nodes.
theorem total : accLast V c (ix2 0 0) = sqErr A := by
  refine (accAt_eq V c A hX 9 _).trans ?_
  have h1 : sqErr A = ∑ n : Fin 1024000, ∑ f : Fin 2, errSq A n f := rfl
  rw [Finset.sum_range, h1, sum_fin_mul (a := 8000) (b := 128) (n := 1024000) (by norm_num),
    sum_fin_mul (a := 10) (b := 800) (n := 8000) (by norm_num)]
  refine Finset.sum_congr rfl fun t _ => ?_
  rw [Finset.sum_comm]
  exact dif_pos (lt_of_lt_of_eq t.isLt N_0.symm)

end NodeSum

variable (m : (ℓ : Loc nD τ sig) → Buf (Elt Ideal) ℓ) (c : Dev nD)

theorem mse_eq
    (hain : ∀ (j : Fin 8) (R : Fin 8000) (l : Fin 128), (W1 m c main_v15 : S8x8000x128.Idx → EReal) (ix3 j R l) = ainSpec (argsOf m c) j (nodeRL R l)) :
    (W2 m c main_v32_2 : S1x1.Idx → EReal) (ix2 0 0) = Cert.Spec.sqErr (argsOf m c) :=
  (congrFun ((W2_arr m c 4).trans (NodeSum.arr4_eq (V1 m) c)) (ix2 0 0)).trans (NodeSum.total (V1 m) c _ hain)

end Cert.KernelIdeal.Val

end
-- ==== Proof.ValEdgeIn.lean ====
import proofs.«431324_j10900626998069_3_alg».proof.Proof.Fold
import proofs.«431324_j10900626998069_3_alg».proof.Proof.ValArgs
import proofs.«431324_j10900626998069_3_alg».proof.Proof.Gen.KernelIdeal.Regions
import Idealize.ShloMosaic.Lib.StableHlo.Run
import Idealize.ShloMosaic.Lib.StableHlo.Predicate
import Idealize.ShloMosaic.Lib.Pipeline.Value
import Idealize.ShloMosaic.Lib.ValueLayout

set_option maxRecDepth 16384

noncomputable section

namespace Cert.KernelIdeal.Val.EdgeIn

open Idealize.ShloMosaic Idealize.ShloMosaic.TcCoe Idealize.ShloMosaic.ValueIdx
open Idealize.SL Idealize.SL.Sem
open Cert.KernelIdeal Cert.KernelIdeal.Gen Cert.KernelIdeal.Fold Cert.KernelIdeal.Val
open Idealize.ShloMosaic.StableHlo.Predicate (sge_iff_toNat sle_iff_toNat slt_iff_toNat)

section Take
variable (x : S2x1024000.Idx → EReal) (idx : IVec S3072000 32)

def takeCol : IVec S3072000x1 32 :=
  broadcastInDim S3072000x1 ![0] bcast_S3072000_S3072000x1_0
    (select (cmpi .slt idx (broadcastInDim S3072000 ![] bcast_S_S3072000 (constantI S_ 32 0#32)))
      (addi idx (broadcastInDim S3072000 ![] bcast_S_S3072000 (constantI S_ 32 1024000#32))) idx)

def rangeOf (col : IVec S3072000x1 32) : IVec S3072000x1 1 :=
  andi (cmpi .sge col (broadcastInDim S3072000x1 ![] bcast_S_S3072000x1 (constantI S_ 32 0#32)))
    (cmpi .sle col (broadcastInDim S3072000x1 ![0, 1] bcast_S1x1_S3072000x1_0_1
      (broadcastInDim S1x1 ![1] bcast_S1_S1x1_1 (constantI S1 32 1023999#32))))

def allOf : IVec S3072000x1 1 → IVec S_ 1 → IVec S3072000 1 :=
  fun p v => Host.reduce IntOp.andi p v reducesTo_S3072000x1_S3072000_d1 h_S_

def selOf (col : IVec S3072000x1 32) (mask : IVec S3072000 1) : S2x3072000.Idx → EReal :=
  select (broadcastInDim S2x3072000 ![1] bcast_S3072000_S2x3072000_1 mask)
    (Host.gather gather_S2x1024000_S3072000x1_S2x3072000_0_1_n_n_1_1_21 x col)
    (broadcastInDim S2x3072000 ![] bcast_S_S2x3072000 (constant (F := Ideal) S_ .f32 0x7FC00000#32))

-- The take: gather along the wrapped words, kept where they lie in [0, N - 1].
def takeT : S2x3072000.Idx → EReal := selOf x (takeCol idx) (allOf (rangeOf (takeCol idx)) (constantI S_ 1 1#1))

theorem takeCol_apply (e : Fin 3072000) (u : Fin 1) : takeCol idx (ix2 e u) = Cert.Spec.wrap (idx (ix1 e)) := by
  unfold takeCol
  refine (broadcastInDim_apply _ _ _ (ix2 e u) (ix1 e) (fun a => by match a with | ⟨0, _⟩ => rfl)).trans ?_
  rfl

theorem wrap_of_lt (w : BitVec 32) (hw : w.toNat < 1024000) : Cert.Spec.wrap w = w := by
  unfold Cert.Spec.wrap
  have h0 : IntOp.cmpi .slt w 0#32 = 0#1 := by
    refine eq_zero_of_ne_one fun h => ?_
    have := (slt_iff_toNat (a := w) (b := 0#32) (by omega) (by decide)).1 h
    have h00 : (0#32 : BitVec 32).toNat = 0 := rfl
    omega
  rw [h0, select_zero]

theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a]
    exact foldl_andi_ones f hf l

-- With every word in [0, N) each wrapped word passes both comparisons, so the and-reduction is one.
theorem mask_eq_one (hidx : ∀ e : Fin 3072000, (idx (ix1 e)).toNat < 1024000) (j : S3072000.Idx) :
    allOf (rangeOf (takeCol idx)) (constantI S_ 1 1#1) j = 1#1 := by
  unfold allOf
  rw [Host.reduce_eq_foldl]
  generalize (List.filter _ _) = L
  refine foldl_andi_ones _ (fun i => ?_) L
  obtain ⟨e, u, rfl⟩ : ∃ (e : Fin 3072000) (u : Fin 1), i = ix2 e u := ⟨i 0, i 1, eq_ix2 i⟩
  show IntOp.andi (IntOp.cmpi .sge (takeCol idx (ix2 e u)) 0#32) (IntOp.cmpi .sle (takeCol idx (ix2 e u)) 1023999#32) = 1#1
  have hw := hidx e
  rw [takeCol_apply, wrap_of_lt _ hw]
  refine IntOp.andi_eq_one.2 ⟨(sge_iff_toNat (by omega) (by decide)).2 ?_, (sle_iff_toNat (by omega) (by decide)).2 ?_⟩
  · simp
  · show _ ≤ 1023999; omega

theorem gather_apply (col : IVec S3072000x1 32) (f : Fin 2) (e : Fin 3072000) :
    Host.gather gather_S2x1024000_S3072000x1_S2x3072000_0_1_n_n_1_1_21 x col (ix2 f e)
      = x (ix2 f ⟨min (col (ix2 e (0 : Fin 1))).toInt.toNat 1023999, by omega⟩) := by
  unfold Host.gather
  congr 1
  funext a
  refine Fin.ext ?_
  match a with
  | ⟨0, _⟩ =>
    show GatherDims.start _ (ix2 f e) col 0 + GatherDims.batchCoord _ (ix2 f e) 0 + GatherDims.offCoord _ (ix2 f e) 0 = f.val
    rw [GatherDims.batchCoord_eq_zero _ _ _ (by decide)]
    unfold GatherDims.start
    rw [dif_neg (by decide)]
    unfold GatherDims.offCoord
    rw [dif_pos (by decide), Nat.zero_add]
    rfl
  | ⟨1, _⟩ =>
    show GatherDims.start _ (ix2 f e) col 1 + GatherDims.batchCoord _ (ix2 f e) 1 + GatherDims.offCoord _ (ix2 f e) 1
      = min (col (ix2 e (0 : Fin 1))).toInt.toNat 1023999
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S2x1024000_S3072000x1_S2x3072000_0_1_n_n_1_1_21 (ix2 f e)
        ⟨List.idxOf (1 : Fin 2) gather_S2x1024000_S3072000x1_S2x3072000_0_1_n_n_1_1_21.startIndexMap,
          List.idxOf_lt_length_iff.2 (by decide)⟩ = ix2 e (0 : Fin 1) := by
      funext b; refine Fin.ext ?_
      match b with
      | ⟨0, _⟩ => rfl
      | ⟨1, _⟩ => rfl
    rw [hsi]
    rfl

theorem takeT_apply (hidx : ∀ e : Fin 3072000, (idx (ix1 e)).toNat < 1024000) (f : Fin 2) (e : Fin 3072000) :
    takeT x idx (ix2 f e) = x (ix2 f (Cert.Spec.nodeOf (idx (ix1 e)))) := by
  unfold takeT selOf
  rw [select_apply]
  have hm : broadcastInDim S2x3072000 ![1] bcast_S3072000_S2x3072000_1 (allOf (rangeOf (takeCol idx)) (constantI S_ 1 1#1)) (ix2 f e) = 1#1 :=
    (broadcastInDim_apply _ _ _ (ix2 f e) (ix1 e) (fun a => by match a with | ⟨0, _⟩ => rfl)).trans (mask_eq_one idx hidx _)
  rw [hm, select_one, gather_apply]
  refine congrArg (fun n => x (ix2 f n)) (Fin.ext ?_)
  show min (takeCol idx (ix2 e (0 : Fin 1))).toInt.toNat 1023999 = min (Cert.Spec.wrap (idx (ix1 e))).toInt.toNat 1023999
  rw [takeCol_apply]

end Take

theorem nodeFlat_apply (X : S2x8000x128.Idx → EReal) (f : Fin 2) (n : Fin 1024000) :
    shapeCast S2x1024000 X shapeCasts_S2x8000x128_S2x1024000 (ix2 f n)
      = X (ix3 f (⟨n.val / 128, by have := n.isLt; omega⟩ : Fin 8000) (⟨n.val % 128, Nat.mod_lt _ (by norm_num)⟩ : Fin 128)) :=
  shapeCast_apply X _ _ _ (by
    rw [Shape.rowMajor_val_three, Shape.rowMajor_val_two]
    show (f.val * 8000 + n.val / 128) * 128 + n.val % 128 = f.val * 1024000 + n.val
    omega)

theorem edgeRows_apply (X : S4x3072000.Idx → EReal) (j : Fin 4) (R : Fin 24000) (l : Fin 128) :
    shapeCast S4x24000x128 X shapeCasts_S4x3072000_S4x24000x128 (ix3 j R l) = X (ix2 j (edgeRL R l)) :=
  shapeCast_apply X _ _ _ (by
    rw [Shape.rowMajor_val_three, Shape.rowMajor_val_two]
    show j.val * 3072000 + (128 * R.val + l.val) = (j.val * 24000 + R.val) * 128 + l.val
    omega)

theorem stack_lo (A B : S2x3072000.Idx → EReal) (f : Fin 2) (e : Fin 3072000) :
    concatenate S4x3072000 0 [⟨S2x3072000, A⟩, ⟨S2x3072000, B⟩] concatenates_S2x3072000_S2x3072000_S4x3072000_d0
      (ix2 (⟨f.val, by have := f.isLt; omega⟩ : Fin 4) e) = A (ix2 f e) :=
  concatenate_pair_apply_left (t := S4x3072000) (0 : Fin 2) A B _ _ rfl (ix2 f e) (fun b => by
    match b with
    | ⟨0, _⟩ => rfl
    | ⟨1, _⟩ => rfl)

theorem stack_hi (A B : S2x3072000.Idx → EReal) (f : Fin 2) (e : Fin 3072000) :
    concatenate S4x3072000 0 [⟨S2x3072000, A⟩, ⟨S2x3072000, B⟩] concatenates_S2x3072000_S2x3072000_S4x3072000_d0
      (ix2 (⟨f.val + 2, by have := f.isLt; omega⟩ : Fin 4) e) = B (ix2 f e) :=
  concatenate_pair_apply_right (t := S4x3072000) (0 : Fin 2) A B _ _ rfl rfl (ix2 f e) (fun b hb => by
    match b with
    | ⟨0, _⟩ => exact absurd rfl hb
    | ⟨1, _⟩ => rfl) rfl

theorem unitCast_apply (X : S4.Idx → EReal) (j : Fin 4) :
    shapeCast S4x1x1 X shapeCasts_S4_S4x1x1 (ix3 j (0 : Fin 1) (0 : Fin 1)) = X (ix1 j) :=
  shapeCast_apply X _ _ _ (by
    rw [Shape.rowMajor_val_three, Shape.rowMajor_val_one]
    show j.val = (j.val * 1 + 0) * 1 + 0
    omega)

section Rows
variable (A : Cert.Spec.Args)

theorem ef_row0 (n : Fin 1024000) : efSpec A (0 : Fin 2) n = Cert.Spec.eN A n := if_pos rfl
theorem ef_row1 (n : Fin 1024000) : efSpec A (1 : Fin 2) n = Cert.Spec.fN A n := if_neg (by decide)
theorem xy_row0 (e : Fin 3072000) : xySpec A (⟨0, by decide⟩ : Fin 4) e = Cert.Spec.eN A (Cert.Spec.srcN A e) := if_pos rfl
theorem xy_row1 (e : Fin 3072000) : xySpec A (⟨1, by decide⟩ : Fin 4) e = Cert.Spec.fN A (Cert.Spec.srcN A e) :=
  (if_neg (by decide)).trans (if_pos rfl)
theorem xy_row2 (e : Fin 3072000) : xySpec A (⟨2, by decide⟩ : Fin 4) e = Cert.Spec.eN A (Cert.Spec.dstN A e) :=
  (if_neg (by decide)).trans ((if_neg (by decide)).trans (if_pos rfl))
theorem xy_row3 (e : Fin 3072000) : xySpec A (⟨3, by decide⟩ : Fin 4) e = Cert.Spec.fN A (Cert.Spec.dstN A e) :=
  (if_neg (by decide)).trans ((if_neg (by decide)).trans (if_neg (by decide)))

end Rows

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons a l ih => exact ih _

theorem after_split3 {Val : EltTy → Type} (L : List (HloOp τ sig Val)) (V : Valuation τ sig Val) :
    StableHlo.after L V
      = StableHlo.after (List.drop 18 L) (StableHlo.after (List.take 10 (List.drop 8 L)) (StableHlo.after (List.take 8 L) V)) := by
  rw [← after_append, ← after_append, ← List.drop_drop (i := 10) (j := 8), List.take_append_drop, List.take_append_drop]

section Take0
variable (V : Valuation τ sig (Elt Ideal))

def mid0 (g : IVec S3072000x1 1 → IVec S_ 1 → IVec S3072000 1) : List (HloOp τ sig (Elt Ideal)) :=
  List.take 9 (List.drop 8 hostOps1_1) ++
    [StableHlo.TRef.binary (.of main_call0_v11 : StableHlo.TRef sig ⟨S3072000x1, .i1⟩)
      (.of main_call0_c_3 : StableHlo.TRef sig ⟨S_, .i1⟩) (.of main_call0_v12 : StableHlo.TRef sig ⟨S3072000, .i1⟩) g]

theorem partA0 :
    StableHlo.after (List.take 8 hostOps1_1) V main_call0_v5 = takeCol (V main_v37)
      ∧ StableHlo.after (List.take 8 hostOps1_1) V main_v35 = V main_v35 := by
  refine ⟨?_, ?_⟩ <;> simp only [hostOps1_1, List.take_succ_cons, List.take_zero] <;> after_results <;> rfl

theorem partB0 (g : IVec S3072000x1 1 → IVec S_ 1 → IVec S3072000 1) :
    StableHlo.after (mid0 g) V main_call0_v12
        = g (rangeOf (V main_call0_v5)) (constantI S_ 1 1#1)
      ∧ StableHlo.after (mid0 g) V main_call0_v5 = V main_call0_v5
      ∧ StableHlo.after (mid0 g) V main_v35 = V main_v35 := by
  refine ⟨?_, ?_, ?_⟩ <;>
    simp only [mid0, hostOps1_1, List.drop_succ_cons, List.drop_zero, List.take_succ_cons, List.take_zero, List.cons_append, List.nil_append] <;>
    after_results <;> rfl

theorem partC0 :
    StableHlo.after (List.drop 18 hostOps1_1) V main_v40
      = selOf (V main_v35) (V main_call0_v5)
          (V main_call0_v12) := by
  simp only [hostOps1_1, List.drop_succ_cons, List.drop_zero]
  after_results
  rfl

theorem take0_term :
    StableHlo.after hostOps1_1 V main_v40
      = takeT (V main_v35) (V main_v37) := by
  rw [show StableHlo.after hostOps1_1 V = StableHlo.after (List.drop 18 hostOps1_1) (StableHlo.after (mid0 allOf)
    (StableHlo.after (List.take 8 hostOps1_1) V)) from after_split3 hostOps1_1 V, partC0, (partB0 _ allOf).1, (partB0 _ allOf).2.1,
    (partB0 _ allOf).2.2, (partA0 V).1, (partA0 V).2]
  rfl

end Take0

section Take1
variable (V : Valuation τ sig (Elt Ideal))

def mid1 (g : IVec S3072000x1 1 → IVec S_ 1 → IVec S3072000 1) : List (HloOp τ sig (Elt Ideal)) :=
  List.take 9 (List.drop 8 hostOps1_2) ++
    [StableHlo.TRef.binary (.of main_call1_v11 : StableHlo.TRef sig ⟨S3072000x1, .i1⟩)
      (.of main_call1_c_3 : StableHlo.TRef sig ⟨S_, .i1⟩) (.of main_call1_v12 : StableHlo.TRef sig ⟨S3072000, .i1⟩) g]

theorem partA1 :
    StableHlo.after (List.take 8 hostOps1_2) V main_call1_v5 = takeCol (V main_v39)
      ∧ StableHlo.after (List.take 8 hostOps1_2) V main_v35 = V main_v35 := by
  refine ⟨?_, ?_⟩ <;> simp only [hostOps1_2, List.take_succ_cons, List.take_zero] <;> after_results <;> rfl

theorem partB1 (g : IVec S3072000x1 1 → IVec S_ 1 → IVec S3072000 1) :
    StableHlo.after (mid1 g) V main_call1_v12
        = g (rangeOf (V main_call1_v5)) (constantI S_ 1 1#1)
      ∧ StableHlo.after (mid1 g) V main_call1_v5 = V main_call1_v5
      ∧ StableHlo.after (mid1 g) V main_v35 = V main_v35 := by
  refine ⟨?_, ?_, ?_⟩ <;>
    simp only [mid1, hostOps1_2, List.drop_succ_cons, List.drop_zero, List.take_succ_cons, List.take_zero, List.cons_append, List.nil_append] <;>
    after_results <;> rfl

theorem partC1 :
    StableHlo.after (List.drop 18 hostOps1_2) V main_v41
      = selOf (V main_v35) (V main_call1_v5)
          (V main_call1_v12) := by
  simp only [hostOps1_2, List.drop_succ_cons, List.drop_zero]
  after_results
  rfl

theorem take1_term :
    StableHlo.after hostOps1_2 V main_v41
      = takeT (V main_v35) (V main_v39) := by
  rw [show StableHlo.after hostOps1_2 V = StableHlo.after (List.drop 18 hostOps1_2) (StableHlo.after (mid1 allOf)
    (StableHlo.after (List.take 8 hostOps1_2) V)) from after_split3 hostOps1_2 V, partC1, (partB1 _ allOf).1, (partB1 _ allOf).2.1,
    (partB1 _ allOf).2.2, (partA1 V).1, (partA1 V).2]
  rfl

end Take1

section Terms
variable (V : Valuation τ sig (Elt Ideal))

theorem table_term :
    StableHlo.after hostOps1 V main_v35
      = shapeCast S2x1024000 (V main_v32_1) shapeCasts_S2x8000x128_S2x1024000 := by
  after_results
  rfl

theorem src_term :
    StableHlo.after hostOps1 V main_v37
      = shapeCast S3072000 (extractStridedSlice S1x3072000 ![0, 0] (V main_arg3)
          slices_S2x3072000_S1x3072000_0_0) shapeCasts_S1x3072000_S3072000 := by
  after_results
  rfl

theorem dst_term :
    StableHlo.after hostOps1 V main_v39
      = shapeCast S3072000 (extractStridedSlice S1x3072000 ![1, 0] (V main_arg3)
          slices_S2x3072000_S1x3072000_1_0) shapeCasts_S1x3072000_S3072000 := by
  after_results
  rfl

theorem xy_term :
    StableHlo.after hostOps1_3 V main_v43
      = shapeCast S4x24000x128 (concatenate S4x3072000 0
          [⟨S2x3072000, (V main_v40)⟩, ⟨S2x3072000, (V main_v41)⟩]
          concatenates_S2x3072000_S2x3072000_S4x3072000_d0) shapeCasts_S4x3072000_S4x24000x128 := by
  after_results
  rfl

theorem ea_term :
    StableHlo.after hostOps1_3 V main_v45
      = shapeCast S4x24000x128 (transpose S4x3072000 [1, 0] (V main_arg4)
          transposes_S3072000x4_S4x3072000_1_0) shapeCasts_S4x3072000_S4x24000x128 := by
  after_results
  rfl

theorem em_term :
    StableHlo.after hostOps1_3 V main_v46
      = shapeCast S4x1x1 (V main_arg9) shapeCasts_S4_S4x1x1 := by
  after_results
  rfl

theorem es_term :
    StableHlo.after hostOps1_3 V main_v47
      = shapeCast S4x1x1 (V main_arg10) shapeCasts_S4_S4x1x1 := by
  after_results
  rfl

end Terms

section Memory
variable (m : (ℓ : Loc nD τ sig) → Buf (Elt Ideal) ℓ) (c : Dev nD)

theorem kept2 (b : Ref sig .tc) (h0 : b ∉ (hostOps0_W : List (Ref sig .tc)) := by decide)
    (hw : ∀ w, Pipeline.arrRef spec0 w ≠ b := by decide) :
    W2 m c (Proc.devRef .tc b) = m (c, Proc.devRef .tc b) :=
  (W2_of_ne m c b hw).trans (StableHlo.after_of_writes_sub hostOps0 _ hostOps0_writes h0)

theorem kept5 (b : Ref sig .tc) (h0 : b ∉ (hostOps0_W : List (Ref sig .tc)) := by decide)
    (hw : ∀ w, Pipeline.arrRef spec0 w ≠ b := by decide) (h1 : b ∉ (hostOps1_W : List (Ref sig .tc)) := by decide)
    (h11 : b ∉ (hostOps1_1_W : List (Ref sig .tc)) := by decide) (h12 : b ∉ (hostOps1_2_W : List (Ref sig .tc)) := by decide) :
    W5 m c (Proc.devRef .tc b) = m (c, Proc.devRef .tc b) :=
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  kept2 m c b h0 hw

theorem table_apply
    (hef : ∀ (j : Fin 2) (R : Fin 8000) (l : Fin 128), (W2 m c main_v32_1 : S2x8000x128.Idx → EReal) (ix3 j R l) = efSpec (argsOf m c) j (nodeRL R l))
    (f : Fin 2) (n : Fin 1024000) :
    (W3 m c main_v35 : S2x1024000.Idx → EReal) (ix2 f n) = efSpec (argsOf m c) f n := by
  have h : (W3 m c main_v35 : S2x1024000.Idx → EReal) = _ := table_term (W2 m c)
  rw [h, nodeFlat_apply, hef]
  exact congrArg (efSpec (argsOf m c) f) (Fin.ext (by show 128 * (n.val / 128) + n.val % 128 = n.val; omega))

-- Word k of edge e (k = 0 its source, k = 1 its destination) is row k of the index array.
theorem word_apply (k : Fin 2) (off : Fin 2 → ℕ) (hoff : off = ![k.val, 0]) (hs : S2x3072000.Slices off S1x3072000)
    (X : S3072000.Idx → BitVec 32) (h : X = shapeCast S3072000 (extractStridedSlice S1x3072000 off
      (W2 m c main_arg3 : S2x3072000.Idx → BitVec 32) hs) shapeCasts_S1x3072000_S3072000) (e : Fin 3072000) :
    X (ix1 e) = (argsOf m c).eIdx (ix2 k e) := by
  subst hoff h
  rw [shapeCast_1a_a_apply]
  exact (slice2_axis0_apply k.val _ _ (0 : Fin 1) e k rfl).trans (congrFun (kept2 m c main_arg3) (ix2 k e))

theorem src_apply (e : Fin 3072000) :
    (W3 m c main_v37 : S3072000.Idx → BitVec 32) (ix1 e) = Cert.Spec.srcW (argsOf m c) e :=
  word_apply m c 0 ![0, 0] rfl slices_S2x3072000_S1x3072000_0_0 _ (src_term (W2 m c)) e

theorem dst_apply (e : Fin 3072000) :
    (W3 m c main_v39 : S3072000.Idx → BitVec 32) (ix1 e) = Cert.Spec.dstW (argsOf m c) e :=
  word_apply m c 1 ![1, 0] rfl slices_S2x3072000_S1x3072000_1_0 _ (dst_term (W2 m c)) e

variable (hr : InRange (argsOf m c))
  (hef : ∀ (j : Fin 2) (R : Fin 8000) (l : Fin 128), (W2 m c main_v32_1 : S2x8000x128.Idx → EReal) (ix3 j R l) = efSpec (argsOf m c) j (nodeRL R l))

include hr hef in
theorem src_take (f : Fin 2) (e : Fin 3072000) :
    (W5 m c main_v40 : S2x3072000.Idx → EReal) (ix2 f e)
      = efSpec (argsOf m c) f (Cert.Spec.srcN (argsOf m c) e) := by
  have h5 : (W5 m c main_v40 : S2x3072000.Idx → EReal) = W4 m c main_v40 :=
    StableHlo.after_of_writes_sub hostOps1_2 _ hostOps1_2_writes (by decide)
  have h4 : (W4 m c main_v40 : S2x3072000.Idx → EReal) = _ := take0_term (W3 m c)
  rw [h5, h4, takeT_apply _ _ (fun e' => by rw [src_apply]; exact hr 0 e') f e, table_apply m c hef, src_apply]
  rfl

include hr hef in
theorem dst_take (f : Fin 2) (e : Fin 3072000) :
    (W5 m c main_v41 : S2x3072000.Idx → EReal) (ix2 f e)
      = efSpec (argsOf m c) f (Cert.Spec.dstN (argsOf m c) e) := by
  have h5 : (W5 m c main_v41 : S2x3072000.Idx → EReal) = _ := take1_term (W4 m c)
  have h35 : (W4 m c main_v35 : S2x1024000.Idx → EReal) = W3 m c main_v35 :=
    StableHlo.after_of_writes_sub hostOps1_1 _ hostOps1_1_writes (by decide)
  have h39 : (W4 m c main_v39 : S3072000.Idx → BitVec 32) = W3 m c main_v39 :=
    StableHlo.after_of_writes_sub hostOps1_1 _ hostOps1_1_writes (by decide)
  rw [h5, h35, h39, takeT_apply _ _ (fun e' => by rw [dst_apply]; exact hr 1 e') f e, table_apply m c hef, dst_apply]
  rfl

end Memory

end Cert.KernelIdeal.Val.EdgeIn

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fold

variable (m : (ℓ : Loc nD τ sig) → Buf (Elt Ideal) ℓ) (c : Dev nD)

theorem xy_eq (hr : InRange (argsOf m c))
    (hef : ∀ (j : Fin 2) (R : Fin 8000) (l : Fin 128), (W2 m c main_v32_1 : S2x8000x128.Idx → EReal) (ix3 j R l) = efSpec (argsOf m c) j (nodeRL R l))
    (j : Fin 4) (R : Fin 24000) (l : Fin 128) :
    (W6 m c main_v43 : S4x24000x128.Idx → EReal) (ix3 j R l) = xySpec (argsOf m c) j (edgeRL R l) := by
  have h : (W6 m c main_v43 : S4x24000x128.Idx → EReal) = _ := EdgeIn.xy_term (W5 m c)
  rw [h, EdgeIn.edgeRows_apply]
  match j with
  | ⟨0, _⟩ => exact (((EdgeIn.stack_lo _ _ 0 _).trans (EdgeIn.src_take m c hr hef 0 _)).trans (EdgeIn.ef_row0 _ _)).trans (EdgeIn.xy_row0 _ _).symm
  | ⟨1, _⟩ => exact (((EdgeIn.stack_lo _ _ 1 _).trans (EdgeIn.src_take m c hr hef 1 _)).trans (EdgeIn.ef_row1 _ _)).trans (EdgeIn.xy_row1 _ _).symm
  | ⟨2, _⟩ => exact (((EdgeIn.stack_hi _ _ 0 _).trans (EdgeIn.dst_take m c hr hef 0 _)).trans (EdgeIn.ef_row0 _ _)).trans (EdgeIn.xy_row2 _ _).symm
  | ⟨3, _⟩ => exact (((EdgeIn.stack_hi _ _ 1 _).trans (EdgeIn.dst_take m c hr hef 1 _)).trans (EdgeIn.ef_row1 _ _)).trans (EdgeIn.xy_row3 _ _).symm

theorem ea_eq (j : Fin 4) (R : Fin 24000) (l : Fin 128) :
    (W6 m c main_v45 : S4x24000x128.Idx → EReal) (ix3 j R l) = (argsOf m c).eAttr (ix2 (edgeRL R l) j) := by
  have h : (W6 m c main_v45 : S4x24000x128.Idx → EReal) = _ := EdgeIn.ea_term (W5 m c)
  rw [h, EdgeIn.edgeRows_apply]
  exact (transpose_ix2_apply _ _ j (edgeRL R l)).trans
    (congrFun (EdgeIn.kept5 m c main_arg4) _)

theorem em_eq (j : Fin 4) :
    (W6 m c main_v46 : S4x1x1.Idx → EReal) (ix3 j 0 0) = (argsOf m c).eMean (ix1 j) := by
  have h : (W6 m c main_v46 : S4x1x1.Idx → EReal) = _ := EdgeIn.em_term (W5 m c)
  rw [h]
  exact (EdgeIn.unitCast_apply _ j).trans
    (congrFun (EdgeIn.kept5 m c main_arg9) (ix1 j))

theorem es_eq (j : Fin 4) :
    (W6 m c main_v47 : S4x1x1.Idx → EReal) (ix3 j 0 0) = (argsOf m c).eStd (ix1 j) := by
  have h : (W6 m c main_v47 : S4x1x1.Idx → EReal) = _ := EdgeIn.es_term (W5 m c)
  rw [h]
  exact (EdgeIn.unitCast_apply _ j).trans
    (congrFun (EdgeIn.kept5 m c main_arg10) (ix1 j))

end Cert.KernelIdeal.Val

end
-- ==== Proof.ValEdgeBlocks.lean ====
import proofs.«431324_j10900626998069_3_alg».proof.Proof.Fold
import proofs.«431324_j10900626998069_3_alg».proof.Proof.ValArgs
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fold

variable (m : (ℓ : Loc nD τ sig) → Buf (Elt Ideal) ℓ) (c : Dev nD)

-- P (j = 0) and Q (j = 1) of one edge: x = (e_i, f_i, e_j, f_j), y = (Gs, Bs, Gm, Bm).
def msgOf (j : Fin 2) (x y : Fin 4 → EReal) : EReal :=
  if j.val = 0 then -(x 0 * (y 0 * x 0 - y 1 * x 1 + y 2 * x 2 - y 3 * x 3) + x 1 * (y 0 * x 1 + y 1 * x 0 + y 2 * x 3 + y 3 * x 2))
  else -(x 1 * (y 0 * x 0 - y 1 * x 1 + y 2 * x 2 - y 3 * x 3) - x 0 * (y 0 * x 1 + y 1 * x 0 + y 2 * x 3 + y 3 * x 2))

theorem slice_row {α : Type} (k : ℕ) (hk : k < 4) (x : S4x600x128.Idx → α) (h : S4x600x128.Slices ![k, 0, 0] S1x600x128)
    (r : Fin 600) (l : Fin 128) : extractStridedSlice S1x600x128 ![k, 0, 0] x h (ix3 0 r l) = x (ix3 ⟨k, hk⟩ r l) :=
  extractStridedSlice_apply _ x h _ _ fun a => match a with
    | ⟨0, _⟩ => rfl
    | ⟨1, _⟩ => (Nat.zero_add _).symm
    | ⟨2, _⟩ => (Nat.zero_add _).symm

theorem bcast_col (v : S4x1x1.Idx → EReal) (k : Fin 4) (r : Fin 600) (l : Fin 128) :
    broadcastTo S4x600x128 v broadcasts_S4x1x1_S4x600x128 (ix3 k r l) = v (ix3 k 0 0) :=
  broadcastTo_apply v _ (ix3 k r l) (ix3 k 0 0) fun a => match a with
    | ⟨0, _⟩ => rfl
    | ⟨1, _⟩ => rfl
    | ⟨2, _⟩ => rfl

theorem pay_eq (xy ea : Vec Ideal S4x600x128 .f32) (em es : Vec Ideal S4x1x1 .f32) (j : Fin 2) (r : Fin 600) (l : Fin 128) :
    (k1_pay1 xy ea em es : S2x600x128.Idx → EReal) (ix3 j r l)
      = msgOf j (fun k => xy (ix3 k r l)) fun k => ea (ix3 k r l) * es (ix3 k 0 0) + em (ix3 k 0 0) := by
  unfold k1_pay1
  simp only [shapeCast_self]
  refine (match j with
    | ⟨0, _⟩ => (concatenate_pair_apply_left (t := S2x600x128) (s₁ := S1x600x128) (s₂ := S1x600x128) (0 : Fin 3) _ _ _ (ix3 (0 : Fin 2) r l) rfl
        (ix3 (0 : Fin 1) r l) (fun b => by match b with | ⟨0, _⟩ => rfl | ⟨1, _⟩ => rfl | ⟨2, _⟩ => rfl)).trans ?_
    | ⟨1, _⟩ => (concatenate_pair_apply_right (t := S2x600x128) (s₁ := S1x600x128) (s₂ := S1x600x128) (0 : Fin 3) _ _ _ (ix3 (1 : Fin 2) r l) rfl rfl
        (ix3 (0 : Fin 1) r l) (fun b hb => by match b with | ⟨0, _⟩ => exact absurd rfl hb | ⟨1, _⟩ => rfl | ⟨2, _⟩ => rfl) rfl).trans ?_) <;>
  · simp (disch := decide) only [subf_apply, addf_apply, mulf_apply, broadcast_apply, slice_row, bcast_col]
    show (Ideal.ofBits .f32 0x00000000#32 : EReal) - _ = _
    rw [Ideal.ofBits_zero_f32, zero_sub]
    rfl

theorem idx_facts : ∀ (t : Fin cfg1.N) (a : Fin 3),
    win1_0.index t a = ![0, t.val, 0] a ∧ win1_1.index t a = ![0, t.val, 0] a ∧ win1_2.index t a = 0
      ∧ win1_3.index t a = 0 ∧ win1_4.index t a = ![0, t.val, 0] a :=
  (by decide +kernel : ∀ t : Fin grid1.N, _)

theorem rowIdx {n : ℕ} (k : Fin n) (t : ℕ) (r : Fin 600) (l : Fin 128) (R : Fin 24000) (hR : R.val = 600 * t + r.val) :
    ∀ a : Fin 3, ![0, t, 0] a * ![n, 600, 128] a + ((ix3 k r l : (⟨3, ![n, 600, 128]⟩ : Shape).Idx) a).val
      = ((ix3 k R l : (⟨3, ![n, 24000, 128]⟩ : Shape).Idx) a).val
  | ⟨0, _⟩ => by show 0 * n + k.val = k.val; omega
  | ⟨1, _⟩ => by show t * 600 + r.val = R.val; omega
  | ⟨2, _⟩ => by show 0 * 128 + l.val = l.val; omega

section Blocks
variable (V : (c : Dev nD) → (b : Ref sig .tc) → Buf (Elt Ideal) ((c : Thread nD τ).loc b))
  (t : Fin cfg1.N) (k : Fin 4) (r : Fin 600) (l : Fin 128) (R : Fin 24000) (hR : R.val = 600 * t.val + r.val)

include hR in
theorem iblk0_apply :
    (Edge.iblk V c 0 t : S4x600x128.Idx → EReal) (ix3 k r l) = (V c main_v43 : S4x24000x128.Idx → EReal) (ix3 k R l) := by
  unfold Edge.iblk
  rw [View.read_apply]
  exact congrArg (V c main_v43 : S4x24000x128.Idx → EReal) (funext fun a => Fin.ext
    ((win1_0.rect_emb_val t _ a).trans (by rw [(idx_facts t a).1]; exact rowIdx k t.val r l R hR a)))

include hR in
theorem iblk1_apply :
    (Edge.iblk V c 1 t : S4x600x128.Idx → EReal) (ix3 k r l) = (V c main_v45 : S4x24000x128.Idx → EReal) (ix3 k R l) := by
  unfold Edge.iblk
  rw [View.read_apply]
  exact congrArg (V c main_v45 : S4x24000x128.Idx → EReal) (funext fun a => Fin.ext
    ((win1_1.rect_emb_val t _ a).trans (by rw [(idx_facts t a).2.1]; exact rowIdx k t.val r l R hR a)))

theorem iblk2_apply :
    (Edge.iblk V c 2 t : S4x1x1.Idx → EReal) (ix3 k 0 0) = (V c main_v46 : S4x1x1.Idx → EReal) (ix3 k 0 0) := by
  unfold Edge.iblk
  rw [View.read_apply]
  exact congrArg (V c main_v46 : S4x1x1.Idx → EReal) (funext fun a => Fin.ext
    (win1_2.rect_emb_val_of_index_zero t a (idx_facts t a).2.2.1 _))

theorem iblk3_apply :
    (Edge.iblk V c 3 t : S4x1x1.Idx → EReal) (ix3 k 0 0) = (V c main_v47 : S4x1x1.Idx → EReal) (ix3 k 0 0) := by
  unfold Edge.iblk
  rw [View.read_apply]
  exact congrArg (V c main_v47 : S4x1x1.Idx → EReal) (funext fun a => Fin.ext
    (win1_3.rect_emb_val_of_index_zero t a (idx_facts t a).2.2.2.1 _))

include hR in
theorem emb4 (j : Fin 2) :
    ((cfg1.win 4).blk t).view.emb (ix3 j r l : S2x600x128.Idx) = (ix3 j R l : S2x24000x128.Idx) :=
  funext fun a => Fin.ext
    ((win1_4.rect_emb_val t _ a).trans (by rw [(idx_facts t a).2.2.2.2]; exact rowIdx j t.val r l R hR a))

end Blocks

theorem msg_eq
    (hxy : ∀ (j : Fin 4) (R : Fin 24000) (l : Fin 128), (W6 m c main_v43 : S4x24000x128.Idx → EReal) (ix3 j R l) = xySpec (argsOf m c) j (edgeRL R l))
    (hea : ∀ (j : Fin 4) (R : Fin 24000) (l : Fin 128), (W6 m c main_v45 : S4x24000x128.Idx → EReal) (ix3 j R l) = (argsOf m c).eAttr (ix2 (edgeRL R l) j))
    (hem : ∀ j : Fin 4, (W6 m c main_v46 : S4x1x1.Idx → EReal) (ix3 j 0 0) = (argsOf m c).eMean (ix1 j))
    (hes : ∀ j : Fin 4, (W6 m c main_v47 : S4x1x1.Idx → EReal) (ix3 j 0 0) = (argsOf m c).eStd (ix1 j))
    (j : Fin 2) (R : Fin 24000) (l : Fin 128) :
    (W7 m c main_v48 : S2x24000x128.Idx → EReal) (ix3 j R l) = msgSpec (argsOf m c) j (edgeRL R l) := by
  have hG : ∀ t, (cfg1.win 4).flush t = true → (Edge.dat (V6 m) c).flushed 4 t = ((cfg1.win 4).blk t).view.read (Elt Ideal)
      (fun i => msgSpec (argsOf m c) (i 0) (edgeRL (i 1) (i 2)) : S2x24000x128.Idx → EReal) := fun t _ => by
    show (cfg1.win 4).cut (grid1.coords t) ((Edge.dat (V6 m) c).after 4 t) = _
    rw [Edge.after_4]
    refine funext fun (y : S2x600x128.Idx) => ?_
    obtain ⟨j, r, l, rfl⟩ : ∃ j r l, y = ix3 j r l := ⟨_, _, _, eq_ix3 y⟩
    obtain ⟨R, hR⟩ : ∃ R : Fin 24000, R.val = 600 * t.val + r.val :=
      ⟨⟨600 * t.val + r.val, by have := lt_of_lt_of_eq t.isLt N_1; have := r.isLt; omega⟩, rfl⟩
    show (k1_pay1 (Edge.iblk (V6 m) c 0 t) (Edge.iblk (V6 m) c 1 t) (Edge.iblk (V6 m) c 2 t) (Edge.iblk (V6 m) c 3 t) : S2x600x128.Idx → EReal) (ix3 j r l)
      = (fun i => msgSpec (argsOf m c) (i 0) (edgeRL (i 1) (i 2)) : S2x24000x128.Idx → EReal) (((cfg1.win 4).blk t).view.emb (ix3 j r l : S2x600x128.Idx))
    rw [emb4 t r l R hR, pay_eq]
    simp only [iblk0_apply c (V6 m) t _ r l R hR, iblk1_apply c (V6 m) t _ r l R hR, iblk2_apply c (V6 m) t, iblk3_apply c (V6 m) t, hxy, hea, hem, hes]
    rfl
  obtain ⟨t, ht⟩ : ∃ t : Fin cfg1.N, t.val = R.val / 600 := ⟨⟨R.val / 600, by rw [show cfg1.N = 40 from N_1]; have := R.isLt; omega⟩, rfl⟩
  obtain ⟨r, hr⟩ : ∃ r : Fin 600, r.val = R.val % 600 := ⟨⟨R.val % 600, Nat.mod_lt _ (by norm_num)⟩, rfl⟩
  exact (congrFun (W7_arr m c 4) _).trans ((Edge.dat (V6 m) c).arrAt_apply_of_mem 4 _ hG cfg1.N t _ t.isLt (flush1_4 t)
    (by rw [← emb4 t r l R (by omega) j]; exact View.emb_mem_set _ _))

end Cert.KernelIdeal.Val

end
-- ==== Proof.ValBalanceIn.lean ====
import proofs.«431324_j10900626998069_3_alg».proof.Proof.Fold
import proofs.«431324_j10900626998069_3_alg».proof.Proof.ValArgs
import proofs.«431324_j10900626998069_3_alg».proof.Proof.Gen.KernelIdeal.Regions
import Idealize.ShloMosaic.Lib.StableHlo.Run
import Idealize.ShloMosaic.Lib.Pipeline.Value
import Idealize.ShloMosaic.Lib.ValueLayout
import Idealize.ShloMosaic.Lib.ValueIdx
import Idealize.ShloMosaic.Lib.IdealHost

set_option maxRecDepth 16384

noncomputable section

namespace Cert.KernelIdeal.Val.BalanceIn

open Idealize.ShloMosaic Idealize.ShloMosaic.TcCoe Idealize.ShloMosaic.ValueIdx
open Idealize.SL Idealize.SL.Sem
open Cert.KernelIdeal Cert.KernelIdeal.Gen Cert.KernelIdeal.Fold
open Cert.KernelIdeal.Val

variable (m : (ℓ : Loc nD τ sig) → Buf (Elt Ideal) ℓ) (c : Dev nD)

def zerosK : S1024000x2.Idx → EReal :=
  broadcastInDim S1024000x2 ![] bcast_S_S1024000x2 (constant (F := Ideal) S_ .f32 0x00000000#32)
def colK : IVec S3072000x1 32 :=
  broadcastInDim S3072000x1 ![0] bcast_S3072000_S3072000x1_0 (W7 m c main_v37 : IVec S3072000 32)
def msg2K : S3072000x2.Idx → EReal :=
  transpose S3072000x2 [1, 0] (shapeCast S2x3072000 (W7 m c main_v48 : S2x24000x128.Idx → EReal) shapeCasts_S2x24000x128_S2x3072000) transposes_S2x3072000_S3072000x2_1_0
def aggK : S1024000x2.Idx → EReal :=
  Host.scatterAdd (F := Ideal) (φ := .f32) scatter_S1024000x2_S3072000x1_S3072000x2_1_0_0_1 zerosK (colK m c) (msg2K m c)

def aggRow (off : Fin 2 → ℕ) (h : S1024000x2.Slices off S1024000x1) : S1x1024000.Idx → EReal :=
  broadcastInDim S1x1024000 ![1] bcast_S1024000_S1x1024000_1
    (shapeCast S1024000 (extractStridedSlice S1024000x1 off (aggK m c) h) shapeCasts_S1024000x1_S1024000)

def tileRow (v : S2000.Idx → EReal) : S1x1024000.Idx → EReal :=
  broadcastInDim S1x1024000 ![1] bcast_S1024000_S1x1024000_1
    (shapeCast S1024000 (broadcastInDim S512x2000 ![0, 1] bcast_S1x2000_S512x2000_0_1 (shapeCast S1x2000 v shapeCasts_S2000_S1x2000)) shapeCasts_S512x2000_S1024000)

def shuntCol (off : Fin 2 → ℕ) (h : S2000x2.Slices off S2000x1) : S2000.Idx → EReal :=
  shapeCast S2000 (extractStridedSlice S2000x1 off (W7 m c main_arg12 : S2000x2.Idx → EReal) h) shapeCasts_S2000x1_S2000

def maskVec : S2000.Idx → EReal := uitofp (F := Ideal) .f32 (W7 m c main_arg11 : IVec S2000 1)

abbrev rows5 (r0 r1 r2 r3 r4 : S1x1024000.Idx → EReal) : S5x1024000.Idx → EReal :=
  concatenate S5x1024000 0
    [⟨S1x1024000, r0⟩, ⟨S1x1024000, r1⟩, ⟨S1x1024000, r2⟩, ⟨S1x1024000, r3⟩, ⟨S1x1024000, r4⟩]
    concatenates_S1x1024000_S1x1024000_S1x1024000_S1x1024000_S1x1024000_S5x1024000_d0

theorem v77_result (G : Valuation τ sig (Elt Ideal)) (hxs hy) :
    (StableHlo.nary (τ := τ) ![main_v72, main_v73, main_v74, main_v75, main_v76] main_v77
      (fun u => rows5 (u 0) (u 1) (u 2) (u 3) (u 4)) hxs hy).result G (no_index (Proc.devRef .tc main_v77))
      = rows5 (G (Proc.devRef .tc main_v72)) (G (Proc.devRef .tc main_v73)) (G (Proc.devRef .tc main_v74))
          (G (Proc.devRef .tc main_v75)) (G (Proc.devRef .tc main_v76)) :=
  StableHlo.nary_result _ _ _ hxs hy G

theorem rows_eq :
    W8 m c main_v72 = aggRow m c ![0, 0] slices_S1024000x2_S1024000x1_0_0 ∧
    W8 m c main_v73 = aggRow m c ![0, 1] slices_S1024000x2_S1024000x1_0_1 ∧
    W8 m c main_v74 = tileRow (shuntCol m c ![0, 0] slices_S2000x2_S2000x1_0_0) ∧
    W8 m c main_v75 = tileRow (shuntCol m c ![0, 1] slices_S2000x2_S2000x1_0_1) ∧
    W8 m c main_v76 = tileRow (maskVec m c) := by
  dsimp only [W8]
  refine ⟨?_, ?_, ?_, ?_, ?_⟩ <;> (after_results_simp; rfl)

-- The stacked input of the balance stage: five one-row matrices, concatenated and reshaped.
theorem e78 : (W8 m c main_v78 : S5x8000x128.Idx → EReal) =
    shapeCast S5x8000x128 (rows5 (W8 m c main_v72) (W8 m c main_v73) (W8 m c main_v74) (W8 m c main_v75) (W8 m c main_v76))
      shapeCasts_S5x1024000_S5x8000x128 := by
  dsimp only [W8]
  simp (disch := decide) only [StableHlo.after_cons, StableHlo.after_nil, StableHlo.reshape_result', v77_result,
    StableHlo.reshape_result_ne', StableHlo.nary_result_ne']
  rfl

-- A buffer that none of the operations of a stretch of the program writes holds after it what it held before.
theorem kept73 (r : Ref sig .tc) (h7 : ∀ w, Pipeline.arrRef spec1 w ≠ r := by decide) (h6 : r ∉ hostOps1_3_W := by decide)
    (h5 : r ∉ hostOps1_2_W := by decide) (h4 : r ∉ hostOps1_1_W := by decide) : W7 m c r = W3 m c r :=
  (W7_of_ne m c r h7).trans <| (StableHlo.after_of_writes_sub _ _ hostOps1_3_writes h6).trans <|
    (StableHlo.after_of_writes_sub _ _ hostOps1_2_writes h5).trans (StableHlo.after_of_writes_sub _ _ hostOps1_1_writes h4)

theorem kept32 (r : Ref sig .tc) (h : r ∉ hostOps1_W := by decide) : W3 m c r = W2 m c r :=
  StableHlo.after_of_writes_sub _ _ hostOps1_writes h

theorem kept20 (r : Ref sig .tc) (h2 : ∀ w, Pipeline.arrRef spec0 w ≠ r := by decide) (h1 : r ∉ hostOps0_W := by decide) :
    W2 m c r = W0 m c r :=
  (W2_of_ne m c r h2).trans (StableHlo.after_of_writes_sub _ _ hostOps0_writes h1)

theorem shunt_kept : (W7 m c main_arg12 : S2000x2.Idx → EReal) = (argsOf m c).shunt :=
  (kept73 m c main_arg12).trans ((kept32 m c main_arg12).trans (kept20 m c main_arg12))

theorem mask_bits_kept : (W7 m c main_arg11 : IVec S2000 1) = (argsOf m c).mask :=
  (kept73 m c main_arg11).trans ((kept32 m c main_arg11).trans (kept20 m c main_arg11))

-- The source words are row 0 of the edge-index array, cut out and flattened before the edge stage.
theorem src_words (e : Fin 3072000) :
    (W7 m c main_v37 : IVec S3072000 32) (ix1 e) = (argsOf m c).eIdx (ix2 0 e) := by
  have e3 : (W3 m c main_v37 : IVec S3072000 32)
      = shapeCast S3072000 (extractStridedSlice S1x3072000 ![0, 0] (W2 m c main_arg3 : IVec S2x3072000 32) slices_S2x3072000_S1x3072000_0_0)
          shapeCasts_S1x3072000_S3072000 := by
    dsimp only [W3]; after_results; rfl
  rw [kept73 m c main_v37, e3, kept20 m c main_arg3]
  exact (shapeCast_1a_a_apply _ _ e).trans (slice2_axis0_apply 0 _ _ 0 e 0 rfl)

-- Column o of an [a, 2] array, flattened to a vector.
theorem col_apply {a : ℕ} (X : (⟨2, ![a, 2]⟩ : Shape).Idx → EReal) (o : ℕ) (h : (⟨2, ![a, 2]⟩ : Shape).Slices ![0, o] ⟨2, ![a, 1]⟩)
    (hc : (⟨2, ![a, 1]⟩ : Shape).ShapeCasts ⟨1, ![a]⟩) (i : Fin a) (k : Fin 2) (hk : k.val = o) :
    shapeCast ⟨1, ![a]⟩ (extractStridedSlice ⟨2, ![a, 1]⟩ ![0, o] X h) hc (ix1 i) = X (ix2 i k) := by
  refine (shapeCast_apply _ _ _ (ix2 i (0 : Fin 1)) ?_).trans (slice2_axis1_apply o _ h i 0 k (by rw [hk]; rfl))
  rw [Shape.rowMajor_val_two, Shape.rowMajor_val_one]
  show i.val * 1 + 0 = i.val
  omega

theorem row_apply (v : S1024000.Idx → EReal) (n : Fin 1024000) :
    broadcastInDim S1x1024000 ![1] bcast_S1024000_S1x1024000_1 v (ix2 0 n) = v (ix1 n) :=
  broadcastInDim_apply _ _ _ _ (ix1 n) fun a => match a with | ⟨0, _⟩ => rfl

theorem aggRow_apply (o : ℕ) (h : S1024000x2.Slices ![0, o] S1024000x1) (n : Fin 1024000) (k : Fin 2) (hk : k.val = o) :
    aggRow m c ![0, o] h (ix2 0 n) = aggK m c (ix2 n k) :=
  (row_apply _ n).trans (col_apply _ o h _ n k hk)

-- Entry n of a bus vector tiled over the batches is the entry of n's bus: n = 2000 · (n / 2000) + n % 2000.
theorem tileRow_apply (v : S2000.Idx → EReal) (n : Fin 1024000) :
    tileRow v (ix2 0 n) = v (ix1 (Cert.Spec.bus n)) := by
  refine (row_apply _ n).trans ((shapeCast_apply _ _ _ (ix2 (Cert.Spec.bat n) (Cert.Spec.bus n)) ?_).trans ?_)
  · rw [Shape.rowMajor_val_two, Shape.rowMajor_val_one]
    show n.val / 2000 * 2000 + n.val % 2000 = n.val
    omega
  refine (broadcastInDim_apply _ _ _ _ (ix2 (0 : Fin 1) (Cert.Spec.bus n)) ?_).trans (shapeCast_a_1a_apply _ _ 0 _)
  intro a; match a with | ⟨0, _⟩ => rfl | ⟨1, _⟩ => rfl

theorem shuntCol_apply (o : ℕ) (h : S2000x2.Slices ![0, o] S2000x1) (b : Fin 2000) (k : Fin 2) (hk : k.val = o) :
    shuntCol m c ![0, o] h (ix1 b) = (argsOf m c).shunt (ix2 b k) :=
  (col_apply _ o h _ b k hk).trans (congrFun (shunt_kept m c) _)

theorem maskVec_apply (b : Fin 2000) :
    maskVec m c (ix1 b) = ((((argsOf m c).mask (ix1 b)).toNat : ℝ) : EReal) := by
  unfold maskVec
  rw [mask_bits_kept]
  rfl

theorem zerosK_eq : zerosK = Cert.Spec.zeros := by
  funext j
  unfold zerosK Cert.Spec.zeros
  rw [broadcastInDim_scalar_apply, constant_apply]

theorem colK_eq : colK m c = Cert.Spec.srcCol (argsOf m c) := by
  funext j
  rw [eq_ix2 j]
  exact (broadcastInDim_apply _ _ _ _ (ix1 (j 0)) fun a => match a with | ⟨0, _⟩ => rfl).trans (src_words m c (j 0))

variable (hmsg : ∀ (j : Fin 2) (R : Fin 24000) (l : Fin 128),
  (W7 m c main_v48 : S2x24000x128.Idx → EReal) (ix3 j R l) = msgSpec (argsOf m c) j (edgeRL R l))

include hmsg in
-- Edge e sits at row e / 128, lane e % 128 of the message rows.
theorem msg2K_eq : msg2K m c = Cert.Spec.msgArr (argsOf m c) := by
  funext j
  obtain ⟨e, f, rfl⟩ : ∃ (e : Fin 3072000) (f : Fin 2), j = ix2 e f := ⟨j 0, j 1, eq_ix2 j⟩
  have hR : e.val / 128 < 24000 := by have := e.isLt; omega
  have hl : e.val % 128 < 128 := Nat.mod_lt _ (by norm_num)
  refine (transpose_ix2_apply _ _ _ _).trans ((shapeCast_apply _ _ _ (ix3 f (⟨e.val / 128, hR⟩ : Fin 24000) (⟨e.val % 128, hl⟩ : Fin 128)) ?_).trans ?_)
  · rw [Shape.rowMajor_val_three, Shape.rowMajor_val_two]
    show (f.val * 24000 + e.val / 128) * 128 + e.val % 128 = f.val * 3072000 + e.val
    omega
  rw [hmsg, show edgeRL (⟨e.val / 128, hR⟩ : Fin 24000) (⟨e.val % 128, hl⟩ : Fin 128) = e from
    Fin.ext (by show 128 * (e.val / 128) + e.val % 128 = e.val; omega)]
  rfl

include hmsg in
-- The scatter-add is applied to the specification's three operands, so it is never opened.
theorem aggK_eq : aggK m c = Cert.Spec.agg (argsOf m c) scK := by
  unfold aggK Cert.Spec.agg
  rw [zerosK_eq, colK_eq, msg2K_eq m c hmsg]
  rfl

-- Five one-row matrices laid as the rows of a [5, N] matrix: the entry at (j, n) is row j's at (0, n).
theorem rows5_apply (r0 r1 r2 r3 r4 : S1x1024000.Idx → EReal) (n : Fin 1024000) (P : Fin 5 → EReal)
    (h0 : r0 (ix2 0 n) = P 0) (h1 : r1 (ix2 0 n) = P 1) (h2 : r2 (ix2 0 n) = P 2) (h3 : r3 (ix2 0 n) = P 3)
    (h4 : r4 (ix2 0 n) = P 4) (j : Fin 5) :
    rows5 r0 r1 r2 r3 r4 (ix2 j n) = P j := by
  refine (concatenate_ofFn_unit_apply (t := S5x1024000) (s₁ := S1x1024000) 0 ![r0, r1, r2, r3, r4]
    concatenates_S1x1024000_S1x1024000_S1x1024000_S1x1024000_S1x1024000_S5x1024000_d0 rfl rfl (ix2 j n) j rfl (ix2 0 n)
    (fun b hb => match b, hb with
      | ⟨0, _⟩, hb => absurd rfl hb
      | ⟨1, _⟩, _ => rfl)).trans ?_
  match j with
  | ⟨0, _⟩ => exact h0
  | ⟨1, _⟩ => exact h1
  | ⟨2, _⟩ => exact h2
  | ⟨3, _⟩ => exact h3
  | ⟨4, _⟩ => exact h4

end Cert.KernelIdeal.Val.BalanceIn

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fold
open Cert.KernelIdeal.Val.BalanceIn

variable (m : (ℓ : Loc nD τ sig) → Buf (Elt Ideal) ℓ) (c : Dev nD)

-- Row j of the stacked input at row R, lane l is the j-th of the five rows at node 128 · R + l.
theorem cin_eq
    (hmsg : ∀ (j : Fin 2) (R : Fin 24000) (l : Fin 128), (W7 m c main_v48 : S2x24000x128.Idx → EReal) (ix3 j R l) = msgSpec (argsOf m c) j (edgeRL R l))
    (j : Fin 5) (R : Fin 8000) (l : Fin 128) :
    (W8 m c main_v78 : S5x8000x128.Idx → EReal) (ix3 j R l) = cinSpec (argsOf m c) scK j (nodeRL R l) := by
  obtain ⟨h2, h3, h4, h5, h6⟩ := rows_eq m c
  rw [e78 m c]
  refine (shapeCast_apply _ _ _ (ix2 j (nodeRL R l)) ?_).trans
    (rows5_apply _ _ _ _ _ _ (cinSpec (argsOf m c) scK · (nodeRL R l)) ?_ ?_ ?_ ?_ ?_ j)
  · rw [Shape.rowMajor_val_two, Shape.rowMajor_val_three]
    show j.val * 1024000 + (128 * R.val + l.val) = (j.val * 8000 + R.val) * 128 + l.val
    omega
  · exact (congrFun h2 _).trans ((aggRow_apply m c 0 _ _ 0 rfl).trans (congrFun (aggK_eq m c hmsg) _))
  · exact (congrFun h3 _).trans ((aggRow_apply m c 1 _ _ 1 rfl).trans (congrFun (aggK_eq m c hmsg) _))
  · exact (congrFun h4 _).trans ((tileRow_apply _ _).trans (shuntCol_apply m c 0 _ _ 0 rfl))
  · exact (congrFun h5 _).trans ((tileRow_apply _ _).trans (shuntCol_apply m c 1 _ _ 1 rfl))
  · exact (congrFun h6 _).trans ((tileRow_apply _ _).trans (maskVec_apply m c _))

theorem phys_kept : W8 m c main_v32_0 = W2 m c main_v32_0 :=
  (StableHlo.after_of_writes_sub hostOps2 _ hostOps2_writes (by decide)).trans
    ((kept73 m c main_v32_0).trans (kept32 m c main_v32_0))

end Cert.KernelIdeal.Val

end
-- ==== Proof.ValBalanceSum.lean ====
import proofs.«431324_j10900626998069_3_alg».proof.Proof.Fold
import proofs.«431324_j10900626998069_3_alg».proof.Proof.ValArgs
import Idealize.ShloMosaic.Lib.Pipeline.Value
import Idealize.ShloMosaic.PureOps.Ideal.Laws

set_option maxRecDepth 16384

noncomputable section

namespace Cert.KernelIdeal.Val.BalanceSum

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fold

-- Summing the rows of a [1, 800, 128] block and then the lanes gives, at the one index left, the double sum.
theorem twoSum (v : FVec Ideal S1x800x128 .f32) (h1 : S1x800x128.Reduces [1] S1x128) (h2 : S1x1x128.Reduces [2] S1x1)
    (hc : S1x128.ShapeCasts S1x1x128) (hφ : FKind.Formats .f32) (hacc : (0x00000000#32 : BitVec 32) = FKind.add.neutral .f32 hφ) :
    multiReduction .add [2] S1x1 (shapeCast S1x1x128 (multiReduction .add [1] S1x128 v 0x00000000#32 h1 hφ hacc) hc)
        0x00000000#32 h2 hφ hacc (ix2 0 0)
      = ∑ l : Fin 128, ∑ k : Fin 800, v (ix3 0 k l) := by
  refine (Ideal.multiReduction_add_single _ _ _ _ _ _).trans (Finset.sum_congr rfl fun l _ => ?_)
  refine (shapeCast_apply _ _ _ (ix2 0 l) ?_).trans ?_
  · rw [Shape.rowMajor_val_two, Shape.rowMajor_val_three]
    rfl
  refine (Ideal.multiReduction_add_single _ _ _ _ _ _).trans (Finset.sum_congr rfl fun k _ => congrArg v (funext fun a => ?_))
  match a with
  | ⟨0, _⟩ => rfl
  | ⟨1, _⟩ => rfl
  | ⟨2, _⟩ => rfl

-- Row o of n stacked [800, 128] rows, cut out as a [1, 800, 128] block.
theorem slice_row {n : ℕ} (x : (⟨3, ![n, 800, 128]⟩ : Shape).Idx → EReal) (o : ℕ) (ho : o < n)
    (h : (⟨3, ![n, 800, 128]⟩ : Shape).Slices ![o, 0, 0] S1x800x128) (k : Fin 800) (l : Fin 128) :
    extractStridedSlice S1x800x128 ![o, 0, 0] x h (ix3 0 k l) = x (ix3 ⟨o, ho⟩ k l) :=
  extractStridedSlice_apply _ x h _ _ fun a => match a with
    | ⟨0, _⟩ => (Nat.add_zero _).symm
    | ⟨1, _⟩ => (Nat.zero_add _).symm
    | ⟨2, _⟩ => (Nat.zero_add _).symm

def blkTerm (x : Vec Ideal S4x800x128 .f32) (r : Vec Ideal S5x800x128 .f32) (k : Fin 800) (l : Fin 128) : EReal :=
  ((-(r (ix3 0 k l)) + x (ix3 2 k l) + x (ix3 0 k l) * x (ix3 0 k l) * r (ix3 2 k l))
      * (-(r (ix3 0 k l)) + x (ix3 2 k l) + x (ix3 0 k l) * x (ix3 0 k l) * r (ix3 2 k l))
    + (-(r (ix3 1 k l)) + x (ix3 3 k l) - x (ix3 0 k l) * x (ix3 0 k l) * r (ix3 3 k l))
      * (-(r (ix3 1 k l)) + x (ix3 3 k l) - x (ix3 0 k l) * x (ix3 0 k l) * r (ix3 3 k l)))
    * r (ix3 4 k l)

-- A block's step adds to the running sum the block's double sum of masked squared residuals.
theorem pay2_apply (x : Vec Ideal S4x800x128 .f32) (r : Vec Ideal S5x800x128 .f32) (s : Vec Ideal S1x1 .f32) :
    k2_pay2 x r s (ix2 0 0) = s (ix2 0 0) + ∑ l : Fin 128, ∑ k : Fin 800, blkTerm x r k l := by
  unfold k2_pay2
  simp only [shapeCast_self]
  rw [addf_apply]
  congr 1
  refine (twoSum _ _ _ _ _ _).trans (Finset.sum_congr rfl fun l _ => Finset.sum_congr rfl fun k _ => ?_)
  simp (disch := decide) only [mulf_apply, addf_apply, subf_apply, broadcast_apply, slice_row, Ideal.ofBits_def,
    Ideal.ofBits_zero_f32, zero_sub]
  rfl

theorem pay1_apply : k2_pay1 (F := Ideal) (ix2 0 0) = 0 := by
  unfold k2_pay1
  simp only [shapeCast_self]
  exact Ideal.ofBits_zero_f32

-- (i, j) ↦ b · i + j is a bijection from Fin a × Fin b onto Fin (a · b).
theorem sum_mul {a b : ℕ} (g : Fin (a * b) → EReal) : ∑ n, g n = ∑ i : Fin a, ∑ j : Fin b, g (finProdFinEquiv (i, j)) := by
  rw [← Equiv.sum_comp finProdFinEquiv g, Fintype.sum_prod_type]

def rowTK (t : Fin 10) (k : Fin 800) : Fin 8000 := ⟨800 * t.val + k.val, by have := t.isLt; have := k.isLt; omega⟩

-- A sum over the nodes, regrouped by block, lane and row: node 128 · (800 · t + k) + l.
theorem sum_nodes (g : Fin 1024000 → EReal) :
    ∑ n, g n = ∑ t : Fin 10, ∑ l : Fin 128, ∑ k : Fin 800, g (nodeRL (rowTK t k) l) := by
  refine (sum_mul (a := 8000) (b := 128) g).trans ((sum_mul (a := 10) (b := 800) _).trans ?_)
  refine Finset.sum_congr rfl fun t _ => Finset.sum_comm.trans ?_
  refine Finset.sum_congr rfl fun l _ => Finset.sum_congr rfl fun k _ => congrArg g (Fin.ext ?_)
  show l.val + 128 * (k.val + 800 * t.val) = 128 * (800 * t.val + k.val) + l.val
  omega

section Stage

variable (V : (c : Dev nD) → (b : Ref sig .tc) → Buf (Elt Ideal) ((c : Thread nD τ).loc b)) (c : Dev nD)

abbrev xarr : S4x8000x128.Idx → EReal := V c (Pipeline.arrRef spec2 0)
abbrev rarr : S5x8000x128.Idx → EReal := V c (Pipeline.arrRef spec2 1)
abbrev xblk (t : Fin cfg2.N) : Vec Ideal S4x800x128 .f32 := Balance.iblk V c 0 t
abbrev rblk (t : Fin cfg2.N) : Vec Ideal S5x800x128 .f32 := Balance.iblk V c 1 t

abbrev bsResult : Buf (Elt Ideal) ((c : Thread nD τ).loc main_v79) :=
  Balance.accAt V c 9 (by rw [show cfg2.N = 10 from N_2]; decide)

theorem bs_flushed (t : Fin cfg2.N) (hf : (cfg2.win 2).flush t = true) :
    (Balance.dat V c).flushed 2 t = ((cfg2.win 2).blk t).view.read (Elt Ideal) (bsResult V c) := by
  have h9 : t.val = 9 := by have := (flush2_2 t).mp hf; have := t.isLt; have hN : cfg2.N = 10 := N_2; omega
  obtain rfl : t = t2_9 := Fin.ext h9
  have hz' : (fun a => win2_2.index t2_9 a * main_v79.ty.shape.size a) = fun _ => 0 := funext fun a => by fin_cases a <;> decide
  exact (Memref.read_access_unit_zero (Elt Ideal) main_v79 hz' (fun a => by rw [congrFun hz' a]; simp) (bsResult V c)).symm

-- The block at the last grid point covers the one-word array, so the array ends at the running sum after block 9.
theorem bs_final : (Balance.dat V c).arrAt 2 cfg2.N = bsResult V c :=
  (Balance.dat V c).arrAt_eq_of_cover 2 (bsResult V c) (bs_flushed V c) fun i =>
    ⟨t2_9, (flush2_2 t2_9).mpr rfl, by
      show i ∈ ((View.whole main_v79).slice (win2_2.rect t2_9)).set
      rw [View.set_slice_whole, Rect.mem_set_unit]
      exact fun a => (by decide +kernel : ∀ (a : Fin main_v79.ty.shape.rank) (x : Fin (main_v79.ty.shape.size a)),
        win2_2.index t2_9 a * win2_2.size a ≤ x.val ∧
          x.val < win2_2.index t2_9 a * win2_2.size a + win2_2.xsize (grid2.coords t2_9) a) a (i a)⟩

theorem bal_idx : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = t.val ∧ win2_1.index t (2 : Fin 3) = 0 :=
  (by decide +kernel : ∀ t : Fin grid2.N, _)

def blkNo (t : Fin cfg2.N) : Fin 10 := ⟨t.val, lt_of_lt_of_eq t.isLt N_2⟩

-- Block t's element (j, k, l) is the array's element (j, 800 · t + k, l).
theorem xblk_at (t : Fin cfg2.N) (j : Fin 4) (k : Fin 800) (l : Fin 128) :
    xblk V c t (ix3 j k l) = xarr V c (ix3 j (rowTK (blkNo t) k) l) := by
  obtain ⟨e0, e1, e2, -⟩ := bal_idx t
  refine (View.read_apply ..).trans (congrArg (V c (Pipeline.arrRef spec2 0)) (funext fun a => Fin.ext ?_))
  match a with
  | ⟨0, _⟩ => show win2_0.index t (0 : Fin 3) * 4 + 1 * j.val = j.val; omega
  | ⟨1, _⟩ => show win2_0.index t (1 : Fin 3) * 800 + 1 * k.val = 800 * t.val + k.val; omega
  | ⟨2, _⟩ => show win2_0.index t (2 : Fin 3) * 128 + 1 * l.val = l.val; omega

theorem rblk_at (t : Fin cfg2.N) (j : Fin 5) (k : Fin 800) (l : Fin 128) :
    rblk V c t (ix3 j k l) = rarr V c (ix3 j (rowTK (blkNo t) k) l) := by
  obtain ⟨-, -, -, e0, e1, e2⟩ := bal_idx t
  refine (View.read_apply ..).trans (congrArg (V c (Pipeline.arrRef spec2 1)) (funext fun a => Fin.ext ?_))
  match a with
  | ⟨0, _⟩ => show win2_1.index t (0 : Fin 3) * 5 + 1 * j.val = j.val; omega
  | ⟨1, _⟩ => show win2_1.index t (1 : Fin 3) * 800 + 1 * k.val = 800 * t.val + k.val; omega
  | ⟨2, _⟩ => show win2_1.index t (2 : Fin 3) * 128 + 1 * l.val = l.val; omega

-- By induction on the block, the running sum after block n is the sum of the block sums up to n.
theorem acc_eq : ∀ (n : ℕ) (h : n < cfg2.N), Balance.accAt V c n h (ix2 0 0)
      = ∑ t : Fin (n + 1), ∑ l : Fin 128, ∑ k : Fin 800,
          blkTerm (xblk V c ⟨t.val, Nat.lt_of_lt_of_le t.isLt h⟩) (rblk V c ⟨t.val, Nat.lt_of_lt_of_le t.isLt h⟩) k l
  | 0, h => by
    refine (pay2_apply _ _ _).trans ?_
    rw [pay1_apply, zero_add, Fin.sum_univ_one]
    rfl
  | n + 1, h => by
    refine ((pay2_apply _ _ _).trans ?_).trans (Fin.sum_univ_castSucc _).symm
    rw [acc_eq n]
    rfl

variable (A : Cert.Spec.Args) (sc : Cert.Spec.ScatterFn)
  (hx : ∀ (j : Fin 4) (R : Fin 8000) (l : Fin 128), xarr V c (ix3 j R l) = physSpec A j (nodeRL R l))
  (hr : ∀ (j : Fin 5) (R : Fin 8000) (l : Fin 128), rarr V c (ix3 j R l) = cinSpec A sc j (nodeRL R l))

include hx hr in
theorem blkTerm_eq (t : Fin cfg2.N) (k : Fin 800) (l : Fin 128) :
    blkTerm (xblk V c t) (rblk V c t) k l
      = Cert.Spec.sqN A sc (nodeRL (rowTK (blkNo t) k) l) * Cert.Spec.wN A (nodeRL (rowTK (blkNo t) k) l) := by
  unfold blkTerm
  rw [xblk_at V c t 0 k l, xblk_at V c t 2 k l, xblk_at V c t 3 k l, rblk_at V c t 0 k l,
    rblk_at V c t 1 k l, rblk_at V c t 2 k l, rblk_at V c t 3 k l, rblk_at V c t 4 k l,
    hx 0, hx 2, hx 3, hr 0, hr 1, hr 2, hr 3, hr 4]
  rfl

include hx hr in
theorem total : bsResult V c (ix2 0 0) = Cert.Spec.physNum A sc := by
  refine (acc_eq V c 9 _).trans ?_
  unfold Cert.Spec.physNum
  rw [sum_nodes]
  exact Finset.sum_congr rfl fun t _ => Finset.sum_congr rfl fun l _ => Finset.sum_congr rfl fun k _ =>
    blkTerm_eq V c A sc hx hr _ k l

end Stage

end Cert.KernelIdeal.Val.BalanceSum

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fold

variable (m : (ℓ : Loc nD τ sig) → Buf (Elt Ideal) ℓ) (c : Dev nD)

theorem sumsq_eq
    (hphys : ∀ (j : Fin 4) (R : Fin 8000) (l : Fin 128), (W8 m c main_v32_0 : S4x8000x128.Idx → EReal) (ix3 j R l) = physSpec (argsOf m c) j (nodeRL R l))
    (hcin : ∀ (j : Fin 5) (R : Fin 8000) (l : Fin 128), (W8 m c main_v78 : S5x8000x128.Idx → EReal) (ix3 j R l) = cinSpec (argsOf m c) scK j (nodeRL R l)) :
    (W9 m c main_v79 : S1x1.Idx → EReal) (ix2 0 0) = Cert.Spec.physNum (argsOf m c) scK :=
  (congrFun ((W9_arr m c 2).trans (BalanceSum.bs_final (V8 m) c)) (ix2 0 0)).trans
    (BalanceSum.total (V8 m) c (argsOf m c) scK hphys hcin)

end Cert.KernelIdeal.Val

end
-- ==== Proof.ValLoss.lean ====
import proofs.«431324_j10900626998069_3_alg».proof.Proof.ValBalanceIn
import Idealize.ShloMosaic.PureOps.Ideal.Laws
import Mathlib.Algebra.BigOperators.Fin
import Mathlib.Logic.Equiv.Fin.Basic

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fold

variable (m : (ℓ : Loc nD τ sig) → Buf (Elt Ideal) ℓ) (c : Dev nD)

theorem ofBits_512 : Ideal.ofBits .f32 0x44000000#32 = ((512 : ℝ) : EReal) := by
  simp [Ideal.ofBits, Ideal.ieee, -EReal.coe_mul]; norm_num

theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

-- n ↦ (n / 2000, n % 2000) is a bijection from the nodes onto 512 batches × 2000 buses, so every bus is met 512 times.
theorem sum_bus (g : Fin 2000 → ℝ) :
    ∑ n : Fin 1024000, ((g (Cert.Spec.bus n) : ℝ) : EReal) = ((512 : ℝ) : EReal) * ∑ k : Fin 2000, ((g k : ℝ) : EReal) := by
  rw [← coe_sum_real, ← coe_sum_real, ← EReal.coe_mul]
  refine congrArg _ ((Equiv.sum_comp (finProdFinEquiv : Fin 512 × Fin 2000 ≃ Fin (512 * 2000)) fun n => g (Cert.Spec.bus n)).symm.trans ?_)
  have hb : ∀ p : Fin 512 × Fin 2000, Cert.Spec.bus (finProdFinEquiv p) = p.2 := fun p =>
    Fin.ext (by show (p.2.val + 2000 * p.1.val) % 2000 = p.2.val; have := p.2.isLt; omega)
  simp only [hb]
  rw [Fintype.sum_prod_type]
  simp [Finset.sum_const, Finset.card_univ]

theorem mask_kept : (W9 m c main_arg11 : IVec S2000 1) = (argsOf m c).mask :=
  (W9_of_ne m c main_arg11 (by decide)).trans <|
    (StableHlo.after_of_writes_sub _ _ hostOps2_writes (by decide)).trans (BalanceIn.mask_bits_kept m c)

theorem mse_kept : (W9 m c main_v34 : S_.Idx → EReal) = W3 m c main_v34 :=
  (W9_of_ne m c main_v34 (by decide)).trans <|
    (StableHlo.after_of_writes_sub _ _ hostOps2_writes (by decide)).trans (BalanceIn.kept73 m c main_v34)

theorem mse_term : (W3 m c main_v34 : S_.Idx → EReal) =
    Host.divf (F := Ideal) (shapeCast S_ (W2 m c main_v32_2 : S1x1.Idx → EReal) shapeCasts_S1x1_S_)
      (constant (F := Ideal) S_ .f32 0x49FA0000#32) := by
  dsimp only [W3]; after_results; rfl

theorem loss_term : (W10 m c main_v87 : S_.Idx → EReal) =
    addf (mulf (constant (F := Ideal) S_ .f32 0x3F666666#32) (W9 m c main_v34 : S_.Idx → EReal))
      (mulf (constant (F := Ideal) S_ .f32 0x3B03126F#32)
        (Host.divf (F := Ideal) (shapeCast S_ (W9 m c main_v79 : S1x1.Idx → EReal) shapeCasts_S1x1_S_)
          (mulf (constant (F := Ideal) S_ .f32 0x44000000#32)
            (Host.reduceAdd (F := Ideal) (uitofp (F := Ideal) .f32 (W9 m c main_arg11 : IVec S2000 1))
              (constant (F := Ideal) S_ .f32 0x00000000#32) reducesTo_S2000_S_d0 h_S_)))) := by
  dsimp only [W10]; after_results; rfl

theorem scalar_of_1x1 (x : S1x1.Idx → EReal) (i : S_.Idx) : shapeCast S_ x shapeCasts_S1x1_S_ i = x (ix2 0 0) := by
  refine shapeCast_apply x _ i (ix2 0 0) ?_
  have h0 : S_.numel = 1 := by decide
  have h1 := (S_.rowMajor i).isLt
  rw [Shape.rowMajor_val_two]
  show (0 * 1 + 0 : ℕ) = _
  omega

def busIdx : Fin 2000 ≃ S2000.Idx where
  toFun := ix1
  invFun := fun j => j 0
  left_inv := fun _ => rfl
  right_inv := fun j => (eq_ix1 j).symm

-- The program counts the mask as 512 times the sum of the 2000 mask weights; that is the sum of the weights over all nodes.
theorem maskCount_eq (M : IVec S2000 1) (i : S_.Idx) :
    (mulf (constant (F := Ideal) S_ .f32 0x44000000#32)
      (Host.reduceAdd (F := Ideal) (uitofp (F := Ideal) .f32 M) (constant (F := Ideal) S_ .f32 0x00000000#32) reducesTo_S2000_S_d0 h_S_)) i
      = ∑ n : Fin 1024000, (((M (ix1 (Cert.Spec.bus n))).toNat : ℝ) : EReal) := by
  rw [mulf_apply, constant_apply, hostReduceAdd_apply, constant_apply, Ideal.ofBits_zero_f32,
    Ideal.hostReduceAdd_total reducesTo_S2000_S_d0 (fun b => b.elim0), zero_add, ofBits_512,
    sum_bus (fun k => ((M (ix1 k)).toNat : ℝ))]
  exact congrArg _ (Equiv.sum_comp busIdx (fun j => uitofp (F := Ideal) .f32 M j)).symm

theorem loss_eq
    (hmse : (W2 m c main_v32_2 : S1x1.Idx → EReal) (ix2 0 0) = Cert.Spec.sqErr (argsOf m c))
    (hsum : (W9 m c main_v79 : S1x1.Idx → EReal) (ix2 0 0) = Cert.Spec.physNum (argsOf m c) scK) :
    (W10 m c main_v87 : S_.Idx → EReal) = fun _ => Cert.Spec.loss (argsOf m c) scK := by
  funext i
  rw [loss_term, addf_apply, mulf_apply, mulf_apply, constant_apply, constant_apply, hostDivf_apply, scalar_of_1x1, hsum,
    maskCount_eq, mask_kept, mse_kept, mse_term, hostDivf_apply, scalar_of_1x1, hmse, constant_apply]
  rfl

end Cert.KernelIdeal.Val

end
-- ==== Proof.RefTable.lean ====
import proofs.«431324_j10900626998069_3_alg».proof.Proof.Gen.ReferenceIdeal
import Idealize.ShloMosaic.Lib.StableHlo.Run

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ reshape main_arg0 main_v0 rfl shapeCasts_S512x4000_S512x2000x2,
    unary main_arg8 main_v1 (broadcastInDim S1x2000x2 ![1, 2] bcast_S2000x2_S1x2000x2_1_2 : (⟨S2000x2, .f32⟩ : BufTy).Contents (Elt F) → (⟨S1x2000x2, .f32⟩ : BufTy).Contents (Elt F)),
    unary main_v1 main_v2 (broadcastInDim S512x2000x2 ![0, 1, 2] bcast_S1x2000x2_S512x2000x2_0_1_2 : (⟨S1x2000x2, .f32⟩ : BufTy).Contents (Elt F) → (⟨S512x2000x2, .f32⟩ : BufTy).Contents (Elt F)),
    binary main_v0 main_v2 main_v3 (mulf : (⟨S512x2000x2, .f32⟩ : BufTy).Contents (Elt F) → (⟨S512x2000x2, .f32⟩ : BufTy).Contents (Elt F) → (⟨S512x2000x2, .f32⟩ : BufTy).Contents (Elt F)),
    unary main_arg7 main_v4 (broadcastInDim S1x2000x2 ![1, 2] bcast_S2000x2_S1x2000x2_1_2 : (⟨S2000x2, .f32⟩ : BufTy).Contents (Elt F) → (⟨S1x2000x2, .f32⟩ : BufTy).Contents (Elt F)),
    unary main_v4 main_v5 (broadcastInDim S512x2000x2 ![0, 1, 2] bcast_S1x2000x2_S512x2000x2_0_1_2 : (⟨S1x2000x2, .f32⟩ : BufTy).Contents (Elt F) → (⟨S512x2000x2, .f32⟩ : BufTy).Contents (Elt F)),
    binary main_v3 main_v5 main_v6 (addf : (⟨S512x2000x2, .f32⟩ : BufTy).Contents (Elt F) → (⟨S512x2000x2, .f32⟩ : BufTy).Contents (Elt F) → (⟨S512x2000x2, .f32⟩ : BufTy).Contents (Elt F)),
    reshape main_arg1 main_v7 rfl shapeCasts_S512x4000_S512x2000x2,
    unary main_arg8 main_v8 (broadcastInDim S1x2000x2 ![1, 2] bcast_S2000x2_S1x2000x2_1_2 : (⟨S2000x2, .f32⟩ : BufTy).Contents (Elt F) → (⟨S1x2000x2, .f32⟩ : BufTy).Contents (Elt F)),
    unary main_v8 main_v9 (broadcastInDim S512x2000x2 ![0, 1, 2] bcast_S1x2000x2_S512x2000x2_0_1_2 : (⟨S1x2000x2, .f32⟩ : BufTy).Contents (Elt F) → (⟨S512x2000x2, .f32⟩ : BufTy).Contents (Elt F)),
    binary main_v7 main_v9 main_v10 (mulf : (⟨S512x2000x2, .f32⟩ : BufTy).Contents (Elt F) → (⟨S512x2000x2, .f32⟩ : BufTy).Contents (Elt F) → (⟨S512x2000x2, .f32⟩ : BufTy).Contents (Elt F)),
    unary main_arg7 main_v11 (broadcastInDim S1x2000x2 ![1, 2] bcast_S2000x2_S1x2000x2_1_2 : (⟨S2000x2, .f32⟩ : BufTy).Contents (Elt F) → (⟨S1x2000x2, .f32⟩ : BufTy).Contents (Elt F)),
    unary main_v11 main_v12 (broadcastInDim S512x2000x2 ![0, 1, 2] bcast_S1x2000x2_S512x2000x2_0_1_2 : (⟨S1x2000x2, .f32⟩ : BufTy).Contents (Elt F) → (⟨S512x2000x2, .f32⟩ : BufTy).Contents (Elt F)),
    binary main_v10 main_v12 main_v13 (addf : (⟨S512x2000x2, .f32⟩ : BufTy).Contents (Elt F) → (⟨S512x2000x2, .f32⟩ : BufTy).Contents (Elt F) → (⟨S512x2000x2, .f32⟩ : BufTy).Contents (Elt F)),
    binary main_v6 main_v13 main_v14 (subf : (⟨S512x2000x2, .f32⟩ : BufTy).Contents (Elt F) → (⟨S512x2000x2, .f32⟩ : BufTy).Contents (Elt F) → (⟨S512x2000x2, .f32⟩ : BufTy).Contents (Elt F)),
    binary main_v14 main_v14 main_v15 (mulf : (⟨S512x2000x2, .f32⟩ : BufTy).Contents (Elt F) → (⟨S512x2000x2, .f32⟩ : BufTy).Contents (Elt F) → (⟨S512x2000x2, .f32⟩ : BufTy).Contents (Elt F)),
    nullary main_cst (constant S_ .f32 0x00000000#32),
    binary main_v15 main_cst main_v16 ((fun x v => Host.reduceAdd x v reducesTo_S512x2000x2_S_d0_1_2 h_S_) : (⟨S512x2000x2, .f32⟩ : BufTy).Contents (Elt F) → (⟨S_, .f32⟩ : BufTy).Contents (Elt F) → (⟨S_, .f32⟩ : BufTy).Contents (Elt F)),
    nullary main_cst_0 (constant S_ .f32 0x49FA0000#32),
    binary main_v16 main_cst_0 main_v17 (Host.divf : (⟨S_, .f32⟩ : BufTy).Contents (Elt F) → (⟨S_, .f32⟩ : BufTy).Contents (Elt F) → (⟨S_, .f32⟩ : BufTy).Contents (Elt F)),
    reshape main_arg2 main_v18 rfl shapeCasts_S1024000x7_S512x2000x7,
    unary main_v18 main_v19 ((extractStridedSlice S512x2000x2 ![0, 0, 0] · slices_S512x2000x7_S512x2000x2_0_0_0) : (⟨S512x2000x7, .f32⟩ : BufTy).Contents (Elt F) → (⟨S512x2000x2, .f32⟩ : BufTy).Contents (Elt F)),
    unary main_arg6 main_v20 ((extractStridedSlice S2000x2 ![0, 0] · slices_S2000x7_S2000x2_0_0) : (⟨S2000x7, .f32⟩ : BufTy).Contents (Elt F) → (⟨S2000x2, .f32⟩ : BufTy).Contents (Elt F)),
    unary main_v20 main_v21 (broadcastInDim S1x2000x2 ![1, 2] bcast_S2000x2_S1x2000x2_1_2 : (⟨S2000x2, .f32⟩ : BufTy).Contents (Elt F) → (⟨S1x2000x2, .f32⟩ : BufTy).Contents (Elt F)),
    unary main_v21 main_v22 (broadcastInDim S512x2000x2 ![0, 1, 2] bcast_S1x2000x2_S512x2000x2_0_1_2 : (⟨S1x2000x2, .f32⟩ : BufTy).Contents (Elt F) → (⟨S512x2000x2, .f32⟩ : BufTy).Contents (Elt F)),
    binary main_v19 main_v22 main_v23 (mulf : (⟨S512x2000x2, .f32⟩ : BufTy).Contents (Elt F) → (⟨S512x2000x2, .f32⟩ : BufTy).Contents (Elt F) → (⟨S512x2000x2, .f32⟩ : BufTy).Contents (Elt F)),
    unary main_arg5 main_v24 ((extractStridedSlice S2000x2 ![0, 0] · slices_S2000x7_S2000x2_0_0) : (⟨S2000x7, .f32⟩ : BufTy).Contents (Elt F) → (⟨S2000x2, .f32⟩ : BufTy).Contents (Elt F)),
    unary main_v24 main_v25 (broadcastInDim S1x2000x2 ![1, 2] bcast_S2000x2_S1x2000x2_1_2 : (⟨S2000x2, .f32⟩ : BufTy).Contents (Elt F) → (⟨S1x2000x2, .f32⟩ : BufTy).Contents (Elt F)),
    unary main_v25 main_v26 (broadcastInDim S512x2000x2 ![0, 1, 2] bcast_S1x2000x2_S512x2000x2_0_1_2 : (⟨S1x2000x2, .f32⟩ : BufTy).Contents (Elt F) → (⟨S512x2000x2, .f32⟩ : BufTy).Contents (Elt F)),
    binary main_v23 main_v26 main_v27 (addf : (⟨S512x2000x2, .f32⟩ : BufTy).Contents (Elt F) → (⟨S512x2000x2, .f32⟩ : BufTy).Contents (Elt F) → (⟨S512x2000x2, .f32⟩ : BufTy).Contents (Elt F)),
    reshape main_v27 main_v28 rfl shapeCasts_S512x2000x2_S1024000x2,
    nullary main_cst_1 (constant S_ .f32 0x42C80000#32),
    unary main_cst_1 main_v29 (broadcastInDim S1024000x2 ![] bcast_S_S1024000x2 : (⟨S_, .f32⟩ : BufTy).Contents (Elt F) → (⟨S1024000x2, .f32⟩ : BufTy).Contents (Elt F)),
    binary main_v28 main_v29 main_v30 (Host.divf : (⟨S1024000x2, .f32⟩ : BufTy).Contents (Elt F) → (⟨S1024000x2, .f32⟩ : BufTy).Contents (Elt F) → (⟨S1024000x2, .f32⟩ : BufTy).Contents (Elt F)),
    reshape main_v6 main_v31 rfl shapeCasts_S512x2000x2_S1024000x2,
    binary main_v31 main_v30 main_v32 ((fun a b => concatenate S1024000x4 1 [⟨S1024000x2, a⟩, ⟨S1024000x2, b⟩] concatenates_S1024000x2_S1024000x2_S1024000x4_d1) : (⟨S1024000x2, .f32⟩ : BufTy).Contents (Elt F) → (⟨S1024000x2, .f32⟩ : BufTy).Contents (Elt F) → (⟨S1024000x4, .f32⟩ : BufTy).Contents (Elt F)) ]

abbrev opsB : List (HloOp τ sig (Elt F)) :=
  [ unary main_arg10 main_v33 (broadcastInDim S1x4 ![1] bcast_S4_S1x4_1 : (⟨S4, .f32⟩ : BufTy).Contents (Elt F) → (⟨S1x4, .f32⟩ : BufTy).Contents (Elt F)),
    unary main_v33 main_v34 (broadcastInDim S3072000x4 ![0, 1] bcast_S1x4_S3072000x4_0_1 : (⟨S1x4, .f32⟩ : BufTy).Contents (Elt F) → (⟨S3072000x4, .f32⟩ : BufTy).Contents (Elt F)),
    binary main_arg4 main_v34 main_v35 (mulf : (⟨S3072000x4, .f32⟩ : BufTy).Contents (Elt F) → (⟨S3072000x4, .f32⟩ : BufTy).Contents (Elt F) → (⟨S3072000x4, .f32⟩ : BufTy).Contents (Elt F)),
    unary main_arg9 main_v36 (broadcastInDim S1x4 ![1] bcast_S4_S1x4_1 : (⟨S4, .f32⟩ : BufTy).Contents (Elt F) → (⟨S1x4, .f32⟩ : BufTy).Contents (Elt F)),
    unary main_v36 main_v37 (broadcastInDim S3072000x4 ![0, 1] bcast_S1x4_S3072000x4_0_1 : (⟨S1x4, .f32⟩ : BufTy).Contents (Elt F) → (⟨S3072000x4, .f32⟩ : BufTy).Contents (Elt F)),
    binary main_v35 main_v37 main_v38 (addf : (⟨S3072000x4, .f32⟩ : BufTy).Contents (Elt F) → (⟨S3072000x4, .f32⟩ : BufTy).Contents (Elt F) → (⟨S3072000x4, .f32⟩ : BufTy).Contents (Elt F)),
    unary main_arg3 main_v39 ((extractStridedSlice S1x3072000 ![0, 0] · slices_S2x3072000_S1x3072000_0_0) : (⟨S2x3072000, .i32⟩ : BufTy).Contents (Elt F) → (⟨S1x3072000, .i32⟩ : BufTy).Contents (Elt F)),
    reshape main_v39 main_v40 rfl shapeCasts_S1x3072000_S3072000,
    unary main_arg3 main_v41 ((extractStridedSlice S1x3072000 ![1, 0] · slices_S2x3072000_S1x3072000_1_0) : (⟨S2x3072000, .i32⟩ : BufTy).Contents (Elt F) → (⟨S1x3072000, .i32⟩ : BufTy).Contents (Elt F)),
    reshape main_v41 main_v42 rfl shapeCasts_S1x3072000_S3072000,
    nullary main_c (constantI S_ 32 0#32),
    unary main_c main_v43 (broadcastInDim S3072000 ![] bcast_S_S3072000 : (⟨S_, .i32⟩ : BufTy).Contents (Elt F) → (⟨S3072000, .i32⟩ : BufTy).Contents (Elt F)),
    binary main_v40 main_v43 main_v44 (cmpi .slt : (⟨S3072000, .i32⟩ : BufTy).Contents (Elt F) → (⟨S3072000, .i32⟩ : BufTy).Contents (Elt F) → (⟨S3072000, .i1⟩ : BufTy).Contents (Elt F)),
    nullary main_c_2 (constantI S_ 32 1024000#32),
    unary main_c_2 main_v45 (broadcastInDim S3072000 ![] bcast_S_S3072000 : (⟨S_, .i32⟩ : BufTy).Contents (Elt F) → (⟨S3072000, .i32⟩ : BufTy).Contents (Elt F)),
    binary main_v40 main_v45 main_v46 (addi : (⟨S3072000, .i32⟩ : BufTy).Contents (Elt F) → (⟨S3072000, .i32⟩ : BufTy).Contents (Elt F) → (⟨S3072000, .i32⟩ : BufTy).Contents (Elt F)),
    ternary main_v44 main_v46 main_v40 main_v47 (select : (⟨S3072000, .i1⟩ : BufTy).Contents (Elt F) → (⟨S3072000, .i32⟩ : BufTy).Contents (Elt F) → (⟨S3072000, .i32⟩ : BufTy).Contents (Elt F) → (⟨S3072000, .i32⟩ : BufTy).Contents (Elt F)),
    unary main_v47 main_v48 (broadcastInDim S3072000x1 ![0] bcast_S3072000_S3072000x1_0 : (⟨S3072000, .i32⟩ : BufTy).Contents (Elt F) → (⟨S3072000x1, .i32⟩ : BufTy).Contents (Elt F)),
    binary main_v32 main_v48 main_v49 ((fun x i => Host.gather gather_S1024000x4_S3072000x1_S3072000x4_1_0_n_n_0_1_14 x i) : (⟨S1024000x4, .f32⟩ : BufTy).Contents (Elt F) → (⟨S3072000x1, .i32⟩ : BufTy).Contents (Elt F) → (⟨S3072000x4, .f32⟩ : BufTy).Contents (Elt F)),
    nullary main_c_3 (constantI S_ 32 0#32),
    unary main_c_3 main_v50 (broadcastInDim S3072000 ![] bcast_S_S3072000 : (⟨S_, .i32⟩ : BufTy).Contents (Elt F) → (⟨S3072000, .i32⟩ : BufTy).Contents (Elt F)),
    binary main_v42 main_v50 main_v51 (cmpi .slt : (⟨S3072000, .i32⟩ : BufTy).Contents (Elt F) → (⟨S3072000, .i32⟩ : BufTy).Contents (Elt F) → (⟨S3072000, .i1⟩ : BufTy).Contents (Elt F)),
    nullary main_c_4 (constantI S_ 32 1024000#32),
    unary main_c_4 main_v52 (broadcastInDim S3072000 ![] bcast_S_S3072000 : (⟨S_, .i32⟩ : BufTy).Contents (Elt F) → (⟨S3072000, .i32⟩ : BufTy).Contents (Elt F)),
    binary main_v42 main_v52 main_v53 (addi : (⟨S3072000, .i32⟩ : BufTy).Contents (Elt F) → (⟨S3072000, .i32⟩ : BufTy).Contents (Elt F) → (⟨S3072000, .i32⟩ : BufTy).Contents (Elt F)),
    ternary main_v51 main_v53 main_v42 main_v54 (select : (⟨S3072000, .i1⟩ : BufTy).Contents (Elt F) → (⟨S3072000, .i32⟩ : BufTy).Contents (Elt F) → (⟨S3072000, .i32⟩ : BufTy).Contents (Elt F) → (⟨S3072000, .i32⟩ : BufTy).Contents (Elt F)),
    unary main_v54 main_v55 (broadcastInDim S3072000x1 ![0] bcast_S3072000_S3072000x1_0 : (⟨S3072000, .i32⟩ : BufTy).Contents (Elt F) → (⟨S3072000x1, .i32⟩ : BufTy).Contents (Elt F)),
    binary main_v32 main_v55 main_v56 ((fun x i => Host.gather gather_S1024000x4_S3072000x1_S3072000x4_1_0_n_n_0_1_14 x i) : (⟨S1024000x4, .f32⟩ : BufTy).Contents (Elt F) → (⟨S3072000x1, .i32⟩ : BufTy).Contents (Elt F) → (⟨S3072000x4, .f32⟩ : BufTy).Contents (Elt F)) ]

abbrev opsC : List (HloOp τ sig (Elt F)) :=
  [ unary main_v49 main_v57 ((extractStridedSlice S3072000x1 ![0, 0] · slices_S3072000x4_S3072000x1_0_0) : (⟨S3072000x4, .f32⟩ : BufTy).Contents (Elt F) → (⟨S3072000x1, .f32⟩ : BufTy).Contents (Elt F)),
    reshape main_v57 main_v58 rfl shapeCasts_S3072000x1_S3072000,
    unary main_v49 main_v59 ((extractStridedSlice S3072000x1 ![0, 1] · slices_S3072000x4_S3072000x1_0_1) : (⟨S3072000x4, .f32⟩ : BufTy).Contents (Elt F) → (⟨S3072000x1, .f32⟩ : BufTy).Contents (Elt F)),
    reshape main_v59 main_v60 rfl shapeCasts_S3072000x1_S3072000,
    nullary main_cst_5 (constant S_ .f32 0x3C8EFA35#32),
    unary main_cst_5 main_v61 (broadcastInDim S3072000 ![] bcast_S_S3072000 : (⟨S_, .f32⟩ : BufTy).Contents (Elt F) → (⟨S3072000, .f32⟩ : BufTy).Contents (Elt F)),
    binary main_v60 main_v61 main_v62 (mulf : (⟨S3072000, .f32⟩ : BufTy).Contents (Elt F) → (⟨S3072000, .f32⟩ : BufTy).Contents (Elt F) → (⟨S3072000, .f32⟩ : BufTy).Contents (Elt F)),
    unary main_v56 main_v63 ((extractStridedSlice S3072000x1 ![0, 0] · slices_S3072000x4_S3072000x1_0_0) : (⟨S3072000x4, .f32⟩ : BufTy).Contents (Elt F) → (⟨S3072000x1, .f32⟩ : BufTy).Contents (Elt F)),
    reshape main_v63 main_v64 rfl shapeCasts_S3072000x1_S3072000,
    unary main_v56 main_v65 ((extractStridedSlice S3072000x1 ![0, 1] · slices_S3072000x4_S3072000x1_0_1) : (⟨S3072000x4, .f32⟩ : BufTy).Contents (Elt F) → (⟨S3072000x1, .f32⟩ : BufTy).Contents (Elt F)),
    reshape main_v65 main_v66 rfl shapeCasts_S3072000x1_S3072000,
    nullary main_cst_6 (constant S_ .f32 0x3C8EFA35#32),
    unary main_cst_6 main_v67 (broadcastInDim S3072000 ![] bcast_S_S3072000 : (⟨S_, .f32⟩ : BufTy).Contents (Elt F) → (⟨S3072000, .f32⟩ : BufTy).Contents (Elt F)),
    binary main_v66 main_v67 main_v68 (mulf : (⟨S3072000, .f32⟩ : BufTy).Contents (Elt F) → (⟨S3072000, .f32⟩ : BufTy).Contents (Elt F) → (⟨S3072000, .f32⟩ : BufTy).Contents (Elt F)),
    unary main_v62 main_v69 (Host.cos : (⟨S3072000, .f32⟩ : BufTy).Contents (Elt F) → (⟨S3072000, .f32⟩ : BufTy).Contents (Elt F)),
    binary main_v58 main_v69 main_v70 (mulf : (⟨S3072000, .f32⟩ : BufTy).Contents (Elt F) → (⟨S3072000, .f32⟩ : BufTy).Contents (Elt F) → (⟨S3072000, .f32⟩ : BufTy).Contents (Elt F)),
    unary main_v62 main_v71 (Host.sin : (⟨S3072000, .f32⟩ : BufTy).Contents (Elt F) → (⟨S3072000, .f32⟩ : BufTy).Contents (Elt F)),
    binary main_v58 main_v71 main_v72 (mulf : (⟨S3072000, .f32⟩ : BufTy).Contents (Elt F) → (⟨S3072000, .f32⟩ : BufTy).Contents (Elt F) → (⟨S3072000, .f32⟩ : BufTy).Contents (Elt F)),
    unary main_v68 main_v73 (Host.cos : (⟨S3072000, .f32⟩ : BufTy).Contents (Elt F) → (⟨S3072000, .f32⟩ : BufTy).Contents (Elt F)),
    binary main_v64 main_v73 main_v74 (mulf : (⟨S3072000, .f32⟩ : BufTy).Contents (Elt F) → (⟨S3072000, .f32⟩ : BufTy).Contents (Elt F) → (⟨S3072000, .f32⟩ : BufTy).Contents (Elt F)),
    unary main_v68 main_v75 (Host.sin : (⟨S3072000, .f32⟩ : BufTy).Contents (Elt F) → (⟨S3072000, .f32⟩ : BufTy).Contents (Elt F)),
    binary main_v64 main_v75 main_v76 (mulf : (⟨S3072000, .f32⟩ : BufTy).Contents (Elt F) → (⟨S3072000, .f32⟩ : BufTy).Contents (Elt F) → (⟨S3072000, .f32⟩ : BufTy).Contents (Elt F)),
    unary main_v38 main_v77 ((extractStridedSlice S3072000x1 ![0, 0] · slices_S3072000x4_S3072000x1_0_0) : (⟨S3072000x4, .f32⟩ : BufTy).Contents (Elt F) → (⟨S3072000x1, .f32⟩ : BufTy).Contents (Elt F)),
    reshape main_v77 main_v78 rfl shapeCasts_S3072000x1_S3072000,
    unary main_v38 main_v79 ((extractStridedSlice S3072000x1 ![0, 1] · slices_S3072000x4_S3072000x1_0_1) : (⟨S3072000x4, .f32⟩ : BufTy).Contents (Elt F) → (⟨S3072000x1, .f32⟩ : BufTy).Contents (Elt F)),
    reshape main_v79 main_v80 rfl shapeCasts_S3072000x1_S3072000,
    unary main_v38 main_v81 ((extractStridedSlice S3072000x1 ![0, 2] · slices_S3072000x4_S3072000x1_0_2) : (⟨S3072000x4, .f32⟩ : BufTy).Contents (Elt F) → (⟨S3072000x1, .f32⟩ : BufTy).Contents (Elt F)),
    reshape main_v81 main_v82 rfl shapeCasts_S3072000x1_S3072000,
    unary main_v38 main_v83 ((extractStridedSlice S3072000x1 ![0, 3] · slices_S3072000x4_S3072000x1_0_3) : (⟨S3072000x4, .f32⟩ : BufTy).Contents (Elt F) → (⟨S3072000x1, .f32⟩ : BufTy).Contents (Elt F)),
    reshape main_v83 main_v84 rfl shapeCasts_S3072000x1_S3072000,
    binary main_v78 main_v70 main_v85 (mulf : (⟨S3072000, .f32⟩ : BufTy).Contents (Elt F) → (⟨S3072000, .f32⟩ : BufTy).Contents (Elt F) → (⟨S3072000, .f32⟩ : BufTy).Contents (Elt F)),
    binary main_v80 main_v72 main_v86 (mulf : (⟨S3072000, .f32⟩ : BufTy).Contents (Elt F) → (⟨S3072000, .f32⟩ : BufTy).Contents (Elt F) → (⟨S3072000, .f32⟩ : BufTy).Contents (Elt F)),
    binary main_v85 main_v86 main_v87 (subf : (⟨S3072000, .f32⟩ : BufTy).Contents (Elt F) → (⟨S3072000, .f32⟩ : BufTy).Contents (Elt F) → (⟨S3072000, .f32⟩ : BufTy).Contents (Elt F)),
    binary main_v82 main_v74 main_v88 (mulf : (⟨S3072000, .f32⟩ : BufTy).Contents (Elt F) → (⟨S3072000, .f32⟩ : BufTy).Contents (Elt F) → (⟨S3072000, .f32⟩ : BufTy).Contents (Elt F)),
    binary main_v87 main_v88 main_v89 (addf : (⟨S3072000, .f32⟩ : BufTy).Contents (Elt F) → (⟨S3072000, .f32⟩ : BufTy).Contents (Elt F) → (⟨S3072000, .f32⟩ : BufTy).Contents (Elt F)),
    binary main_v84 main_v76 main_v90 (mulf : (⟨S3072000, .f32⟩ : BufTy).Contents (Elt F) → (⟨S3072000, .f32⟩ : BufTy).Contents (Elt F) → (⟨S3072000, .f32⟩ : BufTy).Contents (Elt F)) ]

abbrev opsD : List (HloOp τ sig (Elt F)) :=
  [ binary main_v89 main_v90 main_v91 (subf : (⟨S3072000, .f32⟩ : BufTy).Contents (Elt F) → (⟨S3072000, .f32⟩ : BufTy).Contents (Elt F) → (⟨S3072000, .f32⟩ : BufTy).Contents (Elt F)),
    binary main_v78 main_v72 main_v92 (mulf : (⟨S3072000, .f32⟩ : BufTy).Contents (Elt F) → (⟨S3072000, .f32⟩ : BufTy).Contents (Elt F) → (⟨S3072000, .f32⟩ : BufTy).Contents (Elt F)),
    binary main_v80 main_v70 main_v93 (mulf : (⟨S3072000, .f32⟩ : BufTy).Contents (Elt F) → (⟨S3072000, .f32⟩ : BufTy).Contents (Elt F) → (⟨S3072000, .f32⟩ : BufTy).Contents (Elt F)),
    binary main_v92 main_v93 main_v94 (addf : (⟨S3072000, .f32⟩ : BufTy).Contents (Elt F) → (⟨S3072000, .f32⟩ : BufTy).Contents (Elt F) → (⟨S3072000, .f32⟩ : BufTy).Contents (Elt F)),
    binary main_v82 main_v76 main_v95 (mulf : (⟨S3072000, .f32⟩ : BufTy).Contents (Elt F) → (⟨S3072000, .f32⟩ : BufTy).Contents (Elt F) → (⟨S3072000, .f32⟩ : BufTy).Contents (Elt F)),
    binary main_v94 main_v95 main_v96 (addf : (⟨S3072000, .f32⟩ : BufTy).Contents (Elt F) → (⟨S3072000, .f32⟩ : BufTy).Contents (Elt F) → (⟨S3072000, .f32⟩ : BufTy).Contents (Elt F)),
    binary main_v84 main_v74 main_v97 (mulf : (⟨S3072000, .f32⟩ : BufTy).Contents (Elt F) → (⟨S3072000, .f32⟩ : BufTy).Contents (Elt F) → (⟨S3072000, .f32⟩ : BufTy).Contents (Elt F)),
    binary main_v96 main_v97 main_v98 (addf : (⟨S3072000, .f32⟩ : BufTy).Contents (Elt F) → (⟨S3072000, .f32⟩ : BufTy).Contents (Elt F) → (⟨S3072000, .f32⟩ : BufTy).Contents (Elt F)),
    binary main_v70 main_v91 main_v99 (mulf : (⟨S3072000, .f32⟩ : BufTy).Contents (Elt F) → (⟨S3072000, .f32⟩ : BufTy).Contents (Elt F) → (⟨S3072000, .f32⟩ : BufTy).Contents (Elt F)),
    binary main_v72 main_v98 main_v100 (mulf : (⟨S3072000, .f32⟩ : BufTy).Contents (Elt F) → (⟨S3072000, .f32⟩ : BufTy).Contents (Elt F) → (⟨S3072000, .f32⟩ : BufTy).Contents (Elt F)),
    binary main_v99 main_v100 main_v101 (addf : (⟨S3072000, .f32⟩ : BufTy).Contents (Elt F) → (⟨S3072000, .f32⟩ : BufTy).Contents (Elt F) → (⟨S3072000, .f32⟩ : BufTy).Contents (Elt F)),
    unary main_v101 main_v102 (Host.negf : (⟨S3072000, .f32⟩ : BufTy).Contents (Elt F) → (⟨S3072000, .f32⟩ : BufTy).Contents (Elt F)),
    binary main_v72 main_v91 main_v103 (mulf : (⟨S3072000, .f32⟩ : BufTy).Contents (Elt F) → (⟨S3072000, .f32⟩ : BufTy).Contents (Elt F) → (⟨S3072000, .f32⟩ : BufTy).Contents (Elt F)),
    binary main_v70 main_v98 main_v104 (mulf : (⟨S3072000, .f32⟩ : BufTy).Contents (Elt F) → (⟨S3072000, .f32⟩ : BufTy).Contents (Elt F) → (⟨S3072000, .f32⟩ : BufTy).Contents (Elt F)),
    binary main_v103 main_v104 main_v105 (subf : (⟨S3072000, .f32⟩ : BufTy).Contents (Elt F) → (⟨S3072000, .f32⟩ : BufTy).Contents (Elt F) → (⟨S3072000, .f32⟩ : BufTy).Contents (Elt F)),
    unary main_v105 main_v106 (Host.negf : (⟨S3072000, .f32⟩ : BufTy).Contents (Elt F) → (⟨S3072000, .f32⟩ : BufTy).Contents (Elt F)),
    unary main_v102 main_v107 (broadcastInDim S3072000x1 ![0] bcast_S3072000_S3072000x1_0 : (⟨S3072000, .f32⟩ : BufTy).Contents (Elt F) → (⟨S3072000x1, .f32⟩ : BufTy).Contents (Elt F)),
    unary main_v106 main_v108 (broadcastInDim S3072000x1 ![0] bcast_S3072000_S3072000x1_0 : (⟨S3072000, .f32⟩ : BufTy).Contents (Elt F) → (⟨S3072000x1, .f32⟩ : BufTy).Contents (Elt F)),
    binary main_v107 main_v108 main_v109 ((fun a b => concatenate S3072000x2 1 [⟨S3072000x1, a⟩, ⟨S3072000x1, b⟩] concatenates_S3072000x1_S3072000x1_S3072000x2_d1) : (⟨S3072000x1, .f32⟩ : BufTy).Contents (Elt F) → (⟨S3072000x1, .f32⟩ : BufTy).Contents (Elt F) → (⟨S3072000x2, .f32⟩ : BufTy).Contents (Elt F)),
    nullary main_cst_7 (constant S_ .f32 0x00000000#32),
    unary main_cst_7 main_v110 (broadcastInDim S1024000x2 ![] bcast_S_S1024000x2 : (⟨S_, .f32⟩ : BufTy).Contents (Elt F) → (⟨S1024000x2, .f32⟩ : BufTy).Contents (Elt F)),
    unary main_v40 main_v111 (broadcastInDim S3072000x1 ![0] bcast_S3072000_S3072000x1_0 : (⟨S3072000, .i32⟩ : BufTy).Contents (Elt F) → (⟨S3072000x1, .i32⟩ : BufTy).Contents (Elt F)),
    ternary main_v110 main_v111 main_v109 main_v112 ((fun x i u => Host.scatterAdd scatter_S1024000x2_S3072000x1_S3072000x2_1_0_0_1 x i u) : (⟨S1024000x2, .f32⟩ : BufTy).Contents (Elt F) → (⟨S3072000x1, .i32⟩ : BufTy).Contents (Elt F) → (⟨S3072000x2, .f32⟩ : BufTy).Contents (Elt F) → (⟨S1024000x2, .f32⟩ : BufTy).Contents (Elt F)) ]

abbrev opsE : List (HloOp τ sig (Elt F)) :=
  [ unary main_v32 main_v113 ((extractStridedSlice S1024000x1 ![0, 0] · slices_S1024000x4_S1024000x1_0_0) : (⟨S1024000x4, .f32⟩ : BufTy).Contents (Elt F) → (⟨S1024000x1, .f32⟩ : BufTy).Contents (Elt F)),
    reshape main_v113 main_v114 rfl shapeCasts_S1024000x1_S1024000,
    binary main_v114 main_v114 main_v115 (mulf : (⟨S1024000, .f32⟩ : BufTy).Contents (Elt F) → (⟨S1024000, .f32⟩ : BufTy).Contents (Elt F) → (⟨S1024000, .f32⟩ : BufTy).Contents (Elt F)),
    reshape main_arg12 main_v116 rfl shapeCasts_S2000x2_S1x2000x1x2,
    unary main_v116 main_v117 (broadcastInDim S512x2000x1x2 ![0, 1, 2, 3] bcast_S1x2000x1x2_S512x2000x1x2_0_1_2_3 : (⟨S1x2000x1x2, .f32⟩ : BufTy).Contents (Elt F) → (⟨S512x2000x1x2, .f32⟩ : BufTy).Contents (Elt F)),
    reshape main_v117 main_v118 rfl shapeCasts_S512x2000x1x2_S1024000x2,
    unary main_v112 main_v119 ((extractStridedSlice S1024000x1 ![0, 0] · slices_S1024000x2_S1024000x1_0_0) : (⟨S1024000x2, .f32⟩ : BufTy).Contents (Elt F) → (⟨S1024000x1, .f32⟩ : BufTy).Contents (Elt F)),
    reshape main_v119 main_v120 rfl shapeCasts_S1024000x1_S1024000,
    unary main_v120 main_v121 (Host.negf : (⟨S1024000, .f32⟩ : BufTy).Contents (Elt F) → (⟨S1024000, .f32⟩ : BufTy).Contents (Elt F)),
    unary main_v32 main_v122 ((extractStridedSlice S1024000x1 ![0, 2] · slices_S1024000x4_S1024000x1_0_2) : (⟨S1024000x4, .f32⟩ : BufTy).Contents (Elt F) → (⟨S1024000x1, .f32⟩ : BufTy).Contents (Elt F)),
    reshape main_v122 main_v123 rfl shapeCasts_S1024000x1_S1024000,
    binary main_v121 main_v123 main_v124 (addf : (⟨S1024000, .f32⟩ : BufTy).Contents (Elt F) → (⟨S1024000, .f32⟩ : BufTy).Contents (Elt F) → (⟨S1024000, .f32⟩ : BufTy).Contents (Elt F)),
    unary main_v118 main_v125 ((extractStridedSlice S1024000x1 ![0, 0] · slices_S1024000x2_S1024000x1_0_0) : (⟨S1024000x2, .f32⟩ : BufTy).Contents (Elt F) → (⟨S1024000x1, .f32⟩ : BufTy).Contents (Elt F)),
    reshape main_v125 main_v126 rfl shapeCasts_S1024000x1_S1024000,
    binary main_v115 main_v126 main_v127 (mulf : (⟨S1024000, .f32⟩ : BufTy).Contents (Elt F) → (⟨S1024000, .f32⟩ : BufTy).Contents (Elt F) → (⟨S1024000, .f32⟩ : BufTy).Contents (Elt F)),
    binary main_v124 main_v127 main_v128 (addf : (⟨S1024000, .f32⟩ : BufTy).Contents (Elt F) → (⟨S1024000, .f32⟩ : BufTy).Contents (Elt F) → (⟨S1024000, .f32⟩ : BufTy).Contents (Elt F)),
    unary main_v112 main_v129 ((extractStridedSlice S1024000x1 ![0, 1] · slices_S1024000x2_S1024000x1_0_1) : (⟨S1024000x2, .f32⟩ : BufTy).Contents (Elt F) → (⟨S1024000x1, .f32⟩ : BufTy).Contents (Elt F)),
    reshape main_v129 main_v130 rfl shapeCasts_S1024000x1_S1024000,
    unary main_v130 main_v131 (Host.negf : (⟨S1024000, .f32⟩ : BufTy).Contents (Elt F) → (⟨S1024000, .f32⟩ : BufTy).Contents (Elt F)),
    unary main_v32 main_v132 ((extractStridedSlice S1024000x1 ![0, 3] · slices_S1024000x4_S1024000x1_0_3) : (⟨S1024000x4, .f32⟩ : BufTy).Contents (Elt F) → (⟨S1024000x1, .f32⟩ : BufTy).Contents (Elt F)),
    reshape main_v132 main_v133 rfl shapeCasts_S1024000x1_S1024000,
    binary main_v131 main_v133 main_v134 (addf : (⟨S1024000, .f32⟩ : BufTy).Contents (Elt F) → (⟨S1024000, .f32⟩ : BufTy).Contents (Elt F) → (⟨S1024000, .f32⟩ : BufTy).Contents (Elt F)),
    unary main_v118 main_v135 ((extractStridedSlice S1024000x1 ![0, 1] · slices_S1024000x2_S1024000x1_0_1) : (⟨S1024000x2, .f32⟩ : BufTy).Contents (Elt F) → (⟨S1024000x1, .f32⟩ : BufTy).Contents (Elt F)),
    reshape main_v135 main_v136 rfl shapeCasts_S1024000x1_S1024000,
    binary main_v115 main_v136 main_v137 (mulf : (⟨S1024000, .f32⟩ : BufTy).Contents (Elt F) → (⟨S1024000, .f32⟩ : BufTy).Contents (Elt F) → (⟨S1024000, .f32⟩ : BufTy).Contents (Elt F)),
    binary main_v134 main_v137 main_v138 (subf : (⟨S1024000, .f32⟩ : BufTy).Contents (Elt F) → (⟨S1024000, .f32⟩ : BufTy).Contents (Elt F) → (⟨S1024000, .f32⟩ : BufTy).Contents (Elt F)),
    binary main_v128 main_v128 main_v139 (mulf : (⟨S1024000, .f32⟩ : BufTy).Contents (Elt F) → (⟨S1024000, .f32⟩ : BufTy).Contents (Elt F) → (⟨S1024000, .f32⟩ : BufTy).Contents (Elt F)),
    binary main_v138 main_v138 main_v140 (mulf : (⟨S1024000, .f32⟩ : BufTy).Contents (Elt F) → (⟨S1024000, .f32⟩ : BufTy).Contents (Elt F) → (⟨S1024000, .f32⟩ : BufTy).Contents (Elt F)),
    binary main_v139 main_v140 main_v141 (addf : (⟨S1024000, .f32⟩ : BufTy).Contents (Elt F) → (⟨S1024000, .f32⟩ : BufTy).Contents (Elt F) → (⟨S1024000, .f32⟩ : BufTy).Contents (Elt F)),
    reshape main_arg11 main_v142 rfl shapeCasts_S2000_S1x2000,
    unary main_v142 main_v143 (broadcastInDim S512x2000 ![0, 1] bcast_S1x2000_S512x2000_0_1 : (⟨S1x2000, .i1⟩ : BufTy).Contents (Elt F) → (⟨S512x2000, .i1⟩ : BufTy).Contents (Elt F)),
    reshape main_v143 main_v144 rfl shapeCasts_S512x2000_S1024000,
    unary main_v144 main_v145 (uitofp .f32 : (⟨S1024000, .i1⟩ : BufTy).Contents (Elt F) → (⟨S1024000, .f32⟩ : BufTy).Contents (Elt F)),
    binary main_v141 main_v145 main_v146 (mulf : (⟨S1024000, .f32⟩ : BufTy).Contents (Elt F) → (⟨S1024000, .f32⟩ : BufTy).Contents (Elt F) → (⟨S1024000, .f32⟩ : BufTy).Contents (Elt F)),
    nullary main_cst_8 (constant S_ .f32 0x00000000#32),
    binary main_v146 main_cst_8 main_v147 ((fun x v => Host.reduceAdd x v reducesTo_S1024000_S_d0 h_S_) : (⟨S1024000, .f32⟩ : BufTy).Contents (Elt F) → (⟨S_, .f32⟩ : BufTy).Contents (Elt F) → (⟨S_, .f32⟩ : BufTy).Contents (Elt F)),
    nullary main_cst_9 (constant S_ .f32 0x00000000#32),
    binary main_v145 main_cst_9 main_v148 ((fun x v => Host.reduceAdd x v reducesTo_S1024000_S_d0 h_S_) : (⟨S1024000, .f32⟩ : BufTy).Contents (Elt F) → (⟨S_, .f32⟩ : BufTy).Contents (Elt F) → (⟨S_, .f32⟩ : BufTy).Contents (Elt F)),
    binary main_v147 main_v148 main_v149 (Host.divf : (⟨S_, .f32⟩ : BufTy).Contents (Elt F) → (⟨S_, .f32⟩ : BufTy).Contents (Elt F) → (⟨S_, .f32⟩ : BufTy).Contents (Elt F)),
    nullary main_cst_10 (constant S_ .f32 0x3F666666#32),
    binary main_cst_10 main_v17 main_v150 (mulf : (⟨S_, .f32⟩ : BufTy).Contents (Elt F) → (⟨S_, .f32⟩ : BufTy).Contents (Elt F) → (⟨S_, .f32⟩ : BufTy).Contents (Elt F)),
    nullary main_cst_11 (constant S_ .f32 0x3B03126F#32),
    binary main_cst_11 main_v149 main_v151 (mulf : (⟨S_, .f32⟩ : BufTy).Contents (Elt F) → (⟨S_, .f32⟩ : BufTy).Contents (Elt F) → (⟨S_, .f32⟩ : BufTy).Contents (Elt F)),
    binary main_v150 main_v151 main_v152 (addf : (⟨S_, .f32⟩ : BufTy).Contents (Elt F) → (⟨S_, .f32⟩ : BufTy).Contents (Elt F) → (⟨S_, .f32⟩ : BufTy).Contents (Elt F)) ]

/-- @main's 167 operations, in order: the five stretches one after the other. -/
abbrev ops : List (HloOp τ sig (Elt F)) := opsA ++ (opsB ++ (opsC ++ (opsD ++ opsE)))

theorem ops_split : (ops : List (HloOp τ sig (Elt F))) = opsA ++ (opsB ++ (opsC ++ (opsD ++ opsE))) := rfl

/-- A property of every entry of two lists holds of every entry of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem opsA_sub : (opsA : List (HloOp τ sig (Elt F))).Forall fun op => op.bufs ⊆ tcRefs τ sig :=
  ⟨reshape_bufs_sub .., unary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., binary_bufs_sub .., binary_bufs_sub .., nullary_bufs_sub .., binary_bufs_sub .., nullary_bufs_sub .., binary_bufs_sub .., reshape_bufs_sub .., unary_bufs_sub .., unary_bufs_sub .., unary_bufs_sub .., unary_bufs_sub .., binary_bufs_sub .., unary_bufs_sub .., unary_bufs_sub .., unary_bufs_sub .., binary_bufs_sub .., reshape_bufs_sub .., nullary_bufs_sub .., unary_bufs_sub .., binary_bufs_sub .., reshape_bufs_sub .., binary_bufs_sub ..⟩
theorem opsB_sub : (opsB : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsC_sub : (opsC : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub ..⟩
theorem opsD_sub : (opsD : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub .., binary_bufs_sub .., binary_bufs_sub .., binary_bufs_sub .., unary_bufs_sub .., unary_bufs_sub .., unary_bufs_sub .., binary_bufs_sub .., nullary_bufs_sub .., unary_bufs_sub .., unary_bufs_sub .., ternary_bufs_sub ..⟩
theorem opsE_sub : (opsE : List (HloOp τ sig (Elt F))).Forall fun op => op.bufs ⊆ tcRefs τ sig :=
  ⟨unary_bufs_sub .., reshape_bufs_sub .., binary_bufs_sub .., reshape_bufs_sub .., unary_bufs_sub .., reshape_bufs_sub .., unary_bufs_sub .., reshape_bufs_sub .., unary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., reshape_bufs_sub .., binary_bufs_sub .., unary_bufs_sub .., reshape_bufs_sub .., binary_bufs_sub .., binary_bufs_sub .., binary_bufs_sub .., binary_bufs_sub .., binary_bufs_sub .., reshape_bufs_sub .., unary_bufs_sub .., reshape_bufs_sub .., unary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub ..⟩

/-- Every operation touches TensorCore buffers only. -/
theorem ops_sub : (ops : List (HloOp τ sig (Elt F))).Forall fun op => op.bufs ⊆ tcRefs τ sig :=
  forall_append opsA_sub (forall_append opsB_sub (forall_append opsC_sub (forall_append opsD_sub opsE_sub)))

end Cert.ReferenceIdeal.Stretch

end
-- ==== Proof.RefOps.lean ====
import proofs.«431324_j10900626998069_3_alg».proof.Proof.RefTable

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_fresh : (ops : List (HloOp τ sig (Elt F))).Forall fun op => op.fresh = ∅ := by
  refine forall_append ?_ (forall_append ?_ (forall_append ?_ (forall_append ?_ ?_))) <;>
    (simp only [List.Forall]; repeat' constructor)

set_option maxRecDepth 8192 in
/-- Every weakly fair execution of the reference ends, faulting nowhere, with each buffer at the fold of its operations. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ op h => (List.forall_iff_forall_mem.mp ops_fresh) op h)

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m : (ℓ : Loc nD τ sig) → Buf (Elt F) ℓ)

abbrev R0 (c : Dev nD) : Valuation τ sig (Elt F) := launchContents m c
abbrev R1 (c : Dev nD) : Valuation τ sig (Elt F) := after opsA (R0 m c)
abbrev R2 (c : Dev nD) : Valuation τ sig (Elt F) := after opsB (R1 m c)
abbrev R3 (c : Dev nD) : Valuation τ sig (Elt F) := after opsC (R2 m c)
abbrev R4 (c : Dev nD) : Valuation τ sig (Elt F) := after opsD (R3 m c)
abbrev R5 (c : Dev nD) : Valuation τ sig (Elt F) := after opsE (R4 m c)

/-- The fold of the whole list is the five stretches' folds in turn. -/
theorem after_ops (c : Dev nD) : after ops (launchContents m c) = R5 m c := by
  rw [ops_split, after_append, after_append, after_append, after_append]

set_option maxRecDepth 8192 in
set_option maxHeartbeats 4000000 in
/-- No operation writes an argument: with the stretches laid end to end, each operation's result is another buffer. -/
theorem arg_kept (V : Valuation τ sig (Elt F)) {b : Ref sig .tc}
    (hb : b ∈ [main_arg0, main_arg1, main_arg2, main_arg3, main_arg4, main_arg5, main_arg6, main_arg7, main_arg8, main_arg9,
      main_arg10, main_arg11, main_arg12]) : after ops V (Proc.devRef .tc b) = V (Proc.devRef .tc b) := by
  simp only [List.mem_cons, List.not_mem_nil, or_false] at hb
  rcases hb with rfl | rfl | rfl | rfl | rfl | rfl | rfl | rfl | rfl | rfl | rfl | rfl | rfl <;>
    (simp only [ops, opsA, opsB, opsC, opsD, opsE, List.cons_append, List.nil_append]; after_results_simp)

set_option maxRecDepth 8192 in
theorem run (ρ : Dev nD → PrngReg) :
    θ_run defs (onTc (τ := τ) (main (F := F))) ⟨m, fun _ => 0, ρ⟩ fun r => ∀ c : Dev nD,
      r.2.mem ((c.tc : Thread nD τ).loc main_v152) = R5 m c (Proc.devRef .tc main_v152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c main_v152).trans (congrFun (after_ops m c) _),
      (h c main_arg0).trans (arg_kept _ (by decide)),
      (h c main_arg1).trans (arg_kept _ (by decide)),
      (h c main_arg2).trans (arg_kept _ (by decide)),
      (h c main_arg3).trans (arg_kept _ (by decide)),
      (h c main_arg4).trans (arg_kept _ (by decide)),
      (h c main_arg5).trans (arg_kept _ (by decide)),
      (h c main_arg6).trans (arg_kept _ (by decide)),
      (h c main_arg7).trans (arg_kept _ (by decide)),
      (h c main_arg8).trans (arg_kept _ (by decide)),
      (h c main_arg9).trans (arg_kept _ (by decide)),
      (h c main_arg10).trans (arg_kept _ (by decide)),
      (h c main_arg11).trans (arg_kept _ (by decide)),
      (h c main_arg12).trans (arg_kept _ (by decide))⟩) (run_raw m ρ)

end Cert.ReferenceIdeal.Stretch

end
-- ==== Proof.RefArgs.lean ====
import proofs.«431324_j10900626998069_3_alg».proof.Proof.Gen.ReferenceIdeal
import proofs.«431324_j10900626998069_3_alg».proof.Proof.Spec

noncomputable section

namespace Cert.ReferenceIdeal.Val

open Idealize.ShloMosaic Idealize.ShloMosaic.TcCoe Idealize.ShloMosaic.ValueIdx
open Idealize.SL Idealize.SL.Sem
open Cert.ReferenceIdeal Cert.ReferenceIdeal.Gen

noncomputable def argsOf (m : (ℓ : Loc nD τ sig) → Buf (Elt Ideal) ℓ) (c : Dev nD) : Cert.Spec.Args where
  yPred := m ((c.tc : Thread nD τ).loc main_arg0)
  yTrue := m ((c.tc : Thread nD τ).loc main_arg1)
  xIn := m ((c.tc : Thread nD τ).loc main_arg2)
  eIdx := m ((c.tc : Thread nD τ).loc main_arg3)
  eAttr := m ((c.tc : Thread nD τ).loc main_arg4)
  xMean := m ((c.tc : Thread nD τ).loc main_arg5)
  xStd := m ((c.tc : Thread nD τ).loc main_arg6)
  yMean := m ((c.tc : Thread nD τ).loc main_arg7)
  yStd := m ((c.tc : Thread nD τ).loc main_arg8)
  eMean := m ((c.tc : Thread nD τ).loc main_arg9)
  eStd := m ((c.tc : Thread nD τ).loc main_arg10)
  mask := m ((c.tc : Thread nD τ).loc main_arg11)
  shunt := m ((c.tc : Thread nD τ).loc main_arg12)

noncomputable def scR : Cert.Spec.ScatterFn :=
  fun x i u => Host.scatterAdd (F := Ideal) (φ := .f32) scatter_S1024000x2_S3072000x1_S3072000x2_1_0_0_1 x i u

end Cert.ReferenceIdeal.Val

end
-- ==== Proof.RefNode.lean ====
import proofs.«431324_j10900626998069_3_alg».proof.Proof.RefOps
import proofs.«431324_j10900626998069_3_alg».proof.Proof.RefArgs
import proofs.«431324_j10900626998069_3_alg».proof.Proof.ValArgs
import Idealize.ShloMosaic.Lib.IdealHost
import Idealize.ShloMosaic.Lib.Pipeline.Value
import Idealize.ShloMosaic.Lib.ValueLayout

noncomputable section

namespace Cert.ReferenceIdeal.Val

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.Stretch
open Cert.KernelIdeal.Val (physSpec lo2)

variable (m : (ℓ : Loc nD τ sig) → Buf (Elt Ideal) ℓ) (c : Dev nD)

namespace RefNode

open Cert.Spec

def rep (t : FVec Ideal S2000x2 .f32) : FVec Ideal S512x2000x2 .f32 :=
  broadcastInDim S512x2000x2 ![0, 1, 2] bcast_S1x2000x2_S512x2000x2_0_1_2
    (broadcastInDim S1x2000x2 ![1, 2] bcast_S2000x2_S1x2000x2_1_2 t)

theorem rep_apply (t : FVec Ideal S2000x2 .f32) (b : Fin 512) (k : Fin 2000) (f : Fin 2) :
    rep t (ix3 b k f) = t (ix2 k f) := by
  refine (broadcastInDim_apply _ _ _ (ix3 b k f) (ix3 (0 : Fin 1) k f) (fun a => ?_)).trans
    (broadcastInDim_apply _ _ _ (ix3 (0 : Fin 1) k f) (ix2 k f) (fun a => ?_))
  · match a with
    | ⟨0, _⟩ => rfl
    | ⟨1, _⟩ => rfl
    | ⟨2, _⟩ => rfl
  · match a with
    | ⟨0, _⟩ => rfl
    | ⟨1, _⟩ => rfl

def den (y : FVec Ideal S512x4000 .f32) (sd mn : FVec Ideal S2000x2 .f32) : FVec Ideal S512x2000x2 .f32 :=
  addf (mulf (shapeCast S512x2000x2 y shapeCasts_S512x4000_S512x2000x2) (rep sd)) (rep mn)

-- Entry (b, k, f) of the [512, 2000, 2] view of a [512, 4000] array is its entry (b, 2k + f).
theorem den_apply (y : FVec Ideal S512x4000 .f32) (sd mn : FVec Ideal S2000x2 .f32) (n : Fin 1024000) (f : Fin 2) :
    den y sd mn (ix3 (bat n) (bus n) f) = y (ix2 (bat n) (ycol n f)) * sd (ix2 (bus n) f) + mn (ix2 (bus n) f) := by
  unfold den
  rw [addf_apply, mulf_apply, rep_apply, rep_apply,
    shapeCast_apply y shapeCasts_S512x4000_S512x2000x2 (ix3 (bat n) (bus n) f) (ix2 (bat n) (ycol n f)) (by
      rw [Shape.rowMajor_val_two, Shape.rowMajor_val_three]
      show (bat n).val * 4000 + (2 * (bus n).val + f.val) = ((bat n).val * 2000 + (bus n).val) * 2 + f.val
      omega)]

def denX (x : FVec Ideal S1024000x7 .f32) (sd mn : FVec Ideal S2000x7 .f32) : FVec Ideal S512x2000x2 .f32 :=
  addf (mulf (extractStridedSlice S512x2000x2 ![0, 0, 0] (shapeCast S512x2000x7 x shapeCasts_S1024000x7_S512x2000x7)
        slices_S512x2000x7_S512x2000x2_0_0_0)
      (rep (extractStridedSlice S2000x2 ![0, 0] sd slices_S2000x7_S2000x2_0_0)))
    (rep (extractStridedSlice S2000x2 ![0, 0] mn slices_S2000x7_S2000x2_0_0))

-- Row n = 2000 · (n / 2000) + n % 2000 of a [1024000, 7] array is entry (n / 2000, n % 2000) of its [512, 2000, 7] view.
theorem denX_apply (x : FVec Ideal S1024000x7 .f32) (sd mn : FVec Ideal S2000x7 .f32) (n : Fin 1024000) (f : Fin 2) :
    denX x sd mn (ix3 (bat n) (bus n) f) = x (ix2 n (f7 f)) * sd (ix2 (bus n) (f7 f)) + mn (ix2 (bus n) (f7 f)) := by
  unfold denX
  rw [addf_apply, mulf_apply, rep_apply, rep_apply,
    slice2_axis1_apply 0 sd _ (bus n) f (f7 f) (Nat.zero_add _).symm, slice2_axis1_apply 0 mn _ (bus n) f (f7 f) (Nat.zero_add _).symm,
    extractStridedSlice_apply ![0, 0, 0] _ slices_S512x2000x7_S512x2000x2_0_0_0 (ix3 (bat n) (bus n) f) (ix3 (bat n) (bus n) (f7 f))
      (fun a => by
        match a with
        | ⟨0, _⟩ => exact (Nat.zero_add _).symm
        | ⟨1, _⟩ => exact (Nat.zero_add _).symm
        | ⟨2, _⟩ => exact (Nat.zero_add _).symm),
    shapeCast_apply x shapeCasts_S1024000x7_S512x2000x7 (ix3 (bat n) (bus n) (f7 f)) (ix2 n (f7 f)) (by
      rw [Shape.rowMajor_val_two, Shape.rowMajor_val_three]
      show n.val * 7 + f.val = (n.val / 2000 * 2000 + n.val % 2000) * 7 + f.val
      omega)]

-- (n, f) ↦ (n / 2000, n % 2000, f) matches the entries of the [1024000, 2] and [512, 2000, 2] views by row-major position.
def entryEquiv : Fin 1024000 × Fin 2 ≃ S512x2000x2.Idx :=
  idxEquiv2.symm.trans (Shape.reshapeEquiv shapeCasts_S512x2000x2_S1024000x2)

theorem entryEquiv_apply (p : Fin 1024000 × Fin 2) : entryEquiv p = ix3 (bat p.1) (bus p.1) p.2 :=
  Shape.reshapeEquiv_eq_of_rowMajor _ (by
    rw [Shape.rowMajor_val_two, Shape.rowMajor_val_three]
    show (p.1.val / 2000 * 2000 + p.1.val % 2000) * 2 + p.2.val = p.1.val * 2 + p.2.val
    omega)

theorem flat_apply (v : FVec Ideal S512x2000x2 .f32) (n : Fin 1024000) (f : Fin 2) :
    shapeCast S1024000x2 v shapeCasts_S512x2000x2_S1024000x2 (ix2 n f) = v (ix3 (bat n) (bus n) f) :=
  congrArg v (entryEquiv_apply (n, f))

theorem ofBits_hundred : Ideal.ofBits .f32 0x42C80000#32 = ((100 : ℝ) : EReal) := by
  simp [Ideal.ofBits, Ideal.ieee, -EReal.coe_mul]; norm_num

def physTerm (yP : FVec Ideal S512x4000 .f32) (x : FVec Ideal S1024000x7 .f32) (xm xs : FVec Ideal S2000x7 .f32)
    (ym ys : FVec Ideal S2000x2 .f32) : FVec Ideal S1024000x4 .f32 :=
  concatenate S1024000x4 1
    [⟨S1024000x2, shapeCast S1024000x2 (den yP ys ym) shapeCasts_S512x2000x2_S1024000x2⟩,
     ⟨S1024000x2, Host.divf (shapeCast S1024000x2 (denX x xs xm) shapeCasts_S512x2000x2_S1024000x2)
        (broadcastInDim S1024000x2 ![] bcast_S_S1024000x2 (constant (F := Ideal) S_ .f32 0x42C80000#32))⟩]
    concatenates_S1024000x2_S1024000x2_S1024000x4_d1

-- Columns 0, 1 are the first piece (the prediction), columns 2, 3 the second (the demand, divided by 100).
theorem physTerm_spec (A : Args) (n : Fin 1024000) (j : Fin 4) :
    physTerm A.yPred A.xIn A.xMean A.xStd A.yMean A.yStd (ix2 n j) = physSpec A j n := by
  unfold physSpec physTerm
  by_cases hj : j.val < 2
  · rw [if_pos hj, concatenate_pair_apply_left (t := S1024000x4) (s₁ := S1024000x2) (s₂ := S1024000x2) (1 : Fin 2) _ _
      concatenates_S1024000x2_S1024000x2_S1024000x4_d1 (ix2 n j) rfl (ix2 n (lo2 j)) (fun b => by
        match b with
        | ⟨0, _⟩ => rfl
        | ⟨1, _⟩ => exact Nat.mod_eq_of_lt hj), flat_apply, den_apply]
    rfl
  · have hj4 := j.isLt
    rw [if_neg hj, concatenate_pair_apply_right (t := S1024000x4) (s₁ := S1024000x2) (s₂ := S1024000x2) (1 : Fin 2) _ _
      concatenates_S1024000x2_S1024000x2_S1024000x4_d1 (ix2 n j) rfl rfl (ix2 n (lo2 j))
      (fun b hb => by
        match b with
        | ⟨0, _⟩ => rfl
        | ⟨1, _⟩ => exact absurd rfl hb)
      (by show j.val % 2 + 2 = j.val; omega),
      hostDivf_apply, broadcastInDim_scalar_apply, constant_apply, ofBits_hundred,
      Ideal.div_coe (by norm_num : (100 : ℝ) ≠ 0), flat_apply, denX_apply]
    rfl

def mseTerm (yP yT : FVec Ideal S512x4000 .f32) (ym ys : FVec Ideal S2000x2 .f32) : FVec Ideal S_ .f32 :=
  Host.divf
    (Host.reduceAdd (mulf (subf (den yP ys ym) (den yT ys ym)) (subf (den yP ys ym) (den yT ys ym)))
      (constant (F := Ideal) S_ .f32 0x00000000#32) reducesTo_S512x2000x2_S_d0_1_2 h_S_)
    (constant (F := Ideal) S_ .f32 0x49FA0000#32)

theorem mseTerm_spec (A : Args) :
    mseTerm A.yPred A.yTrue A.yMean A.yStd = fun _ => Ideal.div (sqErr A) cCount := by
  funext j
  unfold mseTerm
  rw [hostDivf_apply, hostReduceAdd_apply, Ideal.hostReduceAdd_total _ (fun b => b.elim0), constant_apply, constant_apply,
    Ideal.ofBits_zero_f32, zero_add]
  refine congrArg (fun t => Ideal.div t cCount) ?_
  unfold sqErr
  rw [← Fintype.sum_prod_type']
  refine (Fintype.sum_equiv entryEquiv _ _ (fun p => ?_)).symm
  rw [entryEquiv_apply, mulf_apply, subf_apply, den_apply, den_apply]
  rfl

end RefNode

theorem ref_phys (n : Fin 1024000) (j : Fin 4) :
    (R1 m c main_v32 : S1024000x4.Idx → EReal) (ix2 n j) = physSpec (argsOf m c) j n := by
  refine Eq.trans (congrFun ?_ _) (RefNode.physTerm_spec (argsOf m c) n j)
  dsimp only [R1, R0]; after_results; rfl

theorem ref_mse :
    (R1 m c main_v17 : S_.Idx → EReal) = fun _ => Ideal.div (Cert.Spec.sqErr (argsOf m c)) Cert.Spec.cCount := by
  refine Eq.trans ?_ (RefNode.mseTerm_spec (argsOf m c))
  dsimp only [R1, R0]; after_results; rfl

end Cert.ReferenceIdeal.Val

end
-- ==== Proof.RefGather.lean ====
import proofs.«431324_j10900626998069_3_alg».proof.Proof.RefOps
import proofs.«431324_j10900626998069_3_alg».proof.Proof.RefArgs
import proofs.«431324_j10900626998069_3_alg».proof.Proof.ValArgs
import Idealize.ShloMosaic.Lib.Pipeline.Value
import Idealize.ShloMosaic.Lib.ValueLayout

noncomputable section

namespace Cert.ReferenceIdeal.Val

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.Stretch
open Cert.KernelIdeal.Val (physSpec)

variable (m : (ℓ : Loc nD τ sig) → Buf (Elt Ideal) ℓ) (c : Dev nD)

namespace RefGather

theorem bcast4_read {α : Type} (v : S4.Idx → α) (e : Fin 3072000) (j : Fin 4) :
    broadcastInDim S3072000x4 ![0, 1] bcast_S1x4_S3072000x4_0_1 (broadcastInDim S1x4 ![1] bcast_S4_S1x4_1 v) (ix2 e j) = v (ix1 j) := by
  refine (broadcastInDim_apply _ _ _ (ix2 e j) (ix2 (0 : Fin 1) j) (fun a => ?_)).trans
    (broadcastInDim_apply _ _ v (ix2 (0 : Fin 1) j) (ix1 j) (fun a => ?_))
  · match a with
    | ⟨0, _⟩ => rfl
    | ⟨1, _⟩ => rfl
  · match a with
    | ⟨0, _⟩ => rfl

theorem col_read {α : Type} (v : S3072000.Idx → α) (e : Fin 3072000) (z : Fin 1) :
    broadcastInDim S3072000x1 ![0] bcast_S3072000_S3072000x1_0 v (ix2 e z) = v (ix1 e) :=
  broadcastInDim_apply _ _ v (ix2 e z) (ix1 e) (fun a => by
    match a with
    | ⟨0, _⟩ => rfl)

abbrev rowDims (wf : GatherDims.WF S1024000x4 S3072000x1 S3072000x4 [1] [0] [] [0] [] 1 ![1, 4]) :
    GatherDims S1024000x4 S3072000x1 S3072000x4 where
  offsetDims := [1]
  collapsedSliceDims := [0]
  operandBatchingDims := []
  startIndicesBatchingDims := []
  startIndexMap := [0]
  indexVectorDim := 1
  sliceSizes := ![1, 4]
  wf := wf

-- A gather of whole rows: axis 0 is collapsed and start-indexed (signed, clamped into the rows), axis 1 is the offset axis.
theorem gather_rows_apply {α : Type} {w : Nat} (wf : GatherDims.WF S1024000x4 S3072000x1 S3072000x4 [1] [0] [] [0] [] 1 ![1, 4])
    (x : S1024000x4.Idx → α) (idx : IVec S3072000x1 w) (e : Fin 3072000) (j : Fin 4) :
    Host.gather (rowDims wf) x idx (ix2 e j)
      = x (ix2 (⟨min (idx (ix2 e (0 : Fin 1))).toInt.toNat 1023999, by omega⟩ : Fin 1024000) j) := by
  unfold Host.gather
  congr 1
  funext a
  refine Fin.ext ?_
  match a with
  | ⟨0, _⟩ =>
    have hsi : (rowDims wf).siIdx (ix2 e j) ⟨0, Nat.one_pos⟩ = ix2 e (0 : Fin 1) := by
      funext b; refine Fin.ext ?_
      match b with
      | ⟨0, _⟩ => rfl
      | ⟨1, _⟩ => rfl
    exact congrArg (fun i => min (idx i).toInt.toNat 1023999) hsi
  | ⟨1, _⟩ =>
    have hs : (rowDims wf).start (ix2 e j) idx 1 = 0 := rfl
    have hb : (rowDims wf).batchCoord (ix2 e j) 1 = 0 := rfl
    have ho : (rowDims wf).offCoord (ix2 e j) 1 = j.val := rfl
    show (rowDims wf).start (ix2 e j) idx 1 + (rowDims wf).batchCoord (ix2 e j) 1 + (rowDims wf).offCoord (ix2 e j) 1 = j.val
    rw [hs, hb, ho]
    omega

def rowVec (o : Nat) (h : S2x3072000.Slices ![o, 0] S1x3072000) (idx : IVec S2x3072000 32) : IVec S3072000 32 :=
  shapeCast S3072000 (extractStridedSlice S1x3072000 ![o, 0] idx h) shapeCasts_S1x3072000_S3072000

theorem rowVec_read (o : Nat) (ho : o < 2) (h : S2x3072000.Slices ![o, 0] S1x3072000) (idx : IVec S2x3072000 32)
    (e : Fin 3072000) : rowVec o h idx (ix1 e) = idx (ix2 (⟨o, ho⟩ : Fin 2) e) := by
  refine (shapeCast_apply _ shapeCasts_S1x3072000_S3072000 (ix1 e) (ix2 (0 : Fin 1) e) ?_).trans
    (slice2_axis0_apply o idx h (0 : Fin 1) e ⟨o, ho⟩ rfl)
  rw [Shape.rowMajor_val_two, Shape.rowMajor_val_one]
  show (0 : Nat) * _ + e.val = e.val
  omega

def wrapVec (wv : IVec S3072000 32) : IVec S3072000 32 :=
  select (cmpi .slt wv (broadcastInDim S3072000 ![] bcast_S_S3072000 (constantI S_ 32 0#32)))
    (addi wv (broadcastInDim S3072000 ![] bcast_S_S3072000 (constantI S_ 32 1024000#32))) wv

-- After the wrap, the clamped start index of row e is the node the word names.
theorem gather_read {α : Type} (x : S1024000x4.Idx → α) (wv : IVec S3072000 32) (e : Fin 3072000) (j : Fin 4) :
    Host.gather gather_S1024000x4_S3072000x1_S3072000x4_1_0_n_n_0_1_14 x
        (broadcastInDim S3072000x1 ![0] bcast_S3072000_S3072000x1_0 (wrapVec wv)) (ix2 e j)
      = x (ix2 (Cert.Spec.nodeOf (wv (ix1 e))) j) := by
  rw [show gather_S1024000x4_S3072000x1_S3072000x4_1_0_n_n_0_1_14
      = rowDims gather_S1024000x4_S3072000x1_S3072000x4_1_0_n_n_0_1_14_wf from rfl, gather_rows_apply]
  exact congrArg (fun n => x (ix2 n j))
    (Fin.ext (congrArg (fun w : BitVec 32 => min w.toInt.toNat 1023999) (col_read (wrapVec wv) e 0)))

section Stretch
variable (V : Valuation τ sig (Elt Ideal))

theorem v38_eq : (after opsB V main_v38 : S3072000x4.Idx → EReal)
    = addf (F := Ideal) (s := S3072000x4) (φ := .f32) (mulf (F := Ideal) (s := S3072000x4) (φ := .f32) (V main_arg4) (broadcastInDim S3072000x4 ![0, 1] bcast_S1x4_S3072000x4_0_1 (broadcastInDim S1x4 ![1] bcast_S4_S1x4_1 (V main_arg10))))
        (broadcastInDim S3072000x4 ![0, 1] bcast_S1x4_S3072000x4_0_1 (broadcastInDim S1x4 ![1] bcast_S4_S1x4_1 (V main_arg9))) := by
  after_results

theorem v40_eq : (after opsB V main_v40 : IVec S3072000 32) = rowVec 0 slices_S2x3072000_S1x3072000_0_0 (V main_arg3) := by
  after_results
  rfl

set_option maxHeartbeats 1000000 in
theorem v49_eq : (after opsB V main_v49 : S3072000x4.Idx → EReal)
    = Host.gather gather_S1024000x4_S3072000x1_S3072000x4_1_0_n_n_0_1_14 (V main_v32)
        (broadcastInDim S3072000x1 ![0] bcast_S3072000_S3072000x1_0 (wrapVec (rowVec 0 slices_S2x3072000_S1x3072000_0_0 (V main_arg3)))) := by
  after_results
  rfl

set_option maxHeartbeats 1000000 in
theorem v56_eq : (after opsB V main_v56 : S3072000x4.Idx → EReal)
    = Host.gather gather_S1024000x4_S3072000x1_S3072000x4_1_0_n_n_0_1_14 (V main_v32)
        (broadcastInDim S3072000x1 ![0] bcast_S3072000_S3072000x1_0 (wrapVec (rowVec 1 slices_S2x3072000_S1x3072000_1_0 (V main_arg3)))) := by
  after_results
  rfl

end Stretch

-- No operation of the first stretch writes an argument array.
theorem args_R1 : (R1 m c main_arg3 : IVec S2x3072000 32) = (argsOf m c).eIdx
    ∧ (R1 m c main_arg4 : S3072000x4.Idx → EReal) = (argsOf m c).eAttr
    ∧ (R1 m c main_arg9 : S4.Idx → EReal) = (argsOf m c).eMean
    ∧ (R1 m c main_arg10 : S4.Idx → EReal) = (argsOf m c).eStd := by
  refine ⟨?_, ?_, ?_, ?_⟩ <;> dsimp only [R1, R0] <;> after_results_simp <;> rfl

end RefGather

open RefGather in
theorem ref_gathered
    (hphys : ∀ (n : Fin 1024000) (j : Fin 4), (R1 m c main_v32 : S1024000x4.Idx → EReal) (ix2 n j) = physSpec (argsOf m c) j n)
    (e : Fin 3072000) (j : Fin 4) :
    (R2 m c main_v49 : S3072000x4.Idx → EReal) (ix2 e j) = physSpec (argsOf m c) j (Cert.Spec.srcN (argsOf m c) e)
    ∧ (R2 m c main_v56 : S3072000x4.Idx → EReal) (ix2 e j) = physSpec (argsOf m c) j (Cert.Spec.dstN (argsOf m c) e)
    ∧ (R2 m c main_v38 : S3072000x4.Idx → EReal) (ix2 e j) = Cert.Spec.epu (argsOf m c) e j
    ∧ (R2 m c main_v40 : IVec S3072000 32) (ix1 e) = Cert.Spec.srcW (argsOf m c) e := by
  obtain ⟨h3, h4, h9, h10⟩ := args_R1 m c
  dsimp only [R2]
  refine ⟨?_, ?_, ?_, ?_⟩
  · rw [v49_eq, gather_read, hphys, rowVec_read _ (by omega), h3]
    rfl
  · rw [v56_eq, gather_read, hphys, rowVec_read _ (by omega), h3]
    rfl
  · rw [v38_eq, addf_apply, mulf_apply, bcast4_read, bcast4_read, h4, h9, h10]
    rfl
  · rw [v40_eq, rowVec_read _ (by omega), h3]
    rfl

end Cert.ReferenceIdeal.Val

end
-- ==== Proof.RefEdge.lean ====
import proofs.«431324_j10900626998069_3_alg».proof.Proof.RefOps
import proofs.«431324_j10900626998069_3_alg».proof.Proof.RefArgs
import proofs.«431324_j10900626998069_3_alg».proof.Proof.ValArgs
import Idealize.ShloMosaic.Lib.ValueLayout
import Idealize.ShloMosaic.Lib.IdealHost

noncomputable section

namespace Cert.ReferenceIdeal.Val

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.Stretch
open Cert.KernelIdeal.Val (physSpec)

namespace RefEdge

def colV (o : ℕ) (hs : S3072000x4.Slices ![0, o] S3072000x1) (X : FVec Ideal S3072000x4 .f32) : FVec Ideal S3072000 .f32 :=
  shapeCast S3072000 (extractStridedSlice S3072000x1 ![0, o] X hs) shapeCasts_S3072000x1_S3072000

-- Column o cut out as [E, 1] and flattened: position e of the vector is position (e, 0) of the column.
theorem colV_at (o : ℕ) (hs : S3072000x4.Slices ![0, o] S3072000x1) (X : FVec Ideal S3072000x4 .f32) (e : Fin 3072000)
    (j : Fin 4) (hj : j.val = o) : colV o hs X (ix1 e) = X (ix2 e j) := by
  refine (shapeCast_apply _ shapeCasts_S3072000x1_S3072000 (ix1 e) (ix2 e 0) ?_).trans
    (slice2_axis1_apply o X hs e 0 j (by show j.val = o + 0; omega))
  rw [Shape.rowMajor_val_two, Shape.rowMajor_val_one]
  show e.val * 1 + 0 = e.val
  omega

theorem bcast_col_at {α : Type} (x : S3072000.Idx → α) (e : Fin 3072000) (k : Fin 1) :
    broadcastInDim S3072000x1 ![0] bcast_S3072000_S3072000x1_0 x (ix2 e k) = x (ix1 e) :=
  broadcastInDim_apply _ _ x (ix2 e k) (ix1 e) (fun a => by
    match a with
    | ⟨0, _⟩ => rfl)

theorem concat_at0 (a b : S3072000x1.Idx → EReal) (e : Fin 3072000) :
    concatenate S3072000x2 1 [⟨S3072000x1, a⟩, ⟨S3072000x1, b⟩] concatenates_S3072000x1_S3072000x1_S3072000x2_d1 (ix2 e 0)
      = a (ix2 e 0) :=
  concatenate_pair_apply_left (t := S3072000x2) (s₁ := S3072000x1) (s₂ := S3072000x1) 1 a b
    concatenates_S3072000x1_S3072000x1_S3072000x2_d1 (ix2 e 0) rfl (ix2 e 0) (fun b => by
    match b with
    | ⟨0, _⟩ => rfl
    | ⟨1, _⟩ => rfl)
theorem concat_at1 (a b : S3072000x1.Idx → EReal) (e : Fin 3072000) :
    concatenate S3072000x2 1 [⟨S3072000x1, a⟩, ⟨S3072000x1, b⟩] concatenates_S3072000x1_S3072000x1_S3072000x2_d1 (ix2 e 1)
      = b (ix2 e 0) :=
  concatenate_pair_apply_right (t := S3072000x2) (s₁ := S3072000x1) (s₂ := S3072000x1) 1 a b
    concatenates_S3072000x1_S3072000x1_S3072000x2_d1 (ix2 e 1) rfl rfl (ix2 e 0) (fun b hb => by
    match b with
    | ⟨0, _⟩ => rfl
    | ⟨1, _⟩ => exact absurd rfl hb) rfl

def c0 (X : FVec Ideal S3072000x4 .f32) : FVec Ideal S3072000 .f32 := colV 0 slices_S3072000x4_S3072000x1_0_0 X
def c1 (X : FVec Ideal S3072000x4 .f32) : FVec Ideal S3072000 .f32 := colV 1 slices_S3072000x4_S3072000x1_0_1 X
def c2 (X : FVec Ideal S3072000x4 .f32) : FVec Ideal S3072000 .f32 := colV 2 slices_S3072000x4_S3072000x1_0_2 X
def c3 (X : FVec Ideal S3072000x4 .f32) : FVec Ideal S3072000 .f32 := colV 3 slices_S3072000x4_S3072000x1_0_3 X
def degV : FVec Ideal S3072000 .f32 :=
  broadcastInDim S3072000 ![] bcast_S_S3072000 (constant (F := Ideal) S_ .f32 0x3C8EFA35#32)

theorem c0_at (X : FVec Ideal S3072000x4 .f32) (e : Fin 3072000) : c0 X (ix1 e) = X (ix2 e 0) := colV_at 0 _ X e 0 rfl
theorem c1_at (X : FVec Ideal S3072000x4 .f32) (e : Fin 3072000) : c1 X (ix1 e) = X (ix2 e 1) := colV_at 1 _ X e 1 rfl
theorem c2_at (X : FVec Ideal S3072000x4 .f32) (e : Fin 3072000) : c2 X (ix1 e) = X (ix2 e 2) := colV_at 2 _ X e 2 rfl
theorem c3_at (X : FVec Ideal S3072000x4 .f32) (e : Fin 3072000) : c3 X (ix1 e) = X (ix2 e 3) := colV_at 3 _ X e 3 rfl

def eVec (X : FVec Ideal S3072000x4 .f32) : FVec Ideal S3072000 .f32 := mulf (c0 X) (Host.cos (mulf (c1 X) degV))
def fVec (X : FVec Ideal S3072000x4 .f32) : FVec Ideal S3072000 .f32 := mulf (c0 X) (Host.sin (mulf (c1 X) degV))

-- A gathered row that holds a node's features has that node's rectangular voltage components.
theorem ef_at (A : Cert.Spec.Args) (X : FVec Ideal S3072000x4 .f32) (nd : Fin 1024000) (e : Fin 3072000)
    (h : ∀ j : Fin 4, X (ix2 e j) = physSpec A j nd) :
    eVec X (ix1 e) = Cert.Spec.eN A nd ∧ fVec X (ix1 e) = Cert.Spec.fN A nd := by
  refine ⟨?_, ?_⟩
  · show c0 X (ix1 e) * Ideal.cos (c1 X (ix1 e) * degV (ix1 e)) = _
    rw [c0_at, c1_at, h, h]; rfl
  · show c0 X (ix1 e) * Ideal.sin (c1 X (ix1 e) * degV (ix1 e)) = _
    rw [c0_at, c1_at, h, h]; rfl

def ire3 (xi xj ep : FVec Ideal S3072000x4 .f32) : FVec Ideal S3072000 .f32 :=
  addf (subf (mulf (c0 ep) (eVec xi)) (mulf (c1 ep) (fVec xi))) (mulf (c2 ep) (eVec xj))
def ire4 (xj ep : FVec Ideal S3072000x4 .f32) : FVec Ideal S3072000 .f32 := mulf (c3 ep) (fVec xj)

def msgV (ei fi ej fj gs bs gm bm p q : FVec Ideal S3072000 .f32) : FVec Ideal S3072000x2 .f32 :=
  concatenate S3072000x2 1
    [⟨S3072000x1, broadcastInDim S3072000x1 ![0] bcast_S3072000_S3072000x1_0
        (Host.negf (addf (mulf ei (subf p q))
          (mulf fi (addf (addf (addf (mulf gs fi) (mulf bs ei)) (mulf gm fj)) (mulf bm ej)))))⟩,
     ⟨S3072000x1, broadcastInDim S3072000x1 ![0] bcast_S3072000_S3072000x1_0
        (Host.negf (subf (mulf fi (subf p q))
          (mulf ei (addf (addf (addf (mulf gs fi) (mulf bs ei)) (mulf gm fj)) (mulf bm ej)))))⟩]
    concatenates_S3072000x1_S3072000x1_S3072000x2_d1

theorem hostNegf_apply {s : Shape} (a : FVec Ideal s .f32) (i : s.Idx) : Host.negf a i = -(a i) := rfl

section Stretches
variable (V : Valuation τ sig (Elt Ideal))

theorem C40 : (after opsC V main_v40 : IVec S3072000 32) = V main_v40 := by after_results_simp

theorem CD109 : (after opsD (after opsC V) main_v109 : S3072000x2.Idx → EReal)
    = msgV (eVec (V main_v49)) (fVec (V main_v49)) (eVec (V main_v56)) (fVec (V main_v56)) (c0 (V main_v38)) (c1 (V main_v38))
        (c2 (V main_v38)) (c3 (V main_v38)) (ire3 (V main_v49) (V main_v56) (V main_v38)) (ire4 (V main_v56) (V main_v38)) := by
  after_results_simp; rfl
theorem D110 : (after opsD V main_v110 : S1024000x2.Idx → EReal)
    = broadcastInDim S1024000x2 ![] bcast_S_S1024000x2 (constant (F := Ideal) S_ .f32 0x00000000#32) := by
  after_results_simp
theorem D111 : (after opsD V main_v111 : IVec S3072000x1 32)
    = broadcastInDim S3072000x1 ![0] bcast_S3072000_S3072000x1_0 (V main_v40 : IVec S3072000 32) := by
  after_results_simp
theorem D112 : (after opsD V main_v112 : S1024000x2.Idx → EReal)
    = Host.scatterAdd (F := Ideal) (φ := .f32) scatter_S1024000x2_S3072000x1_S3072000x2_1_0_0_1
        (after opsD V main_v110) (after opsD V main_v111) (after opsD V main_v109) := by
  after_results_simp

end Stretches

-- Entry by entry the two columns are the specification's messages: the components, the admittances and the real current agree.
theorem msg_eq (A : Cert.Spec.Args) (xi xj ep : FVec Ideal S3072000x4 .f32)
    (hi : ∀ (e : Fin 3072000) (j : Fin 4), xi (ix2 e j) = physSpec A j (Cert.Spec.srcN A e))
    (hj : ∀ (e : Fin 3072000) (j : Fin 4), xj (ix2 e j) = physSpec A j (Cert.Spec.dstN A e))
    (hp : ∀ (e : Fin 3072000) (j : Fin 4), ep (ix2 e j) = Cert.Spec.epu A e j) :
    msgV (eVec xi) (fVec xi) (eVec xj) (fVec xj) (c0 ep) (c1 ep) (c2 ep) (c3 ep) (ire3 xi xj ep) (ire4 xj ep)
      = Cert.Spec.msgArr A := by
  funext j
  obtain ⟨e, k, rfl⟩ : ∃ (e : Fin 3072000) (k : Fin 2), j = ix2 e k := ⟨j 0, j 1, eq_ix2 j⟩
  obtain ⟨hei, hfi⟩ := ef_at A xi _ e (hi e)
  obtain ⟨hej, hfj⟩ := ef_at A xj _ e (hj e)
  have hgs : c0 ep (ix1 e) = Cert.Spec.epu A e 0 := (c0_at ep e).trans (hp e 0)
  have hbs : c1 ep (ix1 e) = Cert.Spec.epu A e 1 := (c1_at ep e).trans (hp e 1)
  have hgm : c2 ep (ix1 e) = Cert.Spec.epu A e 2 := (c2_at ep e).trans (hp e 2)
  have hbm : c3 ep (ix1 e) = Cert.Spec.epu A e 3 := (c3_at ep e).trans (hp e 3)
  have hire : ire3 xi xj ep (ix1 e) - ire4 xj ep (ix1 e) = Cert.Spec.iRe A e := by
    show (c0 ep (ix1 e) * eVec xi (ix1 e) - c1 ep (ix1 e) * fVec xi (ix1 e) + c2 ep (ix1 e) * eVec xj (ix1 e))
      - c3 ep (ix1 e) * fVec xj (ix1 e) = _
    rw [hgs, hbs, hgm, hbm, hei, hfi, hej, hfj]; rfl
  unfold msgV
  match k with
  | ⟨0, _⟩ =>
    refine (concat_at0 _ _ e).trans ((bcast_col_at _ e 0).trans ?_)
    simp only [hostNegf_apply, addf_apply, subf_apply, mulf_apply, hire, hei, hfi, hej, hfj, hgs, hbs, hgm, hbm]
    rfl
  | ⟨1, _⟩ =>
    refine (concat_at1 _ _ e).trans ((bcast_col_at _ e 0).trans ?_)
    simp only [hostNegf_apply, addf_apply, subf_apply, mulf_apply, hire, hei, hfi, hej, hfj, hgs, hbs, hgm, hbm]
    rfl

end RefEdge

variable (m : (ℓ : Loc nD τ sig) → Buf (Elt Ideal) ℓ) (c : Dev nD)

open RefEdge in
-- The scatter-add's three operands are the specification's zeros, source column and message array.
theorem ref_agg
    (hg : ∀ (e : Fin 3072000) (j : Fin 4),
      (R2 m c main_v49 : S3072000x4.Idx → EReal) (ix2 e j) = physSpec (argsOf m c) j (Cert.Spec.srcN (argsOf m c) e)
      ∧ (R2 m c main_v56 : S3072000x4.Idx → EReal) (ix2 e j) = physSpec (argsOf m c) j (Cert.Spec.dstN (argsOf m c) e)
      ∧ (R2 m c main_v38 : S3072000x4.Idx → EReal) (ix2 e j) = Cert.Spec.epu (argsOf m c) e j
      ∧ (R2 m c main_v40 : IVec S3072000 32) (ix1 e) = Cert.Spec.srcW (argsOf m c) e) :
    (R4 m c main_v112 : S1024000x2.Idx → EReal) = Cert.Spec.agg (argsOf m c) scR := by
  have hmsg : (after opsD (R3 m c) main_v109 : S3072000x2.Idx → EReal) = Cert.Spec.msgArr (argsOf m c) :=
    (CD109 (R2 m c)).trans
      (msg_eq (argsOf m c) _ _ _ (fun e j => (hg e j).1) (fun e j => (hg e j).2.1) (fun e j => (hg e j).2.2.1))
  have hzero : (after opsD (R3 m c) main_v110 : S1024000x2.Idx → EReal) = Cert.Spec.zeros :=
    (D110 (R3 m c)).trans (funext fun j => broadcastInDim_scalar_apply _ _ j)
  have hcol : (after opsD (R3 m c) main_v111 : IVec S3072000x1 32) = Cert.Spec.srcCol (argsOf m c) := by
    refine (D111 (R3 m c)).trans (funext fun j => ?_)
    obtain ⟨e, k, rfl⟩ : ∃ (e : Fin 3072000) (k : Fin 1), j = ix2 e k := ⟨j 0, j 1, eq_ix2 j⟩
    exact (bcast_col_at _ e k).trans ((congrFun (C40 (R2 m c)) _).trans (hg e 0).2.2.2)
  refine (D112 (R3 m c)).trans ?_
  rw [hzero, hcol, hmsg]
  rfl

end Cert.ReferenceIdeal.Val

end
-- ==== Proof.RefLoss.lean ====
import proofs.«431324_j10900626998069_3_alg».proof.Proof.RefOps
import proofs.«431324_j10900626998069_3_alg».proof.Proof.RefArgs
import proofs.«431324_j10900626998069_3_alg».proof.Proof.ValArgs
import Idealize.ShloMosaic.PureOps.Ideal.Laws
import Idealize.ShloMosaic.Lib.IdealHost
import Idealize.ShloMosaic.Lib.Pipeline.Value
import Idealize.ShloMosaic.Lib.ValueLayout
import Idealize.ShloMosaic.Lib.ValueIdxRank1

noncomputable section

namespace Cert.ReferenceIdeal.Val

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.Stretch
open Cert.KernelIdeal.Val (physSpec)

variable (m : (ℓ : Loc nD τ sig) → Buf (Elt Ideal) ℓ) (c : Dev nD)

namespace RefLoss

open Cert.Spec (bat bus)

theorem sum_ix1 {n : ℕ} (f : (⟨1, ![n]⟩ : Shape).Idx → EReal) : ∑ i, f i = ∑ a : Fin n, f (ix1 a) :=
  (Equiv.sum_comp idxEquiv1.symm f).symm

section Term

variable (x32 : FVec Ideal S1024000x4 .f32) (x112 : FVec Ideal S1024000x2 .f32) (sh : FVec Ideal S2000x2 .f32)
  (mk : IVec S2000 1) (mse : FVec Ideal S_ .f32)

def colOf {k : ℕ} (o : ℕ) (A : FVec Ideal ⟨2, ![1024000, k]⟩ .f32) (hs : (⟨2, ![1024000, k]⟩ : Shape).Slices ![0, o] S1024000x1) :
    FVec Ideal S1024000 .f32 :=
  fun i => shapeCast S1024000 (extractStridedSlice S1024000x1 ![0, o] A hs) shapeCasts_S1024000x1_S1024000 i

def shuntT : FVec Ideal S1024000x2 .f32 :=
  fun i => shapeCast S1024000x2
    (broadcastInDim S512x2000x1x2 ![0, 1, 2, 3] bcast_S1x2000x1x2_S512x2000x1x2_0_1_2_3
      fun i => shapeCast S1x2000x1x2 sh shapeCasts_S2000x2_S1x2000x1x2 i)
    shapeCasts_S512x2000x1x2_S1024000x2 i

def vmSq : FVec Ideal S1024000 .f32 :=
  mulf (colOf 0 x32 slices_S1024000x4_S1024000x1_0_0) (colOf 0 x32 slices_S1024000x4_S1024000x1_0_0)

def dPa : FVec Ideal S1024000 .f32 :=
  addf (addf (Host.negf (colOf 0 x112 slices_S1024000x2_S1024000x1_0_0)) (colOf 2 x32 slices_S1024000x4_S1024000x1_0_2))
    (mulf (vmSq x32) (colOf 0 (shuntT sh) slices_S1024000x2_S1024000x1_0_0))
def dQa : FVec Ideal S1024000 .f32 :=
  subf (addf (Host.negf (colOf 1 x112 slices_S1024000x2_S1024000x1_0_1)) (colOf 3 x32 slices_S1024000x4_S1024000x1_0_3))
    (mulf (vmSq x32) (colOf 1 (shuntT sh) slices_S1024000x2_S1024000x1_0_1))

def wa : FVec Ideal S1024000 .f32 :=
  uitofp .f32 fun i => shapeCast S1024000
    (broadcastInDim S512x2000 ![0, 1] bcast_S1x2000_S512x2000_0_1 fun i => shapeCast S1x2000 mk shapeCasts_S2000_S1x2000 i)
    shapeCasts_S512x2000_S1024000 i

def lossA : FVec Ideal S_ .f32 :=
  addf (mulf (constant (F := Ideal) S_ .f32 0x3F666666#32) mse)
    (mulf (constant (F := Ideal) S_ .f32 0x3B03126F#32)
      (Host.divf
        (Host.reduceAdd
          (mulf (addf (mulf (dPa x32 x112 sh) (dPa x32 x112 sh)) (mulf (dQa x32 x112 sh) (dQa x32 x112 sh))) (wa mk))
          (constant (F := Ideal) S_ .f32 0x00000000#32) reducesTo_S1024000_S_d0 h_S_)
        (Host.reduceAdd (wa mk) (constant (F := Ideal) S_ .f32 0x00000000#32) reducesTo_S1024000_S_d0 h_S_)))

theorem hostNegf_apply {s : Shape} (a : FVec Ideal s .f32) (i : s.Idx) : Host.negf a i = -(a i) := rfl

-- Column o cut out as [N, 1] and flattened: position n of the vector is position (n, 0) of the column.
theorem colOf_apply {k : ℕ} (o : ℕ) (A : FVec Ideal ⟨2, ![1024000, k]⟩ .f32)
    (hs : (⟨2, ![1024000, k]⟩ : Shape).Slices ![0, o] S1024000x1) (n : Fin 1024000) (j : Fin k) (hj : j.val = o) :
    colOf o A hs (ix1 n) = A (ix2 n j) := by
  unfold colOf
  rw [shapeCast_apply _ shapeCasts_S1024000x1_S1024000 (ix1 n) (ix2 n (0 : Fin 1)) (by
    rw [Shape.rowMajor_val_two, Shape.rowMajor_val_one]
    show n.val * 1 + 0 = n.val
    omega)]
  exact slice2_axis1_apply o A hs n 0 j (by show j.val = o + 0; omega)

-- Node n = 2000 · (n / 2000) + n % 2000 sits in batch n / 2000 at bus n % 2000 of the repeated table.
theorem shuntT_apply (n : Fin 1024000) (f : Fin 2) : shuntT sh (ix2 n f) = sh (ix2 (bus n) f) := by
  unfold shuntT
  rw [shapeCast_apply _ shapeCasts_S512x2000x1x2_S1024000x2 (ix2 n f) (ix4 (bat n) (bus n) (0 : Fin 1) f) (by
    rw [Shape.rowMajor_val_four, Shape.rowMajor_val_two]
    show (((n.val / 2000) * 2000 + n.val % 2000) * 1 + 0) * 2 + f.val = n.val * 2 + f.val
    omega)]
  rw [broadcastInDim_apply _ bcast_S1x2000x1x2_S512x2000x1x2_0_1_2_3 _ (ix4 (bat n) (bus n) (0 : Fin 1) f)
    (ix4 (0 : Fin 1) (bus n) (0 : Fin 1) f) (fun a => by
      match a with
      | ⟨0, _⟩ => rfl
      | ⟨1, _⟩ => rfl
      | ⟨2, _⟩ => rfl
      | ⟨3, _⟩ => rfl)]
  exact shapeCast_apply _ shapeCasts_S2000x2_S1x2000x1x2 _ (ix2 (bus n) f) (by
    rw [Shape.rowMajor_val_four, Shape.rowMajor_val_two]
    show (n.val % 2000) * 2 + f.val = (((0 * 2000 + n.val % 2000) * 1 + 0) * 2 + f.val)
    omega)

theorem uitofp_apply {s : Shape} {w : ℕ} (x : IVec s w) (i : s.Idx) :
    (uitofp .f32 x : FVec Ideal s .f32) i = (((x i).toNat : ℝ) : EReal) := rfl

theorem wa_apply (n : Fin 1024000) : wa mk (ix1 n) = (((mk (ix1 (bus n))).toNat : ℝ) : EReal) := by
  unfold wa
  rw [uitofp_apply, shapeCast_apply _ shapeCasts_S512x2000_S1024000 (ix1 n) (ix2 (bat n) (bus n)) (by
      rw [Shape.rowMajor_val_two, Shape.rowMajor_val_one]
      show (n.val / 2000) * 2000 + n.val % 2000 = n.val
      omega),
    broadcastInDim_apply _ bcast_S1x2000_S512x2000_0_1 _ (ix2 (bat n) (bus n)) (ix2 (0 : Fin 1) (bus n)) (fun a => by
      match a with
      | ⟨0, _⟩ => rfl
      | ⟨1, _⟩ => rfl),
    shapeCast_apply _ shapeCasts_S2000_S1x2000 _ (ix1 (bus n)) (by
      rw [Shape.rowMajor_val_two, Shape.rowMajor_val_one]
      show n.val % 2000 = 0 * 2000 + n.val % 2000
      omega)]

theorem dPa_apply (n : Fin 1024000) : dPa x32 x112 sh (ix1 n)
    = -(x112 (ix2 n 0)) + x32 (ix2 n 2) + x32 (ix2 n 0) * x32 (ix2 n 0) * sh (ix2 (bus n) 0) := by
  unfold dPa vmSq
  rw [addf_apply, addf_apply, mulf_apply, mulf_apply, hostNegf_apply,
    colOf_apply 0 x112 _ n 0 rfl, colOf_apply 2 x32 _ n 2 rfl, colOf_apply 0 x32 _ n 0 rfl,
    colOf_apply 0 (shuntT sh) _ n 0 rfl, shuntT_apply]

theorem dQa_apply (n : Fin 1024000) : dQa x32 x112 sh (ix1 n)
    = -(x112 (ix2 n 1)) + x32 (ix2 n 3) - x32 (ix2 n 0) * x32 (ix2 n 0) * sh (ix2 (bus n) 1) := by
  unfold dQa vmSq
  rw [subf_apply, addf_apply, mulf_apply, mulf_apply, hostNegf_apply,
    colOf_apply 1 x112 _ n 1 rfl, colOf_apply 3 x32 _ n 3 rfl, colOf_apply 0 x32 _ n 0 rfl,
    colOf_apply 1 (shuntT sh) _ n 1 rfl, shuntT_apply]

end Term

theorem lossE (V : Valuation τ sig (Elt Ideal)) :
    (after opsE V main_v152 : S_.Idx → EReal)
      = lossA (V main_v32) (V main_v112) (V main_arg12) (V main_arg11) (V main_v17) := by
  after_results_simp
  rfl

theorem phys0 (A : Cert.Spec.Args) (n : Fin 1024000) : physSpec A 0 n = Cert.Spec.yp A n 0 := rfl
theorem phys2 (A : Cert.Spec.Args) (n : Fin 1024000) : physSpec A 2 n = Cert.Spec.pq A n 0 := rfl
theorem phys3 (A : Cert.Spec.Args) (n : Fin 1024000) : physSpec A 3 n = Cert.Spec.pq A n 1 := rfl

-- Both reductions start from the zero word and run over every node; entry by entry the summands are the specification's.
theorem loss_of (A : Cert.Spec.Args) (sc : Cert.Spec.ScatterFn)
    (x32 : FVec Ideal S1024000x4 .f32) (x112 : FVec Ideal S1024000x2 .f32) (sh : FVec Ideal S2000x2 .f32)
    (mk : IVec S2000 1) (mse : FVec Ideal S_ .f32)
    (h32 : ∀ (n : Fin 1024000) (j : Fin 4), x32 (ix2 n j) = physSpec A j n)
    (hmse : mse = fun _ => Ideal.div (Cert.Spec.sqErr A) Cert.Spec.cCount)
    (h112 : x112 = Cert.Spec.agg A sc) (hsh : sh = A.shunt) (hmk : mk = A.mask) (i : S_.Idx) :
    lossA x32 x112 sh mk mse i = Cert.Spec.loss A sc := by
  subst hmse h112 hsh hmk
  unfold lossA
  rw [addf_apply, mulf_apply, mulf_apply, constant_apply, constant_apply, hostDivf_apply, hostReduceAdd_apply, hostReduceAdd_apply,
    Ideal.hostReduceAdd_total _ (fun b => b.elim0), Ideal.hostReduceAdd_total _ (fun b => b.elim0), constant_apply,
    Ideal.ofBits_zero_f32, zero_add, zero_add, sum_ix1, sum_ix1]
  unfold Cert.Spec.loss Cert.Spec.physNum Cert.Spec.sumW Cert.Spec.sqN Cert.Spec.dP Cert.Spec.dQ Cert.Spec.wN
    Cert.Spec.cMse Cert.Spec.cPhys
  simp only [mulf_apply, addf_apply, dPa_apply, dQa_apply, wa_apply, h32, phys0, phys2, phys3]

macro "refLoss_not_written" : tactic =>
  `(tactic| (refine after_of_forall_not_mem _ _ (List.forall_iff_forall_mem.mp ?_)
             simp only [List.Forall, nullary_writes, unary_writes, binary_writes, ternary_writes, quaternary_writes,
               reshape_writes, binaryIndexed_writes, Finset.mem_singleton]
             repeat' apply And.intro
             all_goals exact devRef_ne_of_ne (by decide)))

-- No operation between the first stretch and the last writes the node features, the squared-error mean or an argument.
theorem v32_R4 : R4 m c (Proc.devRef .tc main_v32) = R1 m c (Proc.devRef .tc main_v32) :=
  Eq.trans (by refLoss_not_written) (Eq.trans (by refLoss_not_written) (by refLoss_not_written))
theorem v17_R4 : R4 m c (Proc.devRef .tc main_v17) = R1 m c (Proc.devRef .tc main_v17) :=
  Eq.trans (by refLoss_not_written) (Eq.trans (by refLoss_not_written) (by refLoss_not_written))
theorem arg12_R4 : R4 m c (Proc.devRef .tc main_arg12) = m ((c.tc : Thread nD τ).loc main_arg12) :=
  Eq.trans (by refLoss_not_written) (Eq.trans (by refLoss_not_written) (Eq.trans (by refLoss_not_written) (by refLoss_not_written)))
theorem arg11_R4 : R4 m c (Proc.devRef .tc main_arg11) = m ((c.tc : Thread nD τ).loc main_arg11) :=
  Eq.trans (by refLoss_not_written) (Eq.trans (by refLoss_not_written) (Eq.trans (by refLoss_not_written) (by refLoss_not_written)))

end RefLoss

theorem ref_loss
    (hphys : ∀ (n : Fin 1024000) (j : Fin 4), (R1 m c main_v32 : S1024000x4.Idx → EReal) (ix2 n j) = physSpec (argsOf m c) j n)
    (hmse : (R1 m c main_v17 : S_.Idx → EReal) = fun _ => Ideal.div (Cert.Spec.sqErr (argsOf m c)) Cert.Spec.cCount)
    (hagg : (R4 m c main_v112 : S1024000x2.Idx → EReal) = Cert.Spec.agg (argsOf m c) scR) :
    (R5 m c main_v152 : S_.Idx → EReal) = fun _ => Cert.Spec.loss (argsOf m c) scR :=
  (RefLoss.lossE (R4 m c)).trans (funext fun i =>
    RefLoss.loss_of (argsOf m c) scR (R4 m c main_v32) (R4 m c main_v112) (R4 m c main_arg12) (R4 m c main_arg11) (R4 m c main_v17)
      (fun n j => (congrFun (RefLoss.v32_R4 m c) (ix2 n j)).trans (hphys n j))
      ((RefLoss.v17_R4 m c).trans hmse) hagg (RefLoss.arg12_R4 m c) (RefLoss.arg11_R4 m c) i)

end Cert.ReferenceIdeal.Val

end
-- ==== Proof.lean ====
/-
  The mixed loss (mean squared error of the denormalised voltage prediction plus the masked mean squared power-balance
  residual of one message-passing step): three kernel stages among host operations against the plain reference.
  Both programs end at the one function `Cert.Spec.loss` of the argument arrays; in the kernel x·(1/100) is x/100 by the
  named constant, and 512·Σ_bus w is Σ_node w.
-/
import proofs.«431324_j10900626998069_3_alg».proof.Defs
import proofs.«431324_j10900626998069_3_alg».proof.Proof.Gen.Kernel
import proofs.«431324_j10900626998069_3_alg».proof.Proof.Gen.KernelIdeal
import proofs.«431324_j10900626998069_3_alg».proof.Proof.Gen.ReferenceIdeal
import proofs.«431324_j10900626998069_3_alg».proof.Proof.Gen.Pre_finite_inputs
import proofs.«431324_j10900626998069_3_alg».proof.Proof.Frames
import proofs.«431324_j10900626998069_3_alg».proof.Proof.FramesBits
import proofs.«431324_j10900626998069_3_alg».proof.Proof.PreRange
import proofs.«431324_j10900626998069_3_alg».proof.Proof.ValHostIn
import proofs.«431324_j10900626998069_3_alg».proof.Proof.ValNodeBlocks
import proofs.«431324_j10900626998069_3_alg».proof.Proof.ValNodeSum
import proofs.«431324_j10900626998069_3_alg».proof.Proof.ValEdgeIn
import proofs.«431324_j10900626998069_3_alg».proof.Proof.ValEdgeBlocks
import proofs.«431324_j10900626998069_3_alg».proof.Proof.ValBalanceIn
import proofs.«431324_j10900626998069_3_alg».proof.Proof.ValBalanceSum
import proofs.«431324_j10900626998069_3_alg».proof.Proof.ValLoss
import proofs.«431324_j10900626998069_3_alg».proof.Proof.RefOps
import proofs.«431324_j10900626998069_3_alg».proof.Proof.RefArgs
import proofs.«431324_j10900626998069_3_alg».proof.Proof.RefNode
import proofs.«431324_j10900626998069_3_alg».proof.Proof.RefGather
import proofs.«431324_j10900626998069_3_alg».proof.Proof.RefEdge
import proofs.«431324_j10900626998069_3_alg».proof.Proof.RefLoss
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

section KernelLoss

open Cert.KernelIdeal Cert.KernelIdeal.Gen Cert.KernelIdeal.Fold Cert.KernelIdeal.Val

/-- The kernel program's result buffer ends at the loss of its arguments: the three stages' values chained. -/
theorem kernel_loss (m : (ℓ : Loc nD τ sig) → Buf (Elt Ideal) ℓ) (hpre : Cert.Pre_KernelIdeal m) (c : Dev nD) :
    (W10 m c main_v87 : S_.Idx → EReal) = fun _ => Cert.Spec.loss (argsOf m c) scK := by
  have hr := range_of_pre m hpre c
  have hain := ain_eq m c
  have hpin := pin_eq m c
  have hphys := phys_eq m c hain hpin
  have hef := ef_eq m c hain
  have hmse := mse_eq m c hain
  have hxy := xy_eq m c hr hef
  have hmsg := msg_eq m c hxy (ea_eq m c) (em_eq m c) (es_eq m c)
  have hcin := cin_eq m c hmsg
  have hphys8 : ∀ (j : Fin 4) (R : Fin 8000) (l : Fin 128),
      (W8 m c main_v32_0 : S4x8000x128.Idx → EReal) (ix3 j R l) = physSpec (argsOf m c) j (nodeRL R l) := by
    intro j R l; rw [phys_kept m c]; exact hphys j R l
  exact loss_eq m c hmse (sumsq_eq m c hphys8 hcin)

end KernelLoss

section ReferenceLoss

open Cert.ReferenceIdeal Cert.ReferenceIdeal.Gen Cert.ReferenceIdeal.Stretch Cert.ReferenceIdeal.Val

/-- The reference's result buffer ends at the same loss: its five stretches' values chained. -/
theorem reference_loss (m : (ℓ : Loc nD τ sig) → Buf (Elt Ideal) ℓ) (c : Dev nD) :
    (R5 m c main_v152 : S_.Idx → EReal) = fun _ => Cert.Spec.loss (argsOf m c) scR := by
  have hphys := ref_phys m c
  exact ref_loss m c hphys (ref_mse m c) (ref_agg m c (ref_gathered m c hphys))

end ReferenceLoss

theorem sc_eq : Cert.ReferenceIdeal.Val.scR = Cert.KernelIdeal.Val.scK := rfl

theorem frame_k : Cert.frame_Kernel := fun m ρ _ =>
  (θ_run Cert.Kernel.defs _ _).mono (fun r h c => Cert.Kernel.Fold.of_kept
    (P := fun b => r.2.mem ((c.tc : Thread Cert.Kernel.nD Cert.Kernel.τ).loc b) = m ((c.tc : Thread Cert.Kernel.nD Cert.Kernel.τ).loc b)) (h c).2)
    (Cert.Kernel.Frames.frame (F := Bits) m ρ)
theorem frame_ki : Cert.frame_KernelIdeal := fun m ρ _ =>
  (θ_run Cert.KernelIdeal.defs _ _).mono (fun r h c => Cert.KernelIdeal.Fold.of_kept
    (P := fun b => r.2.mem ((c.tc : Thread Cert.KernelIdeal.nD Cert.KernelIdeal.τ).loc b) = m ((c.tc : Thread Cert.KernelIdeal.nD Cert.KernelIdeal.τ).loc b)) (h c).2)
    (Cert.KernelIdeal.Frames.frame (F := Ideal) m ρ)
theorem frame_ri : Cert.frame_ReferenceIdeal := fun m ρ _ =>
  (θ_run Cert.ReferenceIdeal.defs _ _).mono (fun _ h c => (h c).2) (Cert.ReferenceIdeal.Stretch.run (F := Ideal) m ρ)

theorem preserves : Cert.preserves_Kernel_KernelIdeal :=
  IdealRules.named_const.statement Cert.KernelIdeal.κ "inv_100" .f32 0x3C23D70A#32 ((1 / 100 : ℝ) : EReal) rfl

theorem algebraic : Cert.algebraic_KernelIdeal_ReferenceIdeal := by
  intro m ρ m' ρ' hpre hagree
  refine ⟨fun c => fun _ => Cert.Spec.loss (Cert.KernelIdeal.Val.argsOf m c) Cert.KernelIdeal.Val.scK, ?_, ?_⟩
  · exact (θ_run Cert.KernelIdeal.defs _ _).mono (fun r h c => ⟨(h c).1.trans (kernel_loss m hpre c), Cert.KernelIdeal.Fold.of_kept
      (P := fun b => r.2.mem ((c.tc : Thread Cert.KernelIdeal.nD Cert.KernelIdeal.τ).loc b) = m ((c.tc : Thread Cert.KernelIdeal.nD Cert.KernelIdeal.τ).loc b)) (h c).2⟩)
      (Cert.KernelIdeal.Frames.frame (F := Ideal) m ρ)
  · refine (θ_run Cert.ReferenceIdeal.defs _ _).mono (fun r h c => ⟨(h c).1.trans ?_, (h c).2⟩)
      (Cert.ReferenceIdeal.Stretch.run (F := Ideal) m' ρ')
    refine (reference_loss m' c).trans ?_
    obtain ⟨h0, h1, h2, h3, h4, h5, h6, h7, h8, h9, h10, h11, h12⟩ := hagree c
    unfold Cert.ReferenceIdeal.Val.argsOf Cert.KernelIdeal.Val.argsOf
    rw [h0, h1, h2, h3, h4, h5, h6, h7, h8, h9, h10, h11, h12, sc_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
